-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S26x16384 : Shape := ⟨2, ![26, 16384]⟩
abbrev S26x100000x100 : Shape := ⟨3, ![26, 100000, 100]⟩
abbrev S26x100 : Shape := ⟨2, ![26, 100]⟩
abbrev S26x100x16 : Shape := ⟨3, ![26, 100, 16]⟩
abbrev S26x16 : Shape := ⟨2, ![26, 16]⟩
abbrev S416 : Shape := ⟨1, ![416]⟩
abbrev S416x416 : Shape := ⟨2, ![416, 416]⟩
abbrev S416x16 : Shape := ⟨2, ![416, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S26x100000x100 : S_.BroadcastsInDim S26x100000x100 (![] : Fin 0 → Fin S26x100000x100.rank)
  reducesTo_S26x100000x100_S_d0_1_2 : S26x100000x100.ReducesTo [0, 1, 2] S_
  h_S_ : 0 < S_.numel
  bcast_S_S26x100 : S_.BroadcastsInDim S26x100 (![] : Fin 0 → Fin S26x100.rank)
  reducesTo_S26x100_S_d0_1 : S26x100.ReducesTo [0, 1] S_
  bcast_S_S26x100x16 : S_.BroadcastsInDim S26x100x16 (![] : Fin 0 → Fin S26x100x16.rank)
  reducesTo_S26x100x16_S_d0_1_2 : S26x100x16.ReducesTo [0, 1, 2] S_
  bcast_S_S26x16 : S_.BroadcastsInDim S26x16 (![] : Fin 0 → Fin S26x16.rank)
  reducesTo_S26x16_S_d0_1 : S26x16.ReducesTo [0, 1] S_
  bcast_S_S416 : S_.BroadcastsInDim S416 (![] : Fin 0 → Fin S416.rank)
  reducesTo_S416_S_d0 : S416.ReducesTo [0] S_
  bcast_S_S416x416 : S_.BroadcastsInDim S416x416 (![] : Fin 0 → Fin S416x416.rank)
  reducesTo_S416x416_S_d0_1 : S416x416.ReducesTo [0, 1] S_
  bcast_S_S416x16 : S_.BroadcastsInDim S416x16 (![] : Fin 0 → Fin S416x16.rank)
  reducesTo_S416x16_S_d0_1 : S416x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S26x16384 : S_.BroadcastsInDim S26x16384 (![] : Fin 0 → Fin S26x16384.rank)
  reducesTo_S26x16384_S_d0_1 : S26x16384.ReducesTo [0, 1] S_

variable [Facts]

def fn_part4 {F : FTy → Type} [FloatOps F] (main_v63 : IVec S_ 1) (main_v65 : IVec S26x16384 1) (main_v67 : IVec S26x16384 1) : IVec S_ 1 :=
  let main_v68 : IVec S26x16384 1 := andi main_v65 main_v67
  let main_c_26 : IVec S_ 1 := constantI S_ 1 1#1
  let main_v69 : IVec S_ 1 := (fun x v => Host.reduce IntOp.andi x v reducesTo_S26x16384_S_d0_1 h_S_) main_v68 main_c_26
  let main_v70 : IVec S_ 1 := andi main_v63 main_v69
  main_v70

def fn_part3 {F : FTy → Type} [FloatOps F] (main_arg0 : IVec S26x16384 32) (main_arg12 : FVec F S16x2 .f32) (main_arg13 : FVec F S2 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x2 .f32 := Host.absf main_arg12
  let main_cst_20 : FVec F S_ .f32 := constant S_ .f32 0x7F800000#32
  let main_v55 : FVec F S16x2 .f32 := broadcastInDim S16x2 ![] bcast_S_S16x2 main_cst_20
  let main_v56 : IVec S16x2 1 := cmpf .olt main_v54 main_v55
  let main_c_21 : IVec S_ 1 := constantI S_ 1 1#1
  let main_v57 : IVec S_ 1 := (fun x v => Host.reduce IntOp.andi x v reducesTo_S16x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_c_24 : IVec S_ 32 := constantI S_ 32 0#32
  let main_v64 : IVec S26x16384 32 := broadcastInDim S26x16384 ![] bcast_S_S26x16384 main_c_24
  let main_v65 : IVec S26x16384 1 := cmpi .sge main_arg0 main_v64
  let main_c_25 : IVec S_ 32 := constantI S_ 32 99999#32
  let main_v66 : IVec S26x16384 32 := broadcastInDim S26x16384 ![] bcast_S_S26x16384 main_c_25
  let main_v67 : IVec S26x16384 1 := cmpi .sle main_arg0 main_v66
  fn_part4 (F := F) main_v63 main_v65 main_v67

def fn_part2 {F : FTy → Type} [FloatOps F] (main_arg0 : IVec S26x16384 32) (main_arg8 : FVec F S416x416 .f32) (main_arg9 : FVec F S416 .f32) (main_arg10 : FVec F S416x16 .f32) (main_arg11 : FVec F S16 .f32) (main_arg12 : FVec F S16x2 .f32) (main_arg13 : FVec F S2 .f32) (main_v33 : IVec S_ 1) : IVec S_ 1 :=
  let main_v34 : FVec F S416x416 .f32 := Host.absf main_arg8
  let main_cst_12 : FVec F S_ .f32 := constant S_ .f32 0x7F800000#32
  let main_v35 : FVec F S416x416 .f32 := broadcastInDim S416x416 ![] bcast_S_S416x416 main_cst_12
  let main_v36 : IVec S416x416 1 := cmpf .olt main_v34 main_v35
  let main_c_13 : IVec S_ 1 := constantI S_ 1 1#1
  let main_v37 : IVec S_ 1 := (fun x v => Host.reduce IntOp.andi x v reducesTo_S416x416_S_d0_1 h_S_) main_v36 main_c_13
  let main_v38 : IVec S_ 1 := andi main_v33 main_v37
  let main_v39 : FVec F S416 .f32 := Host.absf main_arg9
  let main_cst_14 : FVec F S_ .f32 := constant S_ .f32 0x7F800000#32
  let main_v40 : FVec F S416 .f32 := broadcastInDim S416 ![] bcast_S_S416 main_cst_14
  let main_v41 : IVec S416 1 := cmpf .olt main_v39 main_v40
  let main_c_15 : IVec S_ 1 := constantI S_ 1 1#1
  let main_v42 : IVec S_ 1 := (fun x v => Host.reduce IntOp.andi x v reducesTo_S416_S_d0 h_S_) main_v41 main_c_15
  let main_v43 : IVec S_ 1 := andi main_v38 main_v42
  let main_v44 : FVec F S416x16 .f32 := Host.absf main_arg10
  let main_cst_16 : FVec F S_ .f32 := constant S_ .f32 0x7F800000#32
  let main_v45 : FVec F S416x16 .f32 := broadcastInDim S416x16 ![] bcast_S_S416x16 main_cst_16
  let main_v46 : IVec S416x16 1 := cmpf .olt main_v44 main_v45
  let main_c_17 : IVec S_ 1 := constantI S_ 1 1#1
  let main_v47 : IVec S_ 1 := (fun x v => Host.reduce IntOp.andi x v reducesTo_S416x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg0 main_arg12 main_arg13 main_v48 main_v49 main_v50

def fn_part1 {F : FTy → Type} [FloatOps F] (main_arg0 : IVec S26x16384 32) (main_arg5 : FVec F S26x16 .f32) (main_arg6 : FVec F S416 .f32) (main_arg7 : FVec F S416 .f32) (main_arg8 : FVec F S416x416 .f32) (main_arg9 : FVec F S416 .f32) (main_arg10 : FVec F S416x16 .f32) (main_arg11 : FVec F S16 .f32) (main_arg12 : FVec F S16x2 .f32) (main_arg13 : FVec F S2 .f32) (main_v13 : IVec S_ 1) (main_v16 : IVec S26x100x16 1) : IVec S_ 1 :=
  let main_c_5 : IVec S_ 1 := constantI S_ 1 1#1
  let main_v17 : IVec S_ 1 := (fun x v => Host.reduce IntOp.andi x v reducesTo_S26x100x16_S_d0_1_2 h_S_) main_v16 main_c_5
  let main_v18 : IVec S_ 1 := andi main_v13 main_v17
  let main_v19 : FVec F S26x16 .f32 := Host.absf main_arg5
  let main_cst_6 : FVec F S_ .f32 := constant S_ .f32 0x7F800000#32
  let main_v20 : FVec F S26x16 .f32 := broadcastInDim S26x16 ![] bcast_S_S26x16 main_cst_6
  let main_v21 : IVec S26x16 1 := cmpf .olt main_v19 main_v20
  let main_c_7 : IVec S_ 1 := constantI S_ 1 1#1
  let main_v22 : IVec S_ 1 := (fun x v => Host.reduce IntOp.andi x v reducesTo_S26x16_S_d0_1 h_S_) main_v21 main_c_7
  let main_v23 : IVec S_ 1 := andi main_v18 main_v22
  let main_v24 : FVec F S416 .f32 := Host.absf main_arg6
  let main_cst_8 : FVec F S_ .f32 := constant S_ .f32 0x7F800000#32
  let main_v25 : FVec F S416 .f32 := broadcastInDim S416 ![] bcast_S_S416 main_cst_8
  let main_v26 : IVec S416 1 := cmpf .olt main_v24 main_v25
  let main_c_9 : IVec S_ 1 := constantI S_ 1 1#1
  let main_v27 : IVec S_ 1 := (fun x v => Host.reduce IntOp.andi x v reducesTo_S416_S_d0 h_S_) main_v26 main_c_9
  let main_v28 : IVec S_ 1 := andi main_v23 main_v27
  let main_v29 : FVec F S416 .f32 := Host.absf main_arg7
  let main_cst_10 : FVec F S_ .f32 := constant S_ .f32 0x7F800000#32
  let main_v30 : FVec F S416 .f32 := broadcastInDim S416 ![] bcast_S_S416 main_cst_10
  let main_v31 : IVec S416 1 := cmpf .olt main_v29 main_v30
  let main_c_11 : IVec S_ 1 := constantI S_ 1 1#1
  let main_v32 : IVec S_ 1 := (fun x v => Host.reduce IntOp.andi x v reducesTo_S416_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S26x16384 32) (main_arg1 : FVec F S26x100000x100 .f32) (main_arg2 : FVec F S26x100 .f32) (main_arg3 : FVec F S26x100 .f32) (main_arg4 : FVec F S26x100x16 .f32) (main_arg5 : FVec F S26x16 .f32) (main_arg6 : FVec F S416 .f32) (main_arg7 : FVec F S416 .f32) (main_arg8 : FVec F S416x416 .f32) (main_arg9 : FVec F S416 .f32) (main_arg10 : FVec F S416x16 .f32) (main_arg11 : FVec F S16 .f32) (main_arg12 : FVec F S16x2 .f32) (main_arg13 : FVec F S2 .f32) : IVec S_ 1 :=
  let main_v0 : FVec F S26x100000x100 .f32 := Host.absf main_arg1
  let main_cst : FVec F S_ .f32 := constant S_ .f32 0x7F800000#32
  let main_v1 : FVec F S26x100000x100 .f32 := broadcastInDim S26x100000x100 ![] bcast_S_S26x100000x100 main_cst
  let main_v2 : IVec S26x100000x100 1 := cmpf .olt main_v0 main_v1
  let main_c : IVec S_ 1 := constantI S_ 1 1#1
  let main_v3 : IVec S_ 1 := (fun x v => Host.reduce IntOp.andi x v reducesTo_S26x100000x100_S_d0_1_2 h_S_) main_v2 main_c
  let main_v4 : FVec F S26x100 .f32 := Host.absf main_arg2
  let main_cst_0 : FVec F S_ .f32 := constant S_ .f32 0x7F800000#32
  let main_v5 : FVec F S26x100 .f32 := broadcastInDim S26x100 ![] bcast_S_S26x100 main_cst_0
  let main_v6 : IVec S26x100 1 := cmpf .olt main_v4 main_v5
  let main_c_1 : IVec S_ 1 := constantI S_ 1 1#1
  let main_v7 : IVec S_ 1 := (fun x v => Host.reduce IntOp.andi x v reducesTo_S26x100_S_d0_1 h_S_) main_v6 main_c_1
  let main_v8 : IVec S_ 1 := andi main_v3 main_v7
  let main_v9 : FVec F S26x100 .f32 := Host.absf main_arg3
  let main_cst_2 : FVec F S_ .f32 := constant S_ .f32 0x7F800000#32
  let main_v10 : FVec F S26x100 .f32 := broadcastInDim S26x100 ![] bcast_S_S26x100 main_cst_2
  let main_v11 : IVec S26x100 1 := cmpf .olt main_v9 main_v10
  let main_c_3 : IVec S_ 1 := constantI S_ 1 1#1
  let main_v12 : IVec S_ 1 := (fun x v => Host.reduce IntOp.andi x v reducesTo_S26x100_S_d0_1 h_S_) main_v11 main_c_3
  let main_v13 : IVec S_ 1 := andi main_v8 main_v12
  let main_v14 : FVec F S26x100x16 .f32 := Host.absf main_arg4
  let main_cst_4 : FVec F S_ .f32 := constant S_ .f32 0x7F800000#32
  let main_v15 : FVec F S26x100x16 .f32 := broadcastInDim S26x100x16 ![] bcast_S_S26x100x16 main_cst_4
  let main_v16 : IVec S26x100x16 1 := cmpf .olt main_v14 main_v15
  fn_part1 (F := F) main_arg0 main_arg5 main_arg6 main_arg7 main_arg8 main_arg9 main_arg10 main_arg11 main_arg12 main_arg13 main_v13 main_v16
-- ==== Kernel.lean ====
abbrev S26x16384 : Shape := ⟨2, ![26, 16384]⟩
abbrev S26x100000x100 : Shape := ⟨3, ![26, 100000, 100]⟩
abbrev S26x100 : Shape := ⟨2, ![26, 100]⟩
abbrev S26x100x16 : Shape := ⟨3, ![26, 100, 16]⟩
abbrev S26x16 : Shape := ⟨2, ![26, 16]⟩
abbrev S416 : Shape := ⟨1, ![416]⟩
abbrev S416x416 : Shape := ⟨2, ![416, 416]⟩
abbrev S416x16 : Shape := ⟨2, ![416, 16]⟩
abbrev S16 : Shape := ⟨1, ![16]⟩
abbrev S16x2 : Shape := ⟨2, ![16, 2]⟩
abbrev S2 : Shape := ⟨1, ![2]⟩
abbrev S26x100x100000 : Shape := ⟨3, ![26, 100, 100000]⟩
abbrev S425984 : Shape := ⟨1, ![425984]⟩
abbrev S3328x16384 : Shape := ⟨2, ![3328, 16384]⟩
abbrev S100000 : Shape := ⟨1, ![100000]⟩
abbrev S16384 : Shape := ⟨1, ![16384]⟩
abbrev S2x4096 : Shape := ⟨2, ![2, 4096]⟩
abbrev S_ : Shape := ⟨0, ![]⟩
abbrev S1x100x100000 : Shape := ⟨3, ![1, 100, 100000]⟩
abbrev S100x100000 : Shape := ⟨2, ![100, 100000]⟩
abbrev S1x100000 : Shape := ⟨2, ![1, 100000]⟩
abbrev S1x16 : Shape := ⟨2, ![1, 16]⟩
abbrev S1x4096 : Shape := ⟨2, ![1, 4096]⟩
abbrev S4096 : Shape := ⟨1, ![4096]⟩
abbrev S1x16384 : Shape := ⟨2, ![1, 16384]⟩
abbrev S26x100x1 : Shape := ⟨3, ![26, 100, 1]⟩
abbrev S26x26 : Shape := ⟨2, ![26, 26]⟩
abbrev S26x1x26x1 : Shape := ⟨4, ![26, 1, 26, 1]⟩
abbrev S16x16 : Shape := ⟨2, ![16, 16]⟩
abbrev S1x16x1x16 : Shape := ⟨4, ![1, 16, 1, 16]⟩
abbrev S26x16x26x16 : Shape := ⟨4, ![26, 16, 26, 16]⟩
abbrev S26x16x416 : Shape := ⟨3, ![26, 16, 416]⟩
abbrev S1x416 : Shape := ⟨2, ![1, 416]⟩
abbrev S1x2 : Shape := ⟨2, ![1, 2]⟩
abbrev S16384x2 : Shape := ⟨2, ![16384, 2]⟩
abbrev S16384x16 : Shape := ⟨2, ![16384, 16]⟩
abbrev S3328x1024 : Shape := ⟨2, ![3328, 1024]⟩
abbrev S1024x2 : Shape := ⟨2, ![1024, 2]⟩
abbrev S1024x16 : Shape := ⟨2, ![1024, 16]⟩
abbrev S1024x416 : Shape := ⟨2, ![1024, 416]⟩
abbrev S100x1024 : Shape := ⟨2, ![100, 1024]⟩
abbrev S1024 : Shape := ⟨1, ![1024]⟩
abbrev S1x1024 : Shape := ⟨2, ![1, 1024]⟩
abbrev S1x100x16 : Shape := ⟨3, ![1, 100, 16]⟩
abbrev S100x16 : Shape := ⟨2, ![100, 16]⟩
abbrev S1x16x416 : Shape := ⟨3, ![1, 16, 416]⟩
abbrev S16x416 : Shape := ⟨2, ![16, 416]⟩
abbrev S1024x1 : Shape := ⟨2, ![1024, 1]⟩

abbrev nBuf : Table → Nat
  | .hbm => 50
  | .local .tc .vmem => 17
  | .local .scVector .vmem => 3
  | _ => 0

abbrev bufTy : (tb : Table) → Fin (nBuf tb) → BufTy
  | .hbm, ⟨0, _⟩ => ⟨S26x16384, .i32⟩
  | .hbm, ⟨1, _⟩ => ⟨S26x100000x100, .f32⟩
  | .hbm, ⟨2, _⟩ => ⟨S26x100, .f32⟩
  | .hbm, ⟨3, _⟩ => ⟨S26x100, .f32⟩
  | .hbm, ⟨4, _⟩ => ⟨S26x100x16, .f32⟩
  | .hbm, ⟨5, _⟩ => ⟨S26x16, .f32⟩
  | .hbm, ⟨6, _⟩ => ⟨S416, .f32⟩
  | .hbm, ⟨7, _⟩ => ⟨S416, .f32⟩
  | .hbm, ⟨8, _⟩ => ⟨S416x416, .f32⟩
  | .hbm, ⟨9, _⟩ => ⟨S416, .f32⟩
  | .hbm, ⟨10, _⟩ => ⟨S416x16, .f32⟩
  | .hbm, ⟨11, _⟩ => ⟨S16, .f32⟩
  | .hbm, ⟨12, _⟩ => ⟨S16x2, .f32⟩
  | .hbm, ⟨13, _⟩ => ⟨S2, .f32⟩
  | .hbm, ⟨14, _⟩ => ⟨S26x100x100000, .f32⟩
  | .hbm, ⟨15, _⟩ => ⟨S425984, .i32⟩
  | .hbm, ⟨16, _⟩ => ⟨S3328x16384, .f32⟩
  | .hbm, ⟨17, _⟩ => ⟨S26x100x1, .f32⟩
  | .hbm, ⟨18, _⟩ => ⟨S26x100x16, .f32⟩
  | .hbm, ⟨19, _⟩ => ⟨S26x100x16, .f32⟩
  | .hbm, ⟨20, _⟩ => ⟨S26x16, .f32⟩
  | .hbm, ⟨21, _⟩ => ⟨S26x16, .f32⟩
  | .hbm, ⟨22, _⟩ => ⟨S26x26, .i32⟩
  | .hbm, ⟨23, _⟩ => ⟨S26x26, .i32⟩
  | .hbm, ⟨24, _⟩ => ⟨S_, .i32⟩
  | .hbm, ⟨25, _⟩ => ⟨S26x26, .i32⟩
  | .hbm, ⟨26, _⟩ => ⟨S26x26, .i32⟩
  | .hbm, ⟨27, _⟩ => ⟨S26x26, .i1⟩
  | .hbm, ⟨28, _⟩ => ⟨S26x26, .bf16⟩
  | .hbm, ⟨29, _⟩ => ⟨S26x1x26x1, .bf16⟩
  | .hbm, ⟨30, _⟩ => ⟨S16x16, .i32⟩
  | .hbm, ⟨31, _⟩ => ⟨S16x16, .i32⟩
  | .hbm, ⟨32, _⟩ => ⟨S_, .i32⟩
  | .hbm, ⟨33, _⟩ => ⟨S16x16, .i32⟩
  | .hbm, ⟨34, _⟩ => ⟨S16x16, .i32⟩
  | .hbm, ⟨35, _⟩ => ⟨S16x16, .i1⟩
  | .hbm, ⟨36, _⟩ => ⟨S16x16, .bf16⟩
  | .hbm, ⟨37, _⟩ => ⟨S1x16x1x16, .bf16⟩
  | .hbm, ⟨38, _⟩ => ⟨S26x16x26x16, .bf16⟩
  | .hbm, ⟨39, _⟩ => ⟨S26x16x26x16, .bf16⟩
  | .hbm, ⟨40, _⟩ => ⟨S26x16x26x16, .bf16⟩
  | .hbm, ⟨41, _⟩ => ⟨S26x16x416, .bf16⟩
  | .hbm, ⟨42, _⟩ => ⟨S1x416, .f32⟩
  | .hbm, ⟨43, _⟩ => ⟨S1x416, .f32⟩
  | .hbm, ⟨44, _⟩ => ⟨S416x416, .bf16⟩
  | .hbm, ⟨45, _⟩ => ⟨S1x416, .f32⟩
  | .hbm, ⟨46, _⟩ => ⟨S1x16, .f32⟩
  | .hbm, ⟨47, _⟩ => ⟨S1x2, .f32⟩
  | .hbm, ⟨48, _⟩ => ⟨S16384x2, .f32⟩
  | .hbm, ⟨49, _⟩ => ⟨S16384x16, .f32⟩
  | .local .tc .vmem, ⟨0, _⟩ => ⟨S3328x1024, .f32⟩
  | .local .tc .vmem, ⟨1, _⟩ => ⟨S3328x1024, .f32⟩
  | .local .tc .vmem, ⟨2, _⟩ => ⟨S26x100x16, .f32⟩
  | .local .tc .vmem, ⟨3, _⟩ => ⟨S26x16, .f32⟩
  | .local .tc .vmem, ⟨4, _⟩ => ⟨S26x16x416, .bf16⟩
  | .local .tc .vmem, ⟨5, _⟩ => ⟨S1x416, .f32⟩
  | .local .tc .vmem, ⟨6, _⟩ => ⟨S1x416, .f32⟩
  | .local .tc .vmem, ⟨7, _⟩ => ⟨S416x416, .bf16⟩
  | .local .tc .vmem, ⟨8, _⟩ => ⟨S1x416, .f32⟩
  | .local .tc .vmem, ⟨9, _⟩ => ⟨S416x16, .f32⟩
  | .local .tc .vmem, ⟨10, _⟩ => ⟨S1x16, .f32⟩
  | .local .tc .vmem, ⟨11, _⟩ => ⟨S16x2, .f32⟩
  | .local .tc .vmem, ⟨12, _⟩ => ⟨S1x2, .f32⟩
  | .local .tc .vmem, ⟨13, _⟩ => ⟨S1024x2, .f32⟩
  | .local .tc .vmem, ⟨14, _⟩ => ⟨S1024x2, .f32⟩
  | .local .tc .vmem, ⟨15, _⟩ => ⟨S1024x16, .f32⟩
  | .local .tc .vmem, ⟨16, _⟩ => ⟨S1024x16, .f32⟩
  | .local .scVector .vmem, ⟨0, _⟩ => ⟨S100000, .f32⟩
  | .local .scVector .vmem, ⟨1, _⟩ => ⟨S16384, .i32⟩
  | .local .scVector .vmem, ⟨2, _⟩ => ⟨S2x4096, .f32⟩
  | _, _ => ⟨S26x16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_v0_scv : Ref sig .scVector := ⟨.hbm, 14, rfl⟩
abbrev main_v1_scv : Ref sig .scVector := ⟨.hbm, 15, rfl⟩
abbrev main_v2_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg12_0 : Ref sig .tc := ⟨.vmem, 13, rfl⟩
abbrev cc1_stg12_1 : Ref sig .tc := ⟨.vmem, 14, rfl⟩
abbrev cc1_stg13_0 : Ref sig .tc := ⟨.vmem, 15, rfl⟩
abbrev cc1_stg13_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem12_1 : DmaSem sig := 18
abbrev cc1_sem13_0 : DmaSem sig := 19
abbrev cc1_sem13_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c26_i32 : BitVec 32 := 26#32
  let v2 : BitVec 32 := Scalar.addi c0_i32_0 c26_i32
  let c1_i32 : BitVec 32 := 1#32
  ⟨c0_i32_0, v2, c1_i32⟩
def k0_off1 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16384_i32 : BitVec 32 := 16384#32
  let v3 : BitVec 32 := Scalar.muli arg10 c16384_i32
  ![v3.toNat]
@[reducible] def k0_t2_loop : Scf.Loop 32 :=
  let c0_i32_3 : BitVec 32 := 0#32
  let c4_i32 : BitVec 32 := 4#32
  let v4 : BitVec 32 := Scalar.addi c0_i32_3 c4_i32
  let c1_i32_4 : BitVec 32 := 1#32
  ⟨c0_i32_3, v4, c1_i32_4⟩
def k0_cond1 (i : grid0.Coords) (k0_t2 : Fin k0_t2_loop.trips) : BitVec 1 :=
  let c0_i32_3 : BitVec 32 := 0#32
  let c1_i32_4 : BitVec 32 := 1#32
  let arg11 : BitVec 32 := Scf.iv c0_i32_3 c1_i32_4 k0_t2
  let c32_i32 : BitVec 32 := 32#32
  let v5 : BitVec 32 := Scalar.muli arg11 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c100_i32 : BitVec 32 := 100#32
  let v7 : BitVec 1 := Scalar.cmpi .slt v6 c100_i32
  let v8 : BitVec 32 := Scalar.extui v7
  let c0_i32_6 : BitVec 32 := 0#32
  let v9 : BitVec 1 := Scalar.cmpi .ne v8 c0_i32_6
  v9

def k0_off2 (k0_t1 : Fin k0_t1_loop.trips) : Fin 3 → Nat :=
  let c0_i32_0 : BitVec 32 := 0#32
  let c1_i32 : BitVec 32 := 1#32
  let arg10 : BitVec 32 := Scf.iv c0_i32_0 c1_i32 k0_t1
  let c0_i32_80_r1 : BitVec 32 := 0#32
  let c0_i32_81_r1 : BitVec 32 := 0#32
  ![arg10.toNat, 0, 0]
def k0_off3 (i : grid0.Coords) (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v5 : BitVec 32 := Scalar.muli arg11 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_82_r1 : BitVec 32 := 0#32
  ![v6.toNat, 0]
@[reducible] def k0_t3_loop : Scf.Loop 32 :=
  let c0_i32_8 : BitVec 32 := 0#32
  let c32_i32_9 : BitVec 32 := 32#32
  let v12 : BitVec 32 := Scalar.addi c0_i32_8 c32_i32_9
  let c1_i32_10 : BitVec 32 := 1#32
  ⟨c0_i32_8, v12, c1_i32_10⟩
def k0_off4 (k0_t3 : Fin k0_t3_loop.trips) : Fin 1 → Nat :=
  let c0_i32_81 : BitVec 32 := 0#32
  let c0_i32_8 : BitVec 32 := 0#32
  let c1_i32_10 : BitVec 32 := 1#32
  let arg12 : BitVec 32 := Scf.iv c0_i32_8 c1_i32_10 k0_t3
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v99 : BitVec 32 := Scalar.addi c0_i32_81 v98
  let v100 : Index := Scalar.indexCast v99
  ![v100.toNat]

def k0_chk1 (i : grid0.Coords) (k0_t2 : Fin k0_t2_loop.trips) (v101 : IVec S16 32) : Prop :=
  (∀ (k0_h1 : k0_cond1 i k0_t2 = 1#1), ∀ a x, ((![v101] : Fin 1 → IVec S16 32) a x).toNat < S100000.size a)
instance k0_chk1.dec : ∀ (i : grid0.Coords) (k0_t2 : Fin k0_t2_loop.trips) (v101 : IVec S16 32), Decidable (k0_chk1 i k0_t2 v101) := fun i k0_t2 v101 => decidable_of_iff' _ (Iff.of_eq (k0_chk1.eq_1 i k0_t2 v101))
theorem k0_idx1_inb : ∀ (i : grid0.Coords) (k0_t2 : Fin k0_t2_loop.trips) (v101 : IVec S16 32) (k0_hw1 : k0_chk1 i k0_t2 v101), ∀ (k0_h1 : k0_cond1 i k0_t2 = 1#1), ∀ a x, ((![v101] : Fin 1 → IVec S16 32) a x).toNat < S100000.size a := fun i k0_t2 v101 k0_hw1 k0_h1 => k0_hw1 k0_h1
def k0_off5 (k0_t3 : Fin k0_t3_loop.trips) : Fin 2 → Nat :=
  let c0_i32_82 : BitVec 32 := 0#32
  let v103 : Index := Scalar.indexCast c0_i32_82
  let c0_i32_8 : BitVec 32 := 0#32
  let c1_i32_10 : BitVec 32 := 1#32
  let arg12 : BitVec 32 := Scf.iv c0_i32_8 c1_i32_10 k0_t3
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v104 : Index := Scalar.indexCast v98
  ![0, v104.toNat]
def k0_off6 (k0_t3 : Fin k0_t3_loop.trips) : Fin 1 → Nat :=
  let c0_i32_86 : BitVec 32 := 0#32
  let c0_i32_8 : BitVec 32 := 0#32
  let c1_i32_10 : BitVec 32 := 1#32
  let arg12 : BitVec 32 := Scf.iv c0_i32_8 c1_i32_10 k0_t3
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v109 : BitVec 32 := Scalar.addi c0_i32_86 v108
  let v110 : Index := Scalar.indexCast v109
  ![v110.toNat]

def k0_chk2 (i : grid0.Coords) (k0_t2 : Fin k0_t2_loop.trips) (v111 : IVec S16 32) : Prop :=
  (∀ (k0_h1 : k0_cond1 i k0_t2 = 1#1), ∀ a x, ((![v111] : Fin 1 → IVec S16 32) a x).toNat < S100000.size a)
instance k0_chk2.dec : ∀ (i : grid0.Coords) (k0_t2 : Fin k0_t2_loop.trips) (v111 : IVec S16 32), Decidable (k0_chk2 i k0_t2 v111) := fun i k0_t2 v111 => decidable_of_iff' _ (Iff.of_eq (k0_chk2.eq_1 i k0_t2 v111))
theorem k0_idx2_inb : ∀ (i : grid0.Coords) (k0_t2 : Fin k0_t2_loop.trips) (v111 : IVec S16 32) (k0_hw2 : k0_chk2 i k0_t2 v111), ∀ (k0_h1 : k0_cond1 i k0_t2 = 1#1), ∀ a x, ((![v111] : Fin 1 → IVec S16 32) a x).toNat < S100000.size a := fun i k0_t2 v111 k0_hw2 k0_h1 => k0_hw2 k0_h1
def k0_off7 (k0_t3 : Fin k0_t3_loop.trips) : Fin 2 → Nat :=
  let c0_i32_87 : BitVec 32 := 0#32
  let v113 : Index := Scalar.indexCast c0_i32_87
  let c0_i32_8 : BitVec 32 := 0#32
  let c1_i32_10 : BitVec 32 := 1#32
  let arg12 : BitVec 32 := Scf.iv c0_i32_8 c1_i32_10 k0_t3
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v114 : Index := Scalar.indexCast v108
  ![0, v114.toNat]
def k0_off8 (k0_t3 : Fin k0_t3_loop.trips) : Fin 1 → Nat :=
  let c0_i32_91 : BitVec 32 := 0#32
  let c0_i32_8 : BitVec 32 := 0#32
  let c1_i32_10 : BitVec 32 := 1#32
  let arg12 : BitVec 32 := Scf.iv c0_i32_8 c1_i32_10 k0_t3
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v119 : BitVec 32 := Scalar.addi c0_i32_91 v118
  let v120 : Index := Scalar.indexCast v119
  ![v120.toNat]

def k0_chk3 (i : grid0.Coords) (k0_t2 : Fin k0_t2_loop.trips) (v121 : IVec S16 32) : Prop :=
  (∀ (k0_h1 : k0_cond1 i k0_t2 = 1#1), ∀ a x, ((![v121] : Fin 1 → IVec S16 32) a x).toNat < S100000.size a)
instance k0_chk3.dec : ∀ (i : grid0.Coords) (k0_t2 : Fin k0_t2_loop.trips) (v121 : IVec S16 32), Decidable (k0_chk3 i k0_t2 v121) := fun i k0_t2 v121 => decidable_of_iff' _ (Iff.of_eq (k0_chk3.eq_1 i k0_t2 v121))
theorem k0_idx3_inb : ∀ (i : grid0.Coords) (k0_t2 : Fin k0_t2_loop.trips) (v121 : IVec S16 32) (k0_hw3 : k0_chk3 i k0_t2 v121), ∀ (k0_h1 : k0_cond1 i k0_t2 = 1#1), ∀ a x, ((![v121] : Fin 1 → IVec S16 32) a x).toNat < S100000.size a := fun i k0_t2 v121 k0_hw3 k0_h1 => k0_hw3 k0_h1
def k0_off9 (k0_t3 : Fin k0_t3_loop.trips) : Fin 2 → Nat :=
  let c0_i32_92 : BitVec 32 := 0#32
  let v123 : Index := Scalar.indexCast c0_i32_92
  let c0_i32_8 : BitVec 32 := 0#32
  let c1_i32_10 : BitVec 32 := 1#32
  let arg12 : BitVec 32 := Scf.iv c0_i32_8 c1_i32_10 k0_t3
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v124 : Index := Scalar.indexCast v118
  ![0, v124.toNat]
def k0_off10 (k0_t3 : Fin k0_t3_loop.trips) : Fin 1 → Nat :=
  let c0_i32_95 : BitVec 32 := 0#32
  let c0_i32_8 : BitVec 32 := 0#32
  let c1_i32_10 : BitVec 32 := 1#32
  let arg12 : BitVec 32 := Scf.iv c0_i32_8 c1_i32_10 k0_t3
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v129 : BitVec 32 := Scalar.addi c0_i32_95 v128
  let v130 : Index := Scalar.indexCast v129
  ![v130.toNat]

def k0_chk4 (i : grid0.Coords) (k0_t2 : Fin k0_t2_loop.trips) (v131 : IVec S16 32) : Prop :=
  (∀ (k0_h1 : k0_cond1 i k0_t2 = 1#1), ∀ a x, ((![v131] : Fin 1 → IVec S16 32) a x).toNat < S100000.size a)
instance k0_chk4.dec : ∀ (i : grid0.Coords) (k0_t2 : Fin k0_t2_loop.trips) (v131 : IVec S16 32), Decidable (k0_chk4 i k0_t2 v131) := fun i k0_t2 v131 => decidable_of_iff' _ (Iff.of_eq (k0_chk4.eq_1 i k0_t2 v131))
theorem k0_idx4_inb : ∀ (i : grid0.Coords) (k0_t2 : Fin k0_t2_loop.trips) (v131 : IVec S16 32) (k0_hw4 : k0_chk4 i k0_t2 v131), ∀ (k0_h1 : k0_cond1 i k0_t2 = 1#1), ∀ a x, ((![v131] : Fin 1 → IVec S16 32) a x).toNat < S100000.size a := fun i k0_t2 v131 k0_hw4 k0_h1 => k0_hw4 k0_h1
def k0_off11 (k0_t3 : Fin k0_t3_loop.trips) : Fin 2 → Nat :=
  let c0_i32_96 : BitVec 32 := 0#32
  let v133 : Index := Scalar.indexCast c0_i32_96
  let c0_i32_8 : BitVec 32 := 0#32
  let c1_i32_10 : BitVec 32 := 1#32
  let arg12 : BitVec 32 := Scf.iv c0_i32_8 c1_i32_10 k0_t3
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v134 : Index := Scalar.indexCast v128
  ![0, v134.toNat]
def k0_off12 (k0_t3 : Fin k0_t3_loop.trips) : Fin 1 → Nat :=
  let c0_i32_100 : BitVec 32 := 0#32
  let c0_i32_8 : BitVec 32 := 0#32
  let c1_i32_10 : BitVec 32 := 1#32
  let arg12 : BitVec 32 := Scf.iv c0_i32_8 c1_i32_10 k0_t3
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v139 : BitVec 32 := Scalar.addi c0_i32_100 v138
  let v140 : Index := Scalar.indexCast v139
  ![v140.toNat]

def k0_chk5 (i : grid0.Coords) (k0_t2 : Fin k0_t2_loop.trips) (v141 : IVec S16 32) : Prop :=
  (∀ (k0_h1 : k0_cond1 i k0_t2 = 1#1), ∀ a x, ((![v141] : Fin 1 → IVec S16 32) a x).toNat < S100000.size a)
instance k0_chk5.dec : ∀ (i : grid0.Coords) (k0_t2 : Fin k0_t2_loop.trips) (v141 : IVec S16 32), Decidable (k0_chk5 i k0_t2 v141) := fun i k0_t2 v141 => decidable_of_iff' _ (Iff.of_eq (k0_chk5.eq_1 i k0_t2 v141))
theorem k0_idx5_inb : ∀ (i : grid0.Coords) (k0_t2 : Fin k0_t2_loop.trips) (v141 : IVec S16 32) (k0_hw5 : k0_chk5 i k0_t2 v141), ∀ (k0_h1 : k0_cond1 i k0_t2 = 1#1), ∀ a x, ((![v141] : Fin 1 → IVec S16 32) a x).toNat < S100000.size a := fun i k0_t2 v141 k0_hw5 k0_h1 => k0_hw5 k0_h1
def k0_off13 (k0_t3 : Fin k0_t3_loop.trips) : Fin 2 → Nat :=
  let c0_i32_101 : BitVec 32 := 0#32
  let v143 : Index := Scalar.indexCast c0_i32_101
  let c0_i32_8 : BitVec 32 := 0#32
  let c1_i32_10 : BitVec 32 := 1#32
  let arg12 : BitVec 32 := Scf.iv c0_i32_8 c1_i32_10 k0_t3
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v144 : Index := Scalar.indexCast v138
  ![0, v144.toNat]
def k0_off14 (k0_t3 : Fin k0_t3_loop.trips) : Fin 1 → Nat :=
  let c0_i32_104 : BitVec 32 := 0#32
  let c0_i32_8 : BitVec 32 := 0#32
  let c1_i32_10 : BitVec 32 := 1#32
  let arg12 : BitVec 32 := Scf.iv c0_i32_8 c1_i32_10 k0_t3
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v149 : BitVec 32 := Scalar.addi c0_i32_104 v148
  let v150 : Index := Scalar.indexCast v149
  ![v150.toNat]

def k0_chk6 (i : grid0.Coords) (k0_t2 : Fin k0_t2_loop.trips) (v151 : IVec S16 32) : Prop :=
  (∀ (k0_h1 : k0_cond1 i k0_t2 = 1#1), ∀ a x, ((![v151] : Fin 1 → IVec S16 32) a x).toNat < S100000.size a)
instance k0_chk6.dec : ∀ (i : grid0.Coords) (k0_t2 : Fin k0_t2_loop.trips) (v151 : IVec S16 32), Decidable (k0_chk6 i k0_t2 v151) := fun i k0_t2 v151 => decidable_of_iff' _ (Iff.of_eq (k0_chk6.eq_1 i k0_t2 v151))
theorem k0_idx6_inb : ∀ (i : grid0.Coords) (k0_t2 : Fin k0_t2_loop.trips) (v151 : IVec S16 32) (k0_hw6 : k0_chk6 i k0_t2 v151), ∀ (k0_h1 : k0_cond1 i k0_t2 = 1#1), ∀ a x, ((![v151] : Fin 1 → IVec S16 32) a x).toNat < S100000.size a := fun i k0_t2 v151 k0_hw6 k0_h1 => k0_hw6 k0_h1
def k0_off15 (k0_t3 : Fin k0_t3_loop.trips) : Fin 2 → Nat :=
  let c0_i32_105 : BitVec 32 := 0#32
  let v153 : Index := Scalar.indexCast c0_i32_105
  let c0_i32_8 : BitVec 32 := 0#32
  let c1_i32_10 : BitVec 32 := 1#32
  let arg12 : BitVec 32 := Scf.iv c0_i32_8 c1_i32_10 k0_t3
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v154 : Index := Scalar.indexCast v148
  ![0, v154.toNat]
def k0_off16 (k0_t3 : Fin k0_t3_loop.trips) : Fin 1 → Nat :=
  let c0_i32_108 : BitVec 32 := 0#32
  let c0_i32_8 : BitVec 32 := 0#32
  let c1_i32_10 : BitVec 32 := 1#32
  let arg12 : BitVec 32 := Scf.iv c0_i32_8 c1_i32_10 k0_t3
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v159 : BitVec 32 := Scalar.addi c0_i32_108 v158
  let v160 : Index := Scalar.indexCast v159
  ![v160.toNat]

def k0_chk7 (i : grid0.Coords) (k0_t2 : Fin k0_t2_loop.trips) (v161 : IVec S16 32) : Prop :=
  (∀ (k0_h1 : k0_cond1 i k0_t2 = 1#1), ∀ a x, ((![v161] : Fin 1 → IVec S16 32) a x).toNat < S100000.size a)
instance k0_chk7.dec : ∀ (i : grid0.Coords) (k0_t2 : Fin k0_t2_loop.trips) (v161 : IVec S16 32), Decidable (k0_chk7 i k0_t2 v161) := fun i k0_t2 v161 => decidable_of_iff' _ (Iff.of_eq (k0_chk7.eq_1 i k0_t2 v161))
theorem k0_idx7_inb : ∀ (i : grid0.Coords) (k0_t2 : Fin k0_t2_loop.trips) (v161 : IVec S16 32) (k0_hw7 : k0_chk7 i k0_t2 v161), ∀ (k0_h1 : k0_cond1 i k0_t2 = 1#1), ∀ a x, ((![v161] : Fin 1 → IVec S16 32) a x).toNat < S100000.size a := fun i k0_t2 v161 k0_hw7 k0_h1 => k0_hw7 k0_h1
def k0_off17 (k0_t3 : Fin k0_t3_loop.trips) : Fin 2 → Nat :=
  let c0_i32_109 : BitVec 32 := 0#32
  let v163 : Index := Scalar.indexCast c0_i32_109
  let c0_i32_8 : BitVec 32 := 0#32
  let c1_i32_10 : BitVec 32 := 1#32
  let arg12 : BitVec 32 := Scf.iv c0_i32_8 c1_i32_10 k0_t3
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v164 : Index := Scalar.indexCast v158
  ![0, v164.toNat]
def k0_off18 (k0_t3 : Fin k0_t3_loop.trips) : Fin 1 → Nat :=
  let c0_i32_112 : BitVec 32 := 0#32
  let c0_i32_8 : BitVec 32 := 0#32
  let c1_i32_10 : BitVec 32 := 1#32
  let arg12 : BitVec 32 := Scf.iv c0_i32_8 c1_i32_10 k0_t3
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v169 : BitVec 32 := Scalar.addi c0_i32_112 v168
  let v170 : Index := Scalar.indexCast v169
  ![v170.toNat]

def k0_chk8 (i : grid0.Coords) (k0_t2 : Fin k0_t2_loop.trips) (v171 : IVec S16 32) : Prop :=
  (∀ (k0_h1 : k0_cond1 i k0_t2 = 1#1), ∀ a x, ((![v171] : Fin 1 → IVec S16 32) a x).toNat < S100000.size a)
instance k0_chk8.dec : ∀ (i : grid0.Coords) (k0_t2 : Fin k0_t2_loop.trips) (v171 : IVec S16 32), Decidable (k0_chk8 i k0_t2 v171) := fun i k0_t2 v171 => decidable_of_iff' _ (Iff.of_eq (k0_chk8.eq_1 i k0_t2 v171))
theorem k0_idx8_inb : ∀ (i : grid0.Coords) (k0_t2 : Fin k0_t2_loop.trips) (v171 : IVec S16 32) (k0_hw8 : k0_chk8 i k0_t2 v171), ∀ (k0_h1 : k0_cond1 i k0_t2 = 1#1), ∀ a x, ((![v171] : Fin 1 → IVec S16 32) a x).toNat < S100000.size a := fun i k0_t2 v171 k0_hw8 k0_h1 => k0_hw8 k0_h1
def k0_off19 (k0_t3 : Fin k0_t3_loop.trips) : Fin 2 → Nat :=
  let c0_i32_113 : BitVec 32 := 0#32
  let v173 : Index := Scalar.indexCast c0_i32_113
  let c0_i32_8 : BitVec 32 := 0#32
  let c1_i32_10 : BitVec 32 := 1#32
  let arg12 : BitVec 32 := Scf.iv c0_i32_8 c1_i32_10 k0_t3
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v174 : Index := Scalar.indexCast v168
  ![0, v174.toNat]
def k0_off20 (i : grid0.Coords) (k0_t1 : Fin k0_t1_loop.trips) (k0_t2 : Fin k0_t2_loop.trips) : Fin 2 → Nat :=
  let c0_i32_0 : BitVec 32 := 0#32
  let c1_i32 : BitVec 32 := 1#32
  let arg10 : BitVec 32 := Scf.iv c0_i32_0 c1_i32 k0_t1
  let c128_i32 : BitVec 32 := 128#32
  let v10 : BitVec 32 := Scalar.muli arg10 c128_i32
  let c0_i32_3 : BitVec 32 := 0#32
  let c1_i32_4 : BitVec 32 := 1#32
  let arg11 : BitVec 32 := Scf.iv c0_i32_3 c1_i32_4 k0_t2
  let c32_i32 : BitVec 32 := 32#32
  let v5 : BitVec 32 := Scalar.muli arg11 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let v11 : BitVec 32 := Scalar.addi v10 v6
  let c0_i32_14 : BitVec 32 := 0#32
  ![v11.toNat, 0]
@[reducible] def k0_t4_loop : Scf.Loop 32 :=
  let c0_i32_20 : BitVec 32 := 0#32
  let c32_i32_21 : BitVec 32 := 32#32
  let v23 : BitVec 32 := Scalar.addi c0_i32_20 c32_i32_21
  let c1_i32_22 : BitVec 32 := 1#32
  ⟨c0_i32_20, v23, c1_i32_22⟩
def k0_off21 (k0_t4 : Fin k0_t4_loop.trips) : Fin 1 → Nat :=
  let c4096_i32_81 : BitVec 32 := 4096#32
  let c0_i32_20 : BitVec 32 := 0#32
  let c1_i32_22 : BitVec 32 := 1#32
  let arg12 : BitVec 32 := Scf.iv c0_i32_20 c1_i32_22 k0_t4
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v99 : BitVec 32 := Scalar.addi c4096_i32_81 v98
  let v100 : Index := Scalar.indexCast v99
  ![v100.toNat]

def k0_chk9 (i : grid0.Coords) (k0_t2 : Fin k0_t2_loop.trips) (v101 : IVec S16 32) : Prop :=
  (∀ (k0_h1 : k0_cond1 i k0_t2 = 1#1), ∀ a x, ((![v101] : Fin 1 → IVec S16 32) a x).toNat < S100000.size a)
instance k0_chk9.dec : ∀ (i : grid0.Coords) (k0_t2 : Fin k0_t2_loop.trips) (v101 : IVec S16 32), Decidable (k0_chk9 i k0_t2 v101) := fun i k0_t2 v101 => decidable_of_iff' _ (Iff.of_eq (k0_chk9.eq_1 i k0_t2 v101))
theorem k0_idx9_inb : ∀ (i : grid0.Coords) (k0_t2 : Fin k0_t2_loop.trips) (v101 : IVec S16 32) (k0_hw9 : k0_chk9 i k0_t2 v101), ∀ (k0_h1 : k0_cond1 i k0_t2 = 1#1), ∀ a x, ((![v101] : Fin 1 → IVec S16 32) a x).toNat < S100000.size a := fun i k0_t2 v101 k0_hw9 k0_h1 => k0_hw9 k0_h1
def k0_off22 (k0_t4 : Fin k0_t4_loop.trips) : Fin 2 → Nat :=
  let c1_i32_82 : BitVec 32 := 1#32
  let v103 : Index := Scalar.indexCast c1_i32_82
  let c0_i32_20 : BitVec 32 := 0#32
  let c1_i32_22 : BitVec 32 := 1#32
  let arg12 : BitVec 32 := Scf.iv c0_i32_20 c1_i32_22 k0_t4
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v104 : Index := Scalar.indexCast v98
  ![1, v104.toNat]
def k0_off23 (k0_t4 : Fin k0_t4_loop.trips) : Fin 1 → Nat :=
  let c4096_i32_86 : BitVec 32 := 4096#32
  let c0_i32_20 : BitVec 32 := 0#32
  let c1_i32_22 : BitVec 32 := 1#32
  let arg12 : BitVec 32 := Scf.iv c0_i32_20 c1_i32_22 k0_t4
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v109 : BitVec 32 := Scalar.addi c4096_i32_86 v108
  let v110 : Index := Scalar.indexCast v109
  ![v110.toNat]

def k0_chk10 (i : grid0.Coords) (k0_t2 : Fin k0_t2_loop.trips) (v111 : IVec S16 32) : Prop :=
  (∀ (k0_h1 : k0_cond1 i k0_t2 = 1#1), ∀ a x, ((![v111] : Fin 1 → IVec S16 32) a x).toNat < S100000.size a)
instance k0_chk10.dec : ∀ (i : grid0.Coords) (k0_t2 : Fin k0_t2_loop.trips) (v111 : IVec S16 32), Decidable (k0_chk10 i k0_t2 v111) := fun i k0_t2 v111 => decidable_of_iff' _ (Iff.of_eq (k0_chk10.eq_1 i k0_t2 v111))
theorem k0_idx10_inb : ∀ (i : grid0.Coords) (k0_t2 : Fin k0_t2_loop.trips) (v111 : IVec S16 32) (k0_hw10 : k0_chk10 i k0_t2 v111), ∀ (k0_h1 : k0_cond1 i k0_t2 = 1#1), ∀ a x, ((![v111] : Fin 1 → IVec S16 32) a x).toNat < S100000.size a := fun i k0_t2 v111 k0_hw10 k0_h1 => k0_hw10 k0_h1
def k0_off24 (k0_t4 : Fin k0_t4_loop.trips) : Fin 2 → Nat :=
  let c1_i32_87 : BitVec 32 := 1#32
  let v113 : Index := Scalar.indexCast c1_i32_87
  let c0_i32_20 : BitVec 32 := 0#32
  let c1_i32_22 : BitVec 32 := 1#32
  let arg12 : BitVec 32 := Scf.iv c0_i32_20 c1_i32_22 k0_t4
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v114 : Index := Scalar.indexCast v108
  ![1, v114.toNat]
def k0_off25 (k0_t4 : Fin k0_t4_loop.trips) : Fin 1 → Nat :=
  let c4096_i32_91 : BitVec 32 := 4096#32
  let c0_i32_20 : BitVec 32 := 0#32
  let c1_i32_22 : BitVec 32 := 1#32
  let arg12 : BitVec 32 := Scf.iv c0_i32_20 c1_i32_22 k0_t4
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v119 : BitVec 32 := Scalar.addi c4096_i32_91 v118
  let v120 : Index := Scalar.indexCast v119
  ![v120.toNat]

def k0_chk11 (i : grid0.Coords) (k0_t2 : Fin k0_t2_loop.trips) (v121 : IVec S16 32) : Prop :=
  (∀ (k0_h1 : k0_cond1 i k0_t2 = 1#1), ∀ a x, ((![v121] : Fin 1 → IVec S16 32) a x).toNat < S100000.size a)
instance k0_chk11.dec : ∀ (i : grid0.Coords) (k0_t2 : Fin k0_t2_loop.trips) (v121 : IVec S16 32), Decidable (k0_chk11 i k0_t2 v121) := fun i k0_t2 v121 => decidable_of_iff' _ (Iff.of_eq (k0_chk11.eq_1 i k0_t2 v121))
theorem k0_idx11_inb : ∀ (i : grid0.Coords) (k0_t2 : Fin k0_t2_loop.trips) (v121 : IVec S16 32) (k0_hw11 : k0_chk11 i k0_t2 v121), ∀ (k0_h1 : k0_cond1 i k0_t2 = 1#1), ∀ a x, ((![v121] : Fin 1 → IVec S16 32) a x).toNat < S100000.size a := fun i k0_t2 v121 k0_hw11 k0_h1 => k0_hw11 k0_h1
def k0_off26 (k0_t4 : Fin k0_t4_loop.trips) : Fin 2 → Nat :=
  let c1_i32_92 : BitVec 32 := 1#32
  let v123 : Index := Scalar.indexCast c1_i32_92
  let c0_i32_20 : BitVec 32 := 0#32
  let c1_i32_22 : BitVec 32 := 1#32
  let arg12 : BitVec 32 := Scf.iv c0_i32_20 c1_i32_22 k0_t4
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v124 : Index := Scalar.indexCast v118
  ![1, v124.toNat]
def k0_off27 (k0_t4 : Fin k0_t4_loop.trips) : Fin 1 → Nat :=
  let c4096_i32_95 : BitVec 32 := 4096#32
  let c0_i32_20 : BitVec 32 := 0#32
  let c1_i32_22 : BitVec 32 := 1#32
  let arg12 : BitVec 32 := Scf.iv c0_i32_20 c1_i32_22 k0_t4
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v129 : BitVec 32 := Scalar.addi c4096_i32_95 v128
  let v130 : Index := Scalar.indexCast v129
  ![v130.toNat]

def k0_chk12 (i : grid0.Coords) (k0_t2 : Fin k0_t2_loop.trips) (v131 : IVec S16 32) : Prop :=
  (∀ (k0_h1 : k0_cond1 i k0_t2 = 1#1), ∀ a x, ((![v131] : Fin 1 → IVec S16 32) a x).toNat < S100000.size a)
instance k0_chk12.dec : ∀ (i : grid0.Coords) (k0_t2 : Fin k0_t2_loop.trips) (v131 : IVec S16 32), Decidable (k0_chk12 i k0_t2 v131) := fun i k0_t2 v131 => decidable_of_iff' _ (Iff.of_eq (k0_chk12.eq_1 i k0_t2 v131))
theorem k0_idx12_inb : ∀ (i : grid0.Coords) (k0_t2 : Fin k0_t2_loop.trips) (v131 : IVec S16 32) (k0_hw12 : k0_chk12 i k0_t2 v131), ∀ (k0_h1 : k0_cond1 i k0_t2 = 1#1), ∀ a x, ((![v131] : Fin 1 → IVec S16 32) a x).toNat < S100000.size a := fun i k0_t2 v131 k0_hw12 k0_h1 => k0_hw12 k0_h1
def k0_off28 (k0_t4 : Fin k0_t4_loop.trips) : Fin 2 → Nat :=
  let c1_i32_96 : BitVec 32 := 1#32
  let v133 : Index := Scalar.indexCast c1_i32_96
  let c0_i32_20 : BitVec 32 := 0#32
  let c1_i32_22 : BitVec 32 := 1#32
  let arg12 : BitVec 32 := Scf.iv c0_i32_20 c1_i32_22 k0_t4
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v134 : Index := Scalar.indexCast v128
  ![1, v134.toNat]
def k0_off29 (k0_t4 : Fin k0_t4_loop.trips) : Fin 1 → Nat :=
  let c4096_i32_100 : BitVec 32 := 4096#32
  let c0_i32_20 : BitVec 32 := 0#32
  let c1_i32_22 : BitVec 32 := 1#32
  let arg12 : BitVec 32 := Scf.iv c0_i32_20 c1_i32_22 k0_t4
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v139 : BitVec 32 := Scalar.addi c4096_i32_100 v138
  let v140 : Index := Scalar.indexCast v139
  ![v140.toNat]

def k0_chk13 (i : grid0.Coords) (k0_t2 : Fin k0_t2_loop.trips) (v141 : IVec S16 32) : Prop :=
  (∀ (k0_h1 : k0_cond1 i k0_t2 = 1#1), ∀ a x, ((![v141] : Fin 1 → IVec S16 32) a x).toNat < S100000.size a)
instance k0_chk13.dec : ∀ (i : grid0.Coords) (k0_t2 : Fin k0_t2_loop.trips) (v141 : IVec S16 32), Decidable (k0_chk13 i k0_t2 v141) := fun i k0_t2 v141 => decidable_of_iff' _ (Iff.of_eq (k0_chk13.eq_1 i k0_t2 v141))
theorem k0_idx13_inb : ∀ (i : grid0.Coords) (k0_t2 : Fin k0_t2_loop.trips) (v141 : IVec S16 32) (k0_hw13 : k0_chk13 i k0_t2 v141), ∀ (k0_h1 : k0_cond1 i k0_t2 = 1#1), ∀ a x, ((![v141] : Fin 1 → IVec S16 32) a x).toNat < S100000.size a := fun i k0_t2 v141 k0_hw13 k0_h1 => k0_hw13 k0_h1
def k0_off30 (k0_t4 : Fin k0_t4_loop.trips) : Fin 2 → Nat :=
  let c1_i32_101 : BitVec 32 := 1#32
  let v143 : Index := Scalar.indexCast c1_i32_101
  let c0_i32_20 : BitVec 32 := 0#32
  let c1_i32_22 : BitVec 32 := 1#32
  let arg12 : BitVec 32 := Scf.iv c0_i32_20 c1_i32_22 k0_t4
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v144 : Index := Scalar.indexCast v138
  ![1, v144.toNat]
def k0_off31 (k0_t4 : Fin k0_t4_loop.trips) : Fin 1 → Nat :=
  let c4096_i32_104 : BitVec 32 := 4096#32
  let c0_i32_20 : BitVec 32 := 0#32
  let c1_i32_22 : BitVec 32 := 1#32
  let arg12 : BitVec 32 := Scf.iv c0_i32_20 c1_i32_22 k0_t4
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v149 : BitVec 32 := Scalar.addi c4096_i32_104 v148
  let v150 : Index := Scalar.indexCast v149
  ![v150.toNat]

def k0_chk14 (i : grid0.Coords) (k0_t2 : Fin k0_t2_loop.trips) (v151 : IVec S16 32) : Prop :=
  (∀ (k0_h1 : k0_cond1 i k0_t2 = 1#1), ∀ a x, ((![v151] : Fin 1 → IVec S16 32) a x).toNat < S100000.size a)
instance k0_chk14.dec : ∀ (i : grid0.Coords) (k0_t2 : Fin k0_t2_loop.trips) (v151 : IVec S16 32), Decidable (k0_chk14 i k0_t2 v151) := fun i k0_t2 v151 => decidable_of_iff' _ (Iff.of_eq (k0_chk14.eq_1 i k0_t2 v151))
theorem k0_idx14_inb : ∀ (i : grid0.Coords) (k0_t2 : Fin k0_t2_loop.trips) (v151 : IVec S16 32) (k0_hw14 : k0_chk14 i k0_t2 v151), ∀ (k0_h1 : k0_cond1 i k0_t2 = 1#1), ∀ a x, ((![v151] : Fin 1 → IVec S16 32) a x).toNat < S100000.size a := fun i k0_t2 v151 k0_hw14 k0_h1 => k0_hw14 k0_h1
def k0_off32 (k0_t4 : Fin k0_t4_loop.trips) : Fin 2 → Nat :=
  let c1_i32_105 : BitVec 32 := 1#32
  let v153 : Index := Scalar.indexCast c1_i32_105
  let c0_i32_20 : BitVec 32 := 0#32
  let c1_i32_22 : BitVec 32 := 1#32
  let arg12 : BitVec 32 := Scf.iv c0_i32_20 c1_i32_22 k0_t4
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v154 : Index := Scalar.indexCast v148
  ![1, v154.toNat]
def k0_off33 (k0_t4 : Fin k0_t4_loop.trips) : Fin 1 → Nat :=
  let c4096_i32_108 : BitVec 32 := 4096#32
  let c0_i32_20 : BitVec 32 := 0#32
  let c1_i32_22 : BitVec 32 := 1#32
  let arg12 : BitVec 32 := Scf.iv c0_i32_20 c1_i32_22 k0_t4
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v159 : BitVec 32 := Scalar.addi c4096_i32_108 v158
  let v160 : Index := Scalar.indexCast v159
  ![v160.toNat]

def k0_chk15 (i : grid0.Coords) (k0_t2 : Fin k0_t2_loop.trips) (v161 : IVec S16 32) : Prop :=
  (∀ (k0_h1 : k0_cond1 i k0_t2 = 1#1), ∀ a x, ((![v161] : Fin 1 → IVec S16 32) a x).toNat < S100000.size a)
instance k0_chk15.dec : ∀ (i : grid0.Coords) (k0_t2 : Fin k0_t2_loop.trips) (v161 : IVec S16 32), Decidable (k0_chk15 i k0_t2 v161) := fun i k0_t2 v161 => decidable_of_iff' _ (Iff.of_eq (k0_chk15.eq_1 i k0_t2 v161))
theorem k0_idx15_inb : ∀ (i : grid0.Coords) (k0_t2 : Fin k0_t2_loop.trips) (v161 : IVec S16 32) (k0_hw15 : k0_chk15 i k0_t2 v161), ∀ (k0_h1 : k0_cond1 i k0_t2 = 1#1), ∀ a x, ((![v161] : Fin 1 → IVec S16 32) a x).toNat < S100000.size a := fun i k0_t2 v161 k0_hw15 k0_h1 => k0_hw15 k0_h1
def k0_off34 (k0_t4 : Fin k0_t4_loop.trips) : Fin 2 → Nat :=
  let c1_i32_109 : BitVec 32 := 1#32
  let v163 : Index := Scalar.indexCast c1_i32_109
  let c0_i32_20 : BitVec 32 := 0#32
  let c1_i32_22 : BitVec 32 := 1#32
  let arg12 : BitVec 32 := Scf.iv c0_i32_20 c1_i32_22 k0_t4
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v164 : Index := Scalar.indexCast v158
  ![1, v164.toNat]
def k0_off35 (k0_t4 : Fin k0_t4_loop.trips) : Fin 1 → Nat :=
  let c4096_i32_112 : BitVec 32 := 4096#32
  let c0_i32_20 : BitVec 32 := 0#32
  let c1_i32_22 : BitVec 32 := 1#32
  let arg12 : BitVec 32 := Scf.iv c0_i32_20 c1_i32_22 k0_t4
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v169 : BitVec 32 := Scalar.addi c4096_i32_112 v168
  let v170 : Index := Scalar.indexCast v169
  ![v170.toNat]

def k0_chk16 (i : grid0.Coords) (k0_t2 : Fin k0_t2_loop.trips) (v171 : IVec S16 32) : Prop :=
  (∀ (k0_h1 : k0_cond1 i k0_t2 = 1#1), ∀ a x, ((![v171] : Fin 1 → IVec S16 32) a x).toNat < S100000.size a)
instance k0_chk16.dec : ∀ (i : grid0.Coords) (k0_t2 : Fin k0_t2_loop.trips) (v171 : IVec S16 32), Decidable (k0_chk16 i k0_t2 v171) := fun i k0_t2 v171 => decidable_of_iff' _ (Iff.of_eq (k0_chk16.eq_1 i k0_t2 v171))
theorem k0_idx16_inb : ∀ (i : grid0.Coords) (k0_t2 : Fin k0_t2_loop.trips) (v171 : IVec S16 32) (k0_hw16 : k0_chk16 i k0_t2 v171), ∀ (k0_h1 : k0_cond1 i k0_t2 = 1#1), ∀ a x, ((![v171] : Fin 1 → IVec S16 32) a x).toNat < S100000.size a := fun i k0_t2 v171 k0_hw16 k0_h1 => k0_hw16 k0_h1
def k0_off36 (k0_t4 : Fin k0_t4_loop.trips) : Fin 2 → Nat :=
  let c1_i32_113 : BitVec 32 := 1#32
  let v173 : Index := Scalar.indexCast c1_i32_113
  let c0_i32_20 : BitVec 32 := 0#32
  let c1_i32_22 : BitVec 32 := 1#32
  let arg12 : BitVec 32 := Scf.iv c0_i32_20 c1_i32_22 k0_t4
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v174 : Index := Scalar.indexCast v168
  ![1, v174.toNat]
@[reducible] def k0_t5_loop : Scf.Loop 32 :=
  let c0_i32_38 : BitVec 32 := 0#32
  let c32_i32_39 : BitVec 32 := 32#32
  let v44 : BitVec 32 := Scalar.addi c0_i32_38 c32_i32_39
  let c1_i32_40 : BitVec 32 := 1#32
  ⟨c0_i32_38, v44, c1_i32_40⟩
def k0_off37 (k0_t5 : Fin k0_t5_loop.trips) : Fin 1 → Nat :=
  let c8192_i32_81 : BitVec 32 := 8192#32
  let c0_i32_38 : BitVec 32 := 0#32
  let c1_i32_40 : BitVec 32 := 1#32
  let arg12 : BitVec 32 := Scf.iv c0_i32_38 c1_i32_40 k0_t5
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v99 : BitVec 32 := Scalar.addi c8192_i32_81 v98
  let v100 : Index := Scalar.indexCast v99
  ![v100.toNat]

def k0_chk17 (i : grid0.Coords) (k0_t2 : Fin k0_t2_loop.trips) (v101 : IVec S16 32) : Prop :=
  (∀ (k0_h1 : k0_cond1 i k0_t2 = 1#1), ∀ a x, ((![v101] : Fin 1 → IVec S16 32) a x).toNat < S100000.size a)
instance k0_chk17.dec : ∀ (i : grid0.Coords) (k0_t2 : Fin k0_t2_loop.trips) (v101 : IVec S16 32), Decidable (k0_chk17 i k0_t2 v101) := fun i k0_t2 v101 => decidable_of_iff' _ (Iff.of_eq (k0_chk17.eq_1 i k0_t2 v101))
theorem k0_idx17_inb : ∀ (i : grid0.Coords) (k0_t2 : Fin k0_t2_loop.trips) (v101 : IVec S16 32) (k0_hw17 : k0_chk17 i k0_t2 v101), ∀ (k0_h1 : k0_cond1 i k0_t2 = 1#1), ∀ a x, ((![v101] : Fin 1 → IVec S16 32) a x).toNat < S100000.size a := fun i k0_t2 v101 k0_hw17 k0_h1 => k0_hw17 k0_h1
def k0_off38 (k0_t5 : Fin k0_t5_loop.trips) : Fin 2 → Nat :=
  let c0_i32_82 : BitVec 32 := 0#32
  let v103 : Index := Scalar.indexCast c0_i32_82
  let c0_i32_38 : BitVec 32 := 0#32
  let c1_i32_40 : BitVec 32 := 1#32
  let arg12 : BitVec 32 := Scf.iv c0_i32_38 c1_i32_40 k0_t5
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v104 : Index := Scalar.indexCast v98
  ![0, v104.toNat]
def k0_off39 (k0_t5 : Fin k0_t5_loop.trips) : Fin 1 → Nat :=
  let c8192_i32_86 : BitVec 32 := 8192#32
  let c0_i32_38 : BitVec 32 := 0#32
  let c1_i32_40 : BitVec 32 := 1#32
  let arg12 : BitVec 32 := Scf.iv c0_i32_38 c1_i32_40 k0_t5
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v109 : BitVec 32 := Scalar.addi c8192_i32_86 v108
  let v110 : Index := Scalar.indexCast v109
  ![v110.toNat]

def k0_chk18 (i : grid0.Coords) (k0_t2 : Fin k0_t2_loop.trips) (v111 : IVec S16 32) : Prop :=
  (∀ (k0_h1 : k0_cond1 i k0_t2 = 1#1), ∀ a x, ((![v111] : Fin 1 → IVec S16 32) a x).toNat < S100000.size a)
instance k0_chk18.dec : ∀ (i : grid0.Coords) (k0_t2 : Fin k0_t2_loop.trips) (v111 : IVec S16 32), Decidable (k0_chk18 i k0_t2 v111) := fun i k0_t2 v111 => decidable_of_iff' _ (Iff.of_eq (k0_chk18.eq_1 i k0_t2 v111))
theorem k0_idx18_inb : ∀ (i : grid0.Coords) (k0_t2 : Fin k0_t2_loop.trips) (v111 : IVec S16 32) (k0_hw18 : k0_chk18 i k0_t2 v111), ∀ (k0_h1 : k0_cond1 i k0_t2 = 1#1), ∀ a x, ((![v111] : Fin 1 → IVec S16 32) a x).toNat < S100000.size a := fun i k0_t2 v111 k0_hw18 k0_h1 => k0_hw18 k0_h1
def k0_off40 (k0_t5 : Fin k0_t5_loop.trips) : Fin 2 → Nat :=
  let c0_i32_87 : BitVec 32 := 0#32
  let v113 : Index := Scalar.indexCast c0_i32_87
  let c0_i32_38 : BitVec 32 := 0#32
  let c1_i32_40 : BitVec 32 := 1#32
  let arg12 : BitVec 32 := Scf.iv c0_i32_38 c1_i32_40 k0_t5
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v114 : Index := Scalar.indexCast v108
  ![0, v114.toNat]
def k0_off41 (k0_t5 : Fin k0_t5_loop.trips) : Fin 1 → Nat :=
  let c8192_i32_91 : BitVec 32 := 8192#32
  let c0_i32_38 : BitVec 32 := 0#32
  let c1_i32_40 : BitVec 32 := 1#32
  let arg12 : BitVec 32 := Scf.iv c0_i32_38 c1_i32_40 k0_t5
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v119 : BitVec 32 := Scalar.addi c8192_i32_91 v118
  let v120 : Index := Scalar.indexCast v119
  ![v120.toNat]

def k0_chk19 (i : grid0.Coords) (k0_t2 : Fin k0_t2_loop.trips) (v121 : IVec S16 32) : Prop :=
  (∀ (k0_h1 : k0_cond1 i k0_t2 = 1#1), ∀ a x, ((![v121] : Fin 1 → IVec S16 32) a x).toNat < S100000.size a)
instance k0_chk19.dec : ∀ (i : grid0.Coords) (k0_t2 : Fin k0_t2_loop.trips) (v121 : IVec S16 32), Decidable (k0_chk19 i k0_t2 v121) := fun i k0_t2 v121 => decidable_of_iff' _ (Iff.of_eq (k0_chk19.eq_1 i k0_t2 v121))
theorem k0_idx19_inb : ∀ (i : grid0.Coords) (k0_t2 : Fin k0_t2_loop.trips) (v121 : IVec S16 32) (k0_hw19 : k0_chk19 i k0_t2 v121), ∀ (k0_h1 : k0_cond1 i k0_t2 = 1#1), ∀ a x, ((![v121] : Fin 1 → IVec S16 32) a x).toNat < S100000.size a := fun i k0_t2 v121 k0_hw19 k0_h1 => k0_hw19 k0_h1
def k0_off42 (k0_t5 : Fin k0_t5_loop.trips) : Fin 2 → Nat :=
  let c0_i32_92 : BitVec 32 := 0#32
  let v123 : Index := Scalar.indexCast c0_i32_92
  let c0_i32_38 : BitVec 32 := 0#32
  let c1_i32_40 : BitVec 32 := 1#32
  let arg12 : BitVec 32 := Scf.iv c0_i32_38 c1_i32_40 k0_t5
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v124 : Index := Scalar.indexCast v118
  ![0, v124.toNat]
def k0_off43 (k0_t5 : Fin k0_t5_loop.trips) : Fin 1 → Nat :=
  let c8192_i32_95 : BitVec 32 := 8192#32
  let c0_i32_38 : BitVec 32 := 0#32
  let c1_i32_40 : BitVec 32 := 1#32
  let arg12 : BitVec 32 := Scf.iv c0_i32_38 c1_i32_40 k0_t5
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v129 : BitVec 32 := Scalar.addi c8192_i32_95 v128
  let v130 : Index := Scalar.indexCast v129
  ![v130.toNat]

def k0_chk20 (i : grid0.Coords) (k0_t2 : Fin k0_t2_loop.trips) (v131 : IVec S16 32) : Prop :=
  (∀ (k0_h1 : k0_cond1 i k0_t2 = 1#1), ∀ a x, ((![v131] : Fin 1 → IVec S16 32) a x).toNat < S100000.size a)
instance k0_chk20.dec : ∀ (i : grid0.Coords) (k0_t2 : Fin k0_t2_loop.trips) (v131 : IVec S16 32), Decidable (k0_chk20 i k0_t2 v131) := fun i k0_t2 v131 => decidable_of_iff' _ (Iff.of_eq (k0_chk20.eq_1 i k0_t2 v131))
theorem k0_idx20_inb : ∀ (i : grid0.Coords) (k0_t2 : Fin k0_t2_loop.trips) (v131 : IVec S16 32) (k0_hw20 : k0_chk20 i k0_t2 v131), ∀ (k0_h1 : k0_cond1 i k0_t2 = 1#1), ∀ a x, ((![v131] : Fin 1 → IVec S16 32) a x).toNat < S100000.size a := fun i k0_t2 v131 k0_hw20 k0_h1 => k0_hw20 k0_h1
def k0_off44 (k0_t5 : Fin k0_t5_loop.trips) : Fin 2 → Nat :=
  let c0_i32_96 : BitVec 32 := 0#32
  let v133 : Index := Scalar.indexCast c0_i32_96
  let c0_i32_38 : BitVec 32 := 0#32
  let c1_i32_40 : BitVec 32 := 1#32
  let arg12 : BitVec 32 := Scf.iv c0_i32_38 c1_i32_40 k0_t5
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v134 : Index := Scalar.indexCast v128
  ![0, v134.toNat]
def k0_off45 (k0_t5 : Fin k0_t5_loop.trips) : Fin 1 → Nat :=
  let c8192_i32_100 : BitVec 32 := 8192#32
  let c0_i32_38 : BitVec 32 := 0#32
  let c1_i32_40 : BitVec 32 := 1#32
  let arg12 : BitVec 32 := Scf.iv c0_i32_38 c1_i32_40 k0_t5
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v139 : BitVec 32 := Scalar.addi c8192_i32_100 v138
  let v140 : Index := Scalar.indexCast v139
  ![v140.toNat]

def k0_chk21 (i : grid0.Coords) (k0_t2 : Fin k0_t2_loop.trips) (v141 : IVec S16 32) : Prop :=
  (∀ (k0_h1 : k0_cond1 i k0_t2 = 1#1), ∀ a x, ((![v141] : Fin 1 → IVec S16 32) a x).toNat < S100000.size a)
instance k0_chk21.dec : ∀ (i : grid0.Coords) (k0_t2 : Fin k0_t2_loop.trips) (v141 : IVec S16 32), Decidable (k0_chk21 i k0_t2 v141) := fun i k0_t2 v141 => decidable_of_iff' _ (Iff.of_eq (k0_chk21.eq_1 i k0_t2 v141))
theorem k0_idx21_inb : ∀ (i : grid0.Coords) (k0_t2 : Fin k0_t2_loop.trips) (v141 : IVec S16 32) (k0_hw21 : k0_chk21 i k0_t2 v141), ∀ (k0_h1 : k0_cond1 i k0_t2 = 1#1), ∀ a x, ((![v141] : Fin 1 → IVec S16 32) a x).toNat < S100000.size a := fun i k0_t2 v141 k0_hw21 k0_h1 => k0_hw21 k0_h1
def k0_off46 (k0_t5 : Fin k0_t5_loop.trips) : Fin 2 → Nat :=
  let c0_i32_101 : BitVec 32 := 0#32
  let v143 : Index := Scalar.indexCast c0_i32_101
  let c0_i32_38 : BitVec 32 := 0#32
  let c1_i32_40 : BitVec 32 := 1#32
  let arg12 : BitVec 32 := Scf.iv c0_i32_38 c1_i32_40 k0_t5
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v144 : Index := Scalar.indexCast v138
  ![0, v144.toNat]
def k0_off47 (k0_t5 : Fin k0_t5_loop.trips) : Fin 1 → Nat :=
  let c8192_i32_104 : BitVec 32 := 8192#32
  let c0_i32_38 : BitVec 32 := 0#32
  let c1_i32_40 : BitVec 32 := 1#32
  let arg12 : BitVec 32 := Scf.iv c0_i32_38 c1_i32_40 k0_t5
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v149 : BitVec 32 := Scalar.addi c8192_i32_104 v148
  let v150 : Index := Scalar.indexCast v149
  ![v150.toNat]

def k0_chk22 (i : grid0.Coords) (k0_t2 : Fin k0_t2_loop.trips) (v151 : IVec S16 32) : Prop :=
  (∀ (k0_h1 : k0_cond1 i k0_t2 = 1#1), ∀ a x, ((![v151] : Fin 1 → IVec S16 32) a x).toNat < S100000.size a)
instance k0_chk22.dec : ∀ (i : grid0.Coords) (k0_t2 : Fin k0_t2_loop.trips) (v151 : IVec S16 32), Decidable (k0_chk22 i k0_t2 v151) := fun i k0_t2 v151 => decidable_of_iff' _ (Iff.of_eq (k0_chk22.eq_1 i k0_t2 v151))
theorem k0_idx22_inb : ∀ (i : grid0.Coords) (k0_t2 : Fin k0_t2_loop.trips) (v151 : IVec S16 32) (k0_hw22 : k0_chk22 i k0_t2 v151), ∀ (k0_h1 : k0_cond1 i k0_t2 = 1#1), ∀ a x, ((![v151] : Fin 1 → IVec S16 32) a x).toNat < S100000.size a := fun i k0_t2 v151 k0_hw22 k0_h1 => k0_hw22 k0_h1
def k0_off48 (k0_t5 : Fin k0_t5_loop.trips) : Fin 2 → Nat :=
  let c0_i32_105 : BitVec 32 := 0#32
  let v153 : Index := Scalar.indexCast c0_i32_105
  let c0_i32_38 : BitVec 32 := 0#32
  let c1_i32_40 : BitVec 32 := 1#32
  let arg12 : BitVec 32 := Scf.iv c0_i32_38 c1_i32_40 k0_t5
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v154 : Index := Scalar.indexCast v148
  ![0, v154.toNat]
def k0_off49 (k0_t5 : Fin k0_t5_loop.trips) : Fin 1 → Nat :=
  let c8192_i32_108 : BitVec 32 := 8192#32
  let c0_i32_38 : BitVec 32 := 0#32
  let c1_i32_40 : BitVec 32 := 1#32
  let arg12 : BitVec 32 := Scf.iv c0_i32_38 c1_i32_40 k0_t5
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v159 : BitVec 32 := Scalar.addi c8192_i32_108 v158
  let v160 : Index := Scalar.indexCast v159
  ![v160.toNat]

def k0_chk23 (i : grid0.Coords) (k0_t2 : Fin k0_t2_loop.trips) (v161 : IVec S16 32) : Prop :=
  (∀ (k0_h1 : k0_cond1 i k0_t2 = 1#1), ∀ a x, ((![v161] : Fin 1 → IVec S16 32) a x).toNat < S100000.size a)
instance k0_chk23.dec : ∀ (i : grid0.Coords) (k0_t2 : Fin k0_t2_loop.trips) (v161 : IVec S16 32), Decidable (k0_chk23 i k0_t2 v161) := fun i k0_t2 v161 => decidable_of_iff' _ (Iff.of_eq (k0_chk23.eq_1 i k0_t2 v161))
theorem k0_idx23_inb : ∀ (i : grid0.Coords) (k0_t2 : Fin k0_t2_loop.trips) (v161 : IVec S16 32) (k0_hw23 : k0_chk23 i k0_t2 v161), ∀ (k0_h1 : k0_cond1 i k0_t2 = 1#1), ∀ a x, ((![v161] : Fin 1 → IVec S16 32) a x).toNat < S100000.size a := fun i k0_t2 v161 k0_hw23 k0_h1 => k0_hw23 k0_h1
def k0_off50 (k0_t5 : Fin k0_t5_loop.trips) : Fin 2 → Nat :=
  let c0_i32_109 : BitVec 32 := 0#32
  let v163 : Index := Scalar.indexCast c0_i32_109
  let c0_i32_38 : BitVec 32 := 0#32
  let c1_i32_40 : BitVec 32 := 1#32
  let arg12 : BitVec 32 := Scf.iv c0_i32_38 c1_i32_40 k0_t5
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v164 : Index := Scalar.indexCast v158
  ![0, v164.toNat]
def k0_off51 (k0_t5 : Fin k0_t5_loop.trips) : Fin 1 → Nat :=
  let c8192_i32_112 : BitVec 32 := 8192#32
  let c0_i32_38 : BitVec 32 := 0#32
  let c1_i32_40 : BitVec 32 := 1#32
  let arg12 : BitVec 32 := Scf.iv c0_i32_38 c1_i32_40 k0_t5
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v169 : BitVec 32 := Scalar.addi c8192_i32_112 v168
  let v170 : Index := Scalar.indexCast v169
  ![v170.toNat]

def k0_chk24 (i : grid0.Coords) (k0_t2 : Fin k0_t2_loop.trips) (v171 : IVec S16 32) : Prop :=
  (∀ (k0_h1 : k0_cond1 i k0_t2 = 1#1), ∀ a x, ((![v171] : Fin 1 → IVec S16 32) a x).toNat < S100000.size a)
instance k0_chk24.dec : ∀ (i : grid0.Coords) (k0_t2 : Fin k0_t2_loop.trips) (v171 : IVec S16 32), Decidable (k0_chk24 i k0_t2 v171) := fun i k0_t2 v171 => decidable_of_iff' _ (Iff.of_eq (k0_chk24.eq_1 i k0_t2 v171))
theorem k0_idx24_inb : ∀ (i : grid0.Coords) (k0_t2 : Fin k0_t2_loop.trips) (v171 : IVec S16 32) (k0_hw24 : k0_chk24 i k0_t2 v171), ∀ (k0_h1 : k0_cond1 i k0_t2 = 1#1), ∀ a x, ((![v171] : Fin 1 → IVec S16 32) a x).toNat < S100000.size a := fun i k0_t2 v171 k0_hw24 k0_h1 => k0_hw24 k0_h1
def k0_off52 (k0_t5 : Fin k0_t5_loop.trips) : Fin 2 → Nat :=
  let c0_i32_113 : BitVec 32 := 0#32
  let v173 : Index := Scalar.indexCast c0_i32_113
  let c0_i32_38 : BitVec 32 := 0#32
  let c1_i32_40 : BitVec 32 := 1#32
  let arg12 : BitVec 32 := Scf.iv c0_i32_38 c1_i32_40 k0_t5
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v174 : Index := Scalar.indexCast v168
  ![0, v174.toNat]
@[reducible] def k0_t6_loop : Scf.Loop 32 :=
  let c0_i32_56 : BitVec 32 := 0#32
  let c32_i32_57 : BitVec 32 := 32#32
  let v65 : BitVec 32 := Scalar.addi c0_i32_56 c32_i32_57
  let c1_i32_58 : BitVec 32 := 1#32
  ⟨c0_i32_56, v65, c1_i32_58⟩
def k0_off53 (k0_t6 : Fin k0_t6_loop.trips) : Fin 1 → Nat :=
  let c12288_i32_81 : BitVec 32 := 12288#32
  let c0_i32_56 : BitVec 32 := 0#32
  let c1_i32_58 : BitVec 32 := 1#32
  let arg12 : BitVec 32 := Scf.iv c0_i32_56 c1_i32_58 k0_t6
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v99 : BitVec 32 := Scalar.addi c12288_i32_81 v98
  let v100 : Index := Scalar.indexCast v99
  ![v100.toNat]

def k0_chk25 (i : grid0.Coords) (k0_t2 : Fin k0_t2_loop.trips) (v101 : IVec S16 32) : Prop :=
  (∀ (k0_h1 : k0_cond1 i k0_t2 = 1#1), ∀ a x, ((![v101] : Fin 1 → IVec S16 32) a x).toNat < S100000.size a)
instance k0_chk25.dec : ∀ (i : grid0.Coords) (k0_t2 : Fin k0_t2_loop.trips) (v101 : IVec S16 32), Decidable (k0_chk25 i k0_t2 v101) := fun i k0_t2 v101 => decidable_of_iff' _ (Iff.of_eq (k0_chk25.eq_1 i k0_t2 v101))
theorem k0_idx25_inb : ∀ (i : grid0.Coords) (k0_t2 : Fin k0_t2_loop.trips) (v101 : IVec S16 32) (k0_hw25 : k0_chk25 i k0_t2 v101), ∀ (k0_h1 : k0_cond1 i k0_t2 = 1#1), ∀ a x, ((![v101] : Fin 1 → IVec S16 32) a x).toNat < S100000.size a := fun i k0_t2 v101 k0_hw25 k0_h1 => k0_hw25 k0_h1
def k0_off54 (k0_t6 : Fin k0_t6_loop.trips) : Fin 2 → Nat :=
  let c1_i32_82 : BitVec 32 := 1#32
  let v103 : Index := Scalar.indexCast c1_i32_82
  let c0_i32_56 : BitVec 32 := 0#32
  let c1_i32_58 : BitVec 32 := 1#32
  let arg12 : BitVec 32 := Scf.iv c0_i32_56 c1_i32_58 k0_t6
  let c8_i32 : BitVec 32 := 8#32
  let v96 : BitVec 32 := Scalar.muli arg12 c8_i32
  let c0_i32_80 : BitVec 32 := 0#32
  let v97 : BitVec 32 := Scalar.addi v96 c0_i32_80
  let c16_i32 : BitVec 32 := 16#32
  let v98 : BitVec 32 := Scalar.muli v97 c16_i32
  let v104 : Index := Scalar.indexCast v98
  ![1, v104.toNat]
def k0_off55 (k0_t6 : Fin k0_t6_loop.trips) : Fin 1 → Nat :=
  let c12288_i32_86 : BitVec 32 := 12288#32
  let c0_i32_56 : BitVec 32 := 0#32
  let c1_i32_58 : BitVec 32 := 1#32
  let arg12 : BitVec 32 := Scf.iv c0_i32_56 c1_i32_58 k0_t6
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v109 : BitVec 32 := Scalar.addi c12288_i32_86 v108
  let v110 : Index := Scalar.indexCast v109
  ![v110.toNat]

def k0_chk26 (i : grid0.Coords) (k0_t2 : Fin k0_t2_loop.trips) (v111 : IVec S16 32) : Prop :=
  (∀ (k0_h1 : k0_cond1 i k0_t2 = 1#1), ∀ a x, ((![v111] : Fin 1 → IVec S16 32) a x).toNat < S100000.size a)
instance k0_chk26.dec : ∀ (i : grid0.Coords) (k0_t2 : Fin k0_t2_loop.trips) (v111 : IVec S16 32), Decidable (k0_chk26 i k0_t2 v111) := fun i k0_t2 v111 => decidable_of_iff' _ (Iff.of_eq (k0_chk26.eq_1 i k0_t2 v111))
theorem k0_idx26_inb : ∀ (i : grid0.Coords) (k0_t2 : Fin k0_t2_loop.trips) (v111 : IVec S16 32) (k0_hw26 : k0_chk26 i k0_t2 v111), ∀ (k0_h1 : k0_cond1 i k0_t2 = 1#1), ∀ a x, ((![v111] : Fin 1 → IVec S16 32) a x).toNat < S100000.size a := fun i k0_t2 v111 k0_hw26 k0_h1 => k0_hw26 k0_h1
def k0_off56 (k0_t6 : Fin k0_t6_loop.trips) : Fin 2 → Nat :=
  let c1_i32_87 : BitVec 32 := 1#32
  let v113 : Index := Scalar.indexCast c1_i32_87
  let c0_i32_56 : BitVec 32 := 0#32
  let c1_i32_58 : BitVec 32 := 1#32
  let arg12 : BitVec 32 := Scf.iv c0_i32_56 c1_i32_58 k0_t6
  let c8_i32_83 : BitVec 32 := 8#32
  let v106 : BitVec 32 := Scalar.muli arg12 c8_i32_83
  let c1_i32_84 : BitVec 32 := 1#32
  let v107 : BitVec 32 := Scalar.addi v106 c1_i32_84
  let c16_i32_85 : BitVec 32 := 16#32
  let v108 : BitVec 32 := Scalar.muli v107 c16_i32_85
  let v114 : Index := Scalar.indexCast v108
  ![1, v114.toNat]
def k0_off57 (k0_t6 : Fin k0_t6_loop.trips) : Fin 1 → Nat :=
  let c12288_i32_91 : BitVec 32 := 12288#32
  let c0_i32_56 : BitVec 32 := 0#32
  let c1_i32_58 : BitVec 32 := 1#32
  let arg12 : BitVec 32 := Scf.iv c0_i32_56 c1_i32_58 k0_t6
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v119 : BitVec 32 := Scalar.addi c12288_i32_91 v118
  let v120 : Index := Scalar.indexCast v119
  ![v120.toNat]

def k0_chk27 (i : grid0.Coords) (k0_t2 : Fin k0_t2_loop.trips) (v121 : IVec S16 32) : Prop :=
  (∀ (k0_h1 : k0_cond1 i k0_t2 = 1#1), ∀ a x, ((![v121] : Fin 1 → IVec S16 32) a x).toNat < S100000.size a)
instance k0_chk27.dec : ∀ (i : grid0.Coords) (k0_t2 : Fin k0_t2_loop.trips) (v121 : IVec S16 32), Decidable (k0_chk27 i k0_t2 v121) := fun i k0_t2 v121 => decidable_of_iff' _ (Iff.of_eq (k0_chk27.eq_1 i k0_t2 v121))
theorem k0_idx27_inb : ∀ (i : grid0.Coords) (k0_t2 : Fin k0_t2_loop.trips) (v121 : IVec S16 32) (k0_hw27 : k0_chk27 i k0_t2 v121), ∀ (k0_h1 : k0_cond1 i k0_t2 = 1#1), ∀ a x, ((![v121] : Fin 1 → IVec S16 32) a x).toNat < S100000.size a := fun i k0_t2 v121 k0_hw27 k0_h1 => k0_hw27 k0_h1
def k0_off58 (k0_t6 : Fin k0_t6_loop.trips) : Fin 2 → Nat :=
  let c1_i32_92 : BitVec 32 := 1#32
  let v123 : Index := Scalar.indexCast c1_i32_92
  let c0_i32_56 : BitVec 32 := 0#32
  let c1_i32_58 : BitVec 32 := 1#32
  let arg12 : BitVec 32 := Scf.iv c0_i32_56 c1_i32_58 k0_t6
  let c8_i32_88 : BitVec 32 := 8#32
  let v116 : BitVec 32 := Scalar.muli arg12 c8_i32_88
  let c2_i32_89 : BitVec 32 := 2#32
  let v117 : BitVec 32 := Scalar.addi v116 c2_i32_89
  let c16_i32_90 : BitVec 32 := 16#32
  let v118 : BitVec 32 := Scalar.muli v117 c16_i32_90
  let v124 : Index := Scalar.indexCast v118
  ![1, v124.toNat]
def k0_off59 (k0_t6 : Fin k0_t6_loop.trips) : Fin 1 → Nat :=
  let c12288_i32_95 : BitVec 32 := 12288#32
  let c0_i32_56 : BitVec 32 := 0#32
  let c1_i32_58 : BitVec 32 := 1#32
  let arg12 : BitVec 32 := Scf.iv c0_i32_56 c1_i32_58 k0_t6
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v129 : BitVec 32 := Scalar.addi c12288_i32_95 v128
  let v130 : Index := Scalar.indexCast v129
  ![v130.toNat]

def k0_chk28 (i : grid0.Coords) (k0_t2 : Fin k0_t2_loop.trips) (v131 : IVec S16 32) : Prop :=
  (∀ (k0_h1 : k0_cond1 i k0_t2 = 1#1), ∀ a x, ((![v131] : Fin 1 → IVec S16 32) a x).toNat < S100000.size a)
instance k0_chk28.dec : ∀ (i : grid0.Coords) (k0_t2 : Fin k0_t2_loop.trips) (v131 : IVec S16 32), Decidable (k0_chk28 i k0_t2 v131) := fun i k0_t2 v131 => decidable_of_iff' _ (Iff.of_eq (k0_chk28.eq_1 i k0_t2 v131))
theorem k0_idx28_inb : ∀ (i : grid0.Coords) (k0_t2 : Fin k0_t2_loop.trips) (v131 : IVec S16 32) (k0_hw28 : k0_chk28 i k0_t2 v131), ∀ (k0_h1 : k0_cond1 i k0_t2 = 1#1), ∀ a x, ((![v131] : Fin 1 → IVec S16 32) a x).toNat < S100000.size a := fun i k0_t2 v131 k0_hw28 k0_h1 => k0_hw28 k0_h1
def k0_off60 (k0_t6 : Fin k0_t6_loop.trips) : Fin 2 → Nat :=
  let c1_i32_96 : BitVec 32 := 1#32
  let v133 : Index := Scalar.indexCast c1_i32_96
  let c0_i32_56 : BitVec 32 := 0#32
  let c1_i32_58 : BitVec 32 := 1#32
  let arg12 : BitVec 32 := Scf.iv c0_i32_56 c1_i32_58 k0_t6
  let c8_i32_93 : BitVec 32 := 8#32
  let v126 : BitVec 32 := Scalar.muli arg12 c8_i32_93
  let c3_i32 : BitVec 32 := 3#32
  let v127 : BitVec 32 := Scalar.addi v126 c3_i32
  let c16_i32_94 : BitVec 32 := 16#32
  let v128 : BitVec 32 := Scalar.muli v127 c16_i32_94
  let v134 : Index := Scalar.indexCast v128
  ![1, v134.toNat]
def k0_off61 (k0_t6 : Fin k0_t6_loop.trips) : Fin 1 → Nat :=
  let c12288_i32_100 : BitVec 32 := 12288#32
  let c0_i32_56 : BitVec 32 := 0#32
  let c1_i32_58 : BitVec 32 := 1#32
  let arg12 : BitVec 32 := Scf.iv c0_i32_56 c1_i32_58 k0_t6
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v139 : BitVec 32 := Scalar.addi c12288_i32_100 v138
  let v140 : Index := Scalar.indexCast v139
  ![v140.toNat]

def k0_chk29 (i : grid0.Coords) (k0_t2 : Fin k0_t2_loop.trips) (v141 : IVec S16 32) : Prop :=
  (∀ (k0_h1 : k0_cond1 i k0_t2 = 1#1), ∀ a x, ((![v141] : Fin 1 → IVec S16 32) a x).toNat < S100000.size a)
instance k0_chk29.dec : ∀ (i : grid0.Coords) (k0_t2 : Fin k0_t2_loop.trips) (v141 : IVec S16 32), Decidable (k0_chk29 i k0_t2 v141) := fun i k0_t2 v141 => decidable_of_iff' _ (Iff.of_eq (k0_chk29.eq_1 i k0_t2 v141))
theorem k0_idx29_inb : ∀ (i : grid0.Coords) (k0_t2 : Fin k0_t2_loop.trips) (v141 : IVec S16 32) (k0_hw29 : k0_chk29 i k0_t2 v141), ∀ (k0_h1 : k0_cond1 i k0_t2 = 1#1), ∀ a x, ((![v141] : Fin 1 → IVec S16 32) a x).toNat < S100000.size a := fun i k0_t2 v141 k0_hw29 k0_h1 => k0_hw29 k0_h1
def k0_off62 (k0_t6 : Fin k0_t6_loop.trips) : Fin 2 → Nat :=
  let c1_i32_101 : BitVec 32 := 1#32
  let v143 : Index := Scalar.indexCast c1_i32_101
  let c0_i32_56 : BitVec 32 := 0#32
  let c1_i32_58 : BitVec 32 := 1#32
  let arg12 : BitVec 32 := Scf.iv c0_i32_56 c1_i32_58 k0_t6
  let c8_i32_97 : BitVec 32 := 8#32
  let v136 : BitVec 32 := Scalar.muli arg12 c8_i32_97
  let c4_i32_98 : BitVec 32 := 4#32
  let v137 : BitVec 32 := Scalar.addi v136 c4_i32_98
  let c16_i32_99 : BitVec 32 := 16#32
  let v138 : BitVec 32 := Scalar.muli v137 c16_i32_99
  let v144 : Index := Scalar.indexCast v138
  ![1, v144.toNat]
def k0_off63 (k0_t6 : Fin k0_t6_loop.trips) : Fin 1 → Nat :=
  let c12288_i32_104 : BitVec 32 := 12288#32
  let c0_i32_56 : BitVec 32 := 0#32
  let c1_i32_58 : BitVec 32 := 1#32
  let arg12 : BitVec 32 := Scf.iv c0_i32_56 c1_i32_58 k0_t6
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v149 : BitVec 32 := Scalar.addi c12288_i32_104 v148
  let v150 : Index := Scalar.indexCast v149
  ![v150.toNat]

def k0_chk30 (i : grid0.Coords) (k0_t2 : Fin k0_t2_loop.trips) (v151 : IVec S16 32) : Prop :=
  (∀ (k0_h1 : k0_cond1 i k0_t2 = 1#1), ∀ a x, ((![v151] : Fin 1 → IVec S16 32) a x).toNat < S100000.size a)
instance k0_chk30.dec : ∀ (i : grid0.Coords) (k0_t2 : Fin k0_t2_loop.trips) (v151 : IVec S16 32), Decidable (k0_chk30 i k0_t2 v151) := fun i k0_t2 v151 => decidable_of_iff' _ (Iff.of_eq (k0_chk30.eq_1 i k0_t2 v151))
theorem k0_idx30_inb : ∀ (i : grid0.Coords) (k0_t2 : Fin k0_t2_loop.trips) (v151 : IVec S16 32) (k0_hw30 : k0_chk30 i k0_t2 v151), ∀ (k0_h1 : k0_cond1 i k0_t2 = 1#1), ∀ a x, ((![v151] : Fin 1 → IVec S16 32) a x).toNat < S100000.size a := fun i k0_t2 v151 k0_hw30 k0_h1 => k0_hw30 k0_h1
def k0_off64 (k0_t6 : Fin k0_t6_loop.trips) : Fin 2 → Nat :=
  let c1_i32_105 : BitVec 32 := 1#32
  let v153 : Index := Scalar.indexCast c1_i32_105
  let c0_i32_56 : BitVec 32 := 0#32
  let c1_i32_58 : BitVec 32 := 1#32
  let arg12 : BitVec 32 := Scf.iv c0_i32_56 c1_i32_58 k0_t6
  let c8_i32_102 : BitVec 32 := 8#32
  let v146 : BitVec 32 := Scalar.muli arg12 c8_i32_102
  let c5_i32 : BitVec 32 := 5#32
  let v147 : BitVec 32 := Scalar.addi v146 c5_i32
  let c16_i32_103 : BitVec 32 := 16#32
  let v148 : BitVec 32 := Scalar.muli v147 c16_i32_103
  let v154 : Index := Scalar.indexCast v148
  ![1, v154.toNat]
def k0_off65 (k0_t6 : Fin k0_t6_loop.trips) : Fin 1 → Nat :=
  let c12288_i32_108 : BitVec 32 := 12288#32
  let c0_i32_56 : BitVec 32 := 0#32
  let c1_i32_58 : BitVec 32 := 1#32
  let arg12 : BitVec 32 := Scf.iv c0_i32_56 c1_i32_58 k0_t6
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v159 : BitVec 32 := Scalar.addi c12288_i32_108 v158
  let v160 : Index := Scalar.indexCast v159
  ![v160.toNat]

def k0_chk31 (i : grid0.Coords) (k0_t2 : Fin k0_t2_loop.trips) (v161 : IVec S16 32) : Prop :=
  (∀ (k0_h1 : k0_cond1 i k0_t2 = 1#1), ∀ a x, ((![v161] : Fin 1 → IVec S16 32) a x).toNat < S100000.size a)
instance k0_chk31.dec : ∀ (i : grid0.Coords) (k0_t2 : Fin k0_t2_loop.trips) (v161 : IVec S16 32), Decidable (k0_chk31 i k0_t2 v161) := fun i k0_t2 v161 => decidable_of_iff' _ (Iff.of_eq (k0_chk31.eq_1 i k0_t2 v161))
theorem k0_idx31_inb : ∀ (i : grid0.Coords) (k0_t2 : Fin k0_t2_loop.trips) (v161 : IVec S16 32) (k0_hw31 : k0_chk31 i k0_t2 v161), ∀ (k0_h1 : k0_cond1 i k0_t2 = 1#1), ∀ a x, ((![v161] : Fin 1 → IVec S16 32) a x).toNat < S100000.size a := fun i k0_t2 v161 k0_hw31 k0_h1 => k0_hw31 k0_h1
def k0_off66 (k0_t6 : Fin k0_t6_loop.trips) : Fin 2 → Nat :=
  let c1_i32_109 : BitVec 32 := 1#32
  let v163 : Index := Scalar.indexCast c1_i32_109
  let c0_i32_56 : BitVec 32 := 0#32
  let c1_i32_58 : BitVec 32 := 1#32
  let arg12 : BitVec 32 := Scf.iv c0_i32_56 c1_i32_58 k0_t6
  let c8_i32_106 : BitVec 32 := 8#32
  let v156 : BitVec 32 := Scalar.muli arg12 c8_i32_106
  let c6_i32 : BitVec 32 := 6#32
  let v157 : BitVec 32 := Scalar.addi v156 c6_i32
  let c16_i32_107 : BitVec 32 := 16#32
  let v158 : BitVec 32 := Scalar.muli v157 c16_i32_107
  let v164 : Index := Scalar.indexCast v158
  ![1, v164.toNat]
def k0_off67 (k0_t6 : Fin k0_t6_loop.trips) : Fin 1 → Nat :=
  let c12288_i32_112 : BitVec 32 := 12288#32
  let c0_i32_56 : BitVec 32 := 0#32
  let c1_i32_58 : BitVec 32 := 1#32
  let arg12 : BitVec 32 := Scf.iv c0_i32_56 c1_i32_58 k0_t6
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v169 : BitVec 32 := Scalar.addi c12288_i32_112 v168
  let v170 : Index := Scalar.indexCast v169
  ![v170.toNat]

def k0_chk32 (i : grid0.Coords) (k0_t2 : Fin k0_t2_loop.trips) (v171 : IVec S16 32) : Prop :=
  (∀ (k0_h1 : k0_cond1 i k0_t2 = 1#1), ∀ a x, ((![v171] : Fin 1 → IVec S16 32) a x).toNat < S100000.size a)
instance k0_chk32.dec : ∀ (i : grid0.Coords) (k0_t2 : Fin k0_t2_loop.trips) (v171 : IVec S16 32), Decidable (k0_chk32 i k0_t2 v171) := fun i k0_t2 v171 => decidable_of_iff' _ (Iff.of_eq (k0_chk32.eq_1 i k0_t2 v171))
theorem k0_idx32_inb : ∀ (i : grid0.Coords) (k0_t2 : Fin k0_t2_loop.trips) (v171 : IVec S16 32) (k0_hw32 : k0_chk32 i k0_t2 v171), ∀ (k0_h1 : k0_cond1 i k0_t2 = 1#1), ∀ a x, ((![v171] : Fin 1 → IVec S16 32) a x).toNat < S100000.size a := fun i k0_t2 v171 k0_hw32 k0_h1 => k0_hw32 k0_h1
def k0_off68 (k0_t6 : Fin k0_t6_loop.trips) : Fin 2 → Nat :=
  let c1_i32_113 : BitVec 32 := 1#32
  let v173 : Index := Scalar.indexCast c1_i32_113
  let c0_i32_56 : BitVec 32 := 0#32
  let c1_i32_58 : BitVec 32 := 1#32
  let arg12 : BitVec 32 := Scf.iv c0_i32_56 c1_i32_58 k0_t6
  let c8_i32_110 : BitVec 32 := 8#32
  let v166 : BitVec 32 := Scalar.muli arg12 c8_i32_110
  let c7_i32 : BitVec 32 := 7#32
  let v167 : BitVec 32 := Scalar.addi v166 c7_i32
  let c16_i32_111 : BitVec 32 := 16#32
  let v168 : BitVec 32 := Scalar.muli v167 c16_i32_111
  let v174 : Index := Scalar.indexCast v168
  ![1, v174.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3328x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S26x100x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S26x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S26x16x416 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x416 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x416 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S416x416 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x416 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S416x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x2 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1024x16 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S26x100000x100_S26x100x100000_0_2_1 : S26x100000x100.Transposes [0, 2, 1] S26x100x100000
  shapeCasts_S26x16384_S425984 : S26x16384.ShapeCasts S425984
  squeezes_S1x100x100000_S100x100000 : S1x100x100000.Squeezes S100x100000
  squeezes_S1x100000_S100000 : S1x100000.Squeezes S100000
  h_S16 : 0 < S16.numel
  h_S100000 : 0 < S100000.numel
  h_S1x16 : 0 < S1x16.numel
  shapeCasts_S1x16_S16 : S1x16.ShapeCasts S16
  shapeCasts_S16_S1x16 : S16.ShapeCasts S1x16
  inb_S2x4096_S1x4096_0_0 : ∀ a, (![0, 0] : Fin 2 → Nat) a + S1x4096.size a ≤ S2x4096.size a
  squeezes_S1x4096_S4096 : S1x4096.Squeezes S4096
  squeezes_S1x16384_S16384 : S1x16384.Squeezes S16384
  inb_S16384_S4096_0 : ∀ a, (![0] : Fin 1 → Nat) a + S4096.size a ≤ S16384.size a
  inb_S2x4096_S1x4096_1_0 : ∀ a, (![1, 0] : Fin 2 → Nat) a + S1x4096.size a ≤ S2x4096.size a
  inb_S16384_S4096_4096 : ∀ a, (![4096] : Fin 1 → Nat) a + S4096.size a ≤ S16384.size a
  inb_S16384_S4096_8192 : ∀ a, (![8192] : Fin 1 → Nat) a + S4096.size a ≤ S16384.size a
  inb_S16384_S4096_12288 : ∀ a, (![12288] : Fin 1 → Nat) a + S4096.size a ≤ S16384.size a
  bcast_S26x100_S26x100x1_0_1 : S26x100.BroadcastsInDim S26x100x1 (![0, 1] : Fin 2 → Fin S26x100x1.rank)
  bcast_S26x100x1_S26x100x16_0_1_2 : S26x100x1.BroadcastsInDim S26x100x16 (![0, 1, 2] : Fin 3 → Fin S26x100x16.rank)
  bcast_S_S26x26 : S_.BroadcastsInDim S26x26 (![] : Fin 0 → Fin S26x26.rank)
  bcast_S26x26_S26x1x26x1_0_2 : S26x26.BroadcastsInDim S26x1x26x1 (![0, 2] : Fin 2 → Fin S26x1x26x1.rank)
  bcast_S_S16x16 : S_.BroadcastsInDim S16x16 (![] : Fin 0 → Fin S16x16.rank)
  bcast_S16x16_S1x16x1x16_1_3 : S16x16.BroadcastsInDim S1x16x1x16 (![1, 3] : Fin 2 → Fin S1x16x1x16.rank)
  bcast_S26x1x26x1_S26x16x26x16_0_1_2_3 : S26x1x26x1.BroadcastsInDim S26x16x26x16 (![0, 1, 2, 3] : Fin 4 → Fin S26x16x26x16.rank)
  bcast_S1x16x1x16_S26x16x26x16_0_1_2_3 : S1x16x1x16.BroadcastsInDim S26x16x26x16 (![0, 1, 2, 3] : Fin 4 → Fin S26x16x26x16.rank)
  shapeCasts_S26x16x26x16_S26x16x416 : S26x16x26x16.ShapeCasts S26x16x416
  shapeCasts_S416_S1x416 : S416.ShapeCasts S1x416
  bitsLt_bf16_f32 : FTy.bits .bf16 < FTy.bits .f32
  shapeCasts_S2_S1x2 : S2.ShapeCasts S1x2
  inb_S26x16_S26x16_0_0 : ∀ a, (![0, 0] : Fin 2 → Nat) a + S26x16.size a ≤ S26x16.size a
  h_S26x16 : 0 < S26x16.numel
  shapeCasts_S26x16_S26x16 : S26x16.ShapeCasts S26x16
  inb_S3328x1024_S100x1024_0_0 : ∀ a, (![0, 0] : Fin 2 → Nat) a + S100x1024.size a ≤ S3328x1024.size a
  h_S100x1024 : 0 < S100x1024.numel
  shapeCasts_S100x1024_S100x1024 : S100x1024.ShapeCasts S100x1024
  reduces_S100x1024_S1024 : S100x1024.Reduces [0] S1024
  shapeCasts_S1024_S1x1024 : S1024.ShapeCasts S1x1024
  broadcasts_S1x1024_S100x1024 : S1x1024.Broadcasts S100x1024
  inb_S26x100x16_S1x100x16_0_0_0 : ∀ a, (![0, 0, 0] : Fin 3 → Nat) a + S1x100x16.size a ≤ S26x100x16.size a
  h_S1x100x16 : 0 < S1x100x16.numel
  shapeCasts_S1x100x16_S100x16 : S1x100x16.ShapeCasts S100x16
  slices_S26x16_o0_0_S1x16 : S26x16.Slices ![0, 0] S1x16
  broadcasts_S1x16_S1024x16 : S1x16.Broadcasts S1024x16
  inb_S26x16x416_S1x16x416_0_0_0 : ∀ a, (![0, 0, 0] : Fin 3 → Nat) a + S1x16x416.size a ≤ S26x16x416.size a
  h_S1x16x416 : 0 < S1x16x416.numel
  shapeCasts_S1x16x416_S16x416 : S1x16x416.ShapeCasts S16x416
  inb_S3328x1024_S100x1024_128_0 : ∀ a, (![128, 0] : Fin 2 → Nat) a + S100x1024.size a ≤ S3328x1024.size a
  inb_S26x100x16_S1x100x16_1_0_0 : ∀ a, (![1, 0, 0] : Fin 3 → Nat) a + S1x100x16.size a ≤ S26x100x16.size a
  slices_S26x16_o1_0_S1x16 : S26x16.Slices ![1, 0] S1x16
  inb_S26x16x416_S1x16x416_1_0_0 : ∀ a, (![1, 0, 0] : Fin 3 → Nat) a + S1x16x416.size a ≤ S26x16x416.size a
  inb_S3328x1024_S100x1024_256_0 : ∀ a, (![256, 0] : Fin 2 → Nat) a + S100x1024.size a ≤ S3328x1024.size a
  inb_S26x100x16_S1x100x16_2_0_0 : ∀ a, (![2, 0, 0] : Fin 3 → Nat) a + S1x100x16.size a ≤ S26x100x16.size a
  slices_S26x16_o2_0_S1x16 : S26x16.Slices ![2, 0] S1x16
  inb_S26x16x416_S1x16x416_2_0_0 : ∀ a, (![2, 0, 0] : Fin 3 → Nat) a + S1x16x416.size a ≤ S26x16x416.size a
  inb_S3328x1024_S100x1024_384_0 : ∀ a, (![384, 0] : Fin 2 → Nat) a + S100x1024.size a ≤ S3328x1024.size a
  inb_S26x100x16_S1x100x16_3_0_0 : ∀ a, (![3, 0, 0] : Fin 3 → Nat) a + S1x100x16.size a ≤ S26x100x16.size a
  slices_S26x16_o3_0_S1x16 : S26x16.Slices ![3, 0] S1x16
  inb_S26x16x416_S1x16x416_3_0_0 : ∀ a, (![3, 0, 0] : Fin 3 → Nat) a + S1x16x416.size a ≤ S26x16x416.size a
  inb_S3328x1024_S100x1024_512_0 : ∀ a, (![512, 0] : Fin 2 → Nat) a + S100x1024.size a ≤ S3328x1024.size a
  inb_S26x100x16_S1x100x16_4_0_0 : ∀ a, (![4, 0, 0] : Fin 3 → Nat) a + S1x100x16.size a ≤ S26x100x16.size a
  slices_S26x16_o4_0_S1x16 : S26x16.Slices ![4, 0] S1x16
  inb_S26x16x416_S1x16x416_4_0_0 : ∀ a, (![4, 0, 0] : Fin 3 → Nat) a + S1x16x416.size a ≤ S26x16x416.size a
  inb_S3328x1024_S100x1024_640_0 : ∀ a, (![640, 0] : Fin 2 → Nat) a + S100x1024.size a ≤ S3328x1024.size a
  inb_S26x100x16_S1x100x16_5_0_0 : ∀ a, (![5, 0, 0] : Fin 3 → Nat) a + S1x100x16.size a ≤ S26x100x16.size a
  slices_S26x16_o5_0_S1x16 : S26x16.Slices ![5, 0] S1x16
  inb_S26x16x416_S1x16x416_5_0_0 : ∀ a, (![5, 0, 0] : Fin 3 → Nat) a + S1x16x416.size a ≤ S26x16x416.size a
  inb_S3328x1024_S100x1024_768_0 : ∀ a, (![768, 0] : Fin 2 → Nat) a + S100x1024.size a ≤ S3328x1024.size a
  inb_S26x100x16_S1x100x16_6_0_0 : ∀ a, (![6, 0, 0] : Fin 3 → Nat) a + S1x100x16.size a ≤ S26x100x16.size a
  slices_S26x16_o6_0_S1x16 : S26x16.Slices ![6, 0] S1x16
  inb_S26x16x416_S1x16x416_6_0_0 : ∀ a, (![6, 0, 0] : Fin 3 → Nat) a + S1x16x416.size a ≤ S26x16x416.size a
  inb_S3328x1024_S100x1024_896_0 : ∀ a, (![896, 0] : Fin 2 → Nat) a + S100x1024.size a ≤ S3328x1024.size a
  inb_S26x100x16_S1x100x16_7_0_0 : ∀ a, (![7, 0, 0] : Fin 3 → Nat) a + S1x100x16.size a ≤ S26x100x16.size a
  slices_S26x16_o7_0_S1x16 : S26x16.Slices ![7, 0] S1x16
  inb_S26x16x416_S1x16x416_7_0_0 : ∀ a, (![7, 0, 0] : Fin 3 → Nat) a + S1x16x416.size a ≤ S26x16x416.size a
  inb_S3328x1024_S100x1024_1024_0 : ∀ a, (![1024, 0] : Fin 2 → Nat) a + S100x1024.size a ≤ S3328x1024.size a
  inb_S26x100x16_S1x100x16_8_0_0 : ∀ a, (![8, 0, 0] : Fin 3 → Nat) a + S1x100x16.size a ≤ S26x100x16.size a
  slices_S26x16_o8_0_S1x16 : S26x16.Slices ![8, 0] S1x16
  inb_S26x16x416_S1x16x416_8_0_0 : ∀ a, (![8, 0, 0] : Fin 3 → Nat) a + S1x16x416.size a ≤ S26x16x416.size a
  inb_S3328x1024_S100x1024_1152_0 : ∀ a, (![1152, 0] : Fin 2 → Nat) a + S100x1024.size a ≤ S3328x1024.size a
  inb_S26x100x16_S1x100x16_9_0_0 : ∀ a, (![9, 0, 0] : Fin 3 → Nat) a + S1x100x16.size a ≤ S26x100x16.size a
  slices_S26x16_o9_0_S1x16 : S26x16.Slices ![9, 0] S1x16
  inb_S26x16x416_S1x16x416_9_0_0 : ∀ a, (![9, 0, 0] : Fin 3 → Nat) a + S1x16x416.size a ≤ S26x16x416.size a
  inb_S3328x1024_S100x1024_1280_0 : ∀ a, (![1280, 0] : Fin 2 → Nat) a + S100x1024.size a ≤ S3328x1024.size a
  inb_S26x100x16_S1x100x16_10_0_0 : ∀ a, (![10, 0, 0] : Fin 3 → Nat) a + S1x100x16.size a ≤ S26x100x16.size a
  slices_S26x16_o10_0_S1x16 : S26x16.Slices ![10, 0] S1x16
  inb_S26x16x416_S1x16x416_10_0_0 : ∀ a, (![10, 0, 0] : Fin 3 → Nat) a + S1x16x416.size a ≤ S26x16x416.size a
  inb_S3328x1024_S100x1024_1408_0 : ∀ a, (![1408, 0] : Fin 2 → Nat) a + S100x1024.size a ≤ S3328x1024.size a
  inb_S26x100x16_S1x100x16_11_0_0 : ∀ a, (![11, 0, 0] : Fin 3 → Nat) a + S1x100x16.size a ≤ S26x100x16.size a
  slices_S26x16_o11_0_S1x16 : S26x16.Slices ![11, 0] S1x16
  inb_S26x16x416_S1x16x416_11_0_0 : ∀ a, (![11, 0, 0] : Fin 3 → Nat) a + S1x16x416.size a ≤ S26x16x416.size a
  inb_S3328x1024_S100x1024_1536_0 : ∀ a, (![1536, 0] : Fin 2 → Nat) a + S100x1024.size a ≤ S3328x1024.size a
  inb_S26x100x16_S1x100x16_12_0_0 : ∀ a, (![12, 0, 0] : Fin 3 → Nat) a + S1x100x16.size a ≤ S26x100x16.size a
  slices_S26x16_o12_0_S1x16 : S26x16.Slices ![12, 0] S1x16
  inb_S26x16x416_S1x16x416_12_0_0 : ∀ a, (![12, 0, 0] : Fin 3 → Nat) a + S1x16x416.size a ≤ S26x16x416.size a
  inb_S3328x1024_S100x1024_1664_0 : ∀ a, (![1664, 0] : Fin 2 → Nat) a + S100x1024.size a ≤ S3328x1024.size a
  inb_S26x100x16_S1x100x16_13_0_0 : ∀ a, (![13, 0, 0] : Fin 3 → Nat) a + S1x100x16.size a ≤ S26x100x16.size a
  slices_S26x16_o13_0_S1x16 : S26x16.Slices ![13, 0] S1x16
  inb_S26x16x416_S1x16x416_13_0_0 : ∀ a, (![13, 0, 0] : Fin 3 → Nat) a + S1x16x416.size a ≤ S26x16x416.size a
  inb_S3328x1024_S100x1024_1792_0 : ∀ a, (![1792, 0] : Fin 2 → Nat) a + S100x1024.size a ≤ S3328x1024.size a
  inb_S26x100x16_S1x100x16_14_0_0 : ∀ a, (![14, 0, 0] : Fin 3 → Nat) a + S1x100x16.size a ≤ S26x100x16.size a
  slices_S26x16_o14_0_S1x16 : S26x16.Slices ![14, 0] S1x16
  inb_S26x16x416_S1x16x416_14_0_0 : ∀ a, (![14, 0, 0] : Fin 3 → Nat) a + S1x16x416.size a ≤ S26x16x416.size a
  inb_S3328x1024_S100x1024_1920_0 : ∀ a, (![1920, 0] : Fin 2 → Nat) a + S100x1024.size a ≤ S3328x1024.size a
  inb_S26x100x16_S1x100x16_15_0_0 : ∀ a, (![15, 0, 0] : Fin 3 → Nat) a + S1x100x16.size a ≤ S26x100x16.size a
  slices_S26x16_o15_0_S1x16 : S26x16.Slices ![15, 0] S1x16
  inb_S26x16x416_S1x16x416_15_0_0 : ∀ a, (![15, 0, 0] : Fin 3 → Nat) a + S1x16x416.size a ≤ S26x16x416.size a
  inb_S3328x1024_S100x1024_2048_0 : ∀ a, (![2048, 0] : Fin 2 → Nat) a + S100x1024.size a ≤ S3328x1024.size a
  inb_S26x100x16_S1x100x16_16_0_0 : ∀ a, (![16, 0, 0] : Fin 3 → Nat) a + S1x100x16.size a ≤ S26x100x16.size a
  slices_S26x16_o16_0_S1x16 : S26x16.Slices ![16, 0] S1x16
  inb_S26x16x416_S1x16x416_16_0_0 : ∀ a, (![16, 0, 0] : Fin 3 → Nat) a + S1x16x416.size a ≤ S26x16x416.size a
  inb_S3328x1024_S100x1024_2176_0 : ∀ a, (![2176, 0] : Fin 2 → Nat) a + S100x1024.size a ≤ S3328x1024.size a
  inb_S26x100x16_S1x100x16_17_0_0 : ∀ a, (![17, 0, 0] : Fin 3 → Nat) a + S1x100x16.size a ≤ S26x100x16.size a
  slices_S26x16_o17_0_S1x16 : S26x16.Slices ![17, 0] S1x16
  inb_S26x16x416_S1x16x416_17_0_0 : ∀ a, (![17, 0, 0] : Fin 3 → Nat) a + S1x16x416.size a ≤ S26x16x416.size a
  inb_S3328x1024_S100x1024_2304_0 : ∀ a, (![2304, 0] : Fin 2 → Nat) a + S100x1024.size a ≤ S3328x1024.size a
  inb_S26x100x16_S1x100x16_18_0_0 : ∀ a, (![18, 0, 0] : Fin 3 → Nat) a + S1x100x16.size a ≤ S26x100x16.size a
  slices_S26x16_o18_0_S1x16 : S26x16.Slices ![18, 0] S1x16
  inb_S26x16x416_S1x16x416_18_0_0 : ∀ a, (![18, 0, 0] : Fin 3 → Nat) a + S1x16x416.size a ≤ S26x16x416.size a
  inb_S3328x1024_S100x1024_2432_0 : ∀ a, (![2432, 0] : Fin 2 → Nat) a + S100x1024.size a ≤ S3328x1024.size a
  inb_S26x100x16_S1x100x16_19_0_0 : ∀ a, (![19, 0, 0] : Fin 3 → Nat) a + S1x100x16.size a ≤ S26x100x16.size a
  slices_S26x16_o19_0_S1x16 : S26x16.Slices ![19, 0] S1x16
  inb_S26x16x416_S1x16x416_19_0_0 : ∀ a, (![19, 0, 0] : Fin 3 → Nat) a + S1x16x416.size a ≤ S26x16x416.size a
  inb_S3328x1024_S100x1024_2560_0 : ∀ a, (![2560, 0] : Fin 2 → Nat) a + S100x1024.size a ≤ S3328x1024.size a
  inb_S26x100x16_S1x100x16_20_0_0 : ∀ a, (![20, 0, 0] : Fin 3 → Nat) a + S1x100x16.size a ≤ S26x100x16.size a
  slices_S26x16_o20_0_S1x16 : S26x16.Slices ![20, 0] S1x16
  inb_S26x16x416_S1x16x416_20_0_0 : ∀ a, (![20, 0, 0] : Fin 3 → Nat) a + S1x16x416.size a ≤ S26x16x416.size a
  inb_S3328x1024_S100x1024_2688_0 : ∀ a, (![2688, 0] : Fin 2 → Nat) a + S100x1024.size a ≤ S3328x1024.size a
  inb_S26x100x16_S1x100x16_21_0_0 : ∀ a, (![21, 0, 0] : Fin 3 → Nat) a + S1x100x16.size a ≤ S26x100x16.size a
  slices_S26x16_o21_0_S1x16 : S26x16.Slices ![21, 0] S1x16
  inb_S26x16x416_S1x16x416_21_0_0 : ∀ a, (![21, 0, 0] : Fin 3 → Nat) a + S1x16x416.size a ≤ S26x16x416.size a
  inb_S3328x1024_S100x1024_2816_0 : ∀ a, (![2816, 0] : Fin 2 → Nat) a + S100x1024.size a ≤ S3328x1024.size a
  inb_S26x100x16_S1x100x16_22_0_0 : ∀ a, (![22, 0, 0] : Fin 3 → Nat) a + S1x100x16.size a ≤ S26x100x16.size a
  slices_S26x16_o22_0_S1x16 : S26x16.Slices ![22, 0] S1x16
  inb_S26x16x416_S1x16x416_22_0_0 : ∀ a, (![22, 0, 0] : Fin 3 → Nat) a + S1x16x416.size a ≤ S26x16x416.size a
  inb_S3328x1024_S100x1024_2944_0 : ∀ a, (![2944, 0] : Fin 2 → Nat) a + S100x1024.size a ≤ S3328x1024.size a
  inb_S26x100x16_S1x100x16_23_0_0 : ∀ a, (![23, 0, 0] : Fin 3 → Nat) a + S1x100x16.size a ≤ S26x100x16.size a
  slices_S26x16_o23_0_S1x16 : S26x16.Slices ![23, 0] S1x16
  inb_S26x16x416_S1x16x416_23_0_0 : ∀ a, (![23, 0, 0] : Fin 3 → Nat) a + S1x16x416.size a ≤ S26x16x416.size a
  inb_S3328x1024_S100x1024_3072_0 : ∀ a, (![3072, 0] : Fin 2 → Nat) a + S100x1024.size a ≤ S3328x1024.size a
  inb_S26x100x16_S1x100x16_24_0_0 : ∀ a, (![24, 0, 0] : Fin 3 → Nat) a + S1x100x16.size a ≤ S26x100x16.size a
  slices_S26x16_o24_0_S1x16 : S26x16.Slices ![24, 0] S1x16
  inb_S26x16x416_S1x16x416_24_0_0 : ∀ a, (![24, 0, 0] : Fin 3 → Nat) a + S1x16x416.size a ≤ S26x16x416.size a
  inb_S3328x1024_S100x1024_3200_0 : ∀ a, (![3200, 0] : Fin 2 → Nat) a + S100x1024.size a ≤ S3328x1024.size a
  inb_S26x100x16_S1x100x16_25_0_0 : ∀ a, (![25, 0, 0] : Fin 3 → Nat) a + S1x100x16.size a ≤ S26x100x16.size a
  slices_S26x16_o25_0_S1x16 : S26x16.Slices ![25, 0] S1x16
  inb_S26x16x416_S1x16x416_25_0_0 : ∀ a, (![25, 0, 0] : Fin 3 → Nat) a + S1x16x416.size a ≤ S26x16x416.size a
  reduces_S1024x416_S1024 : S1024x416.Reduces [1] S1024
  shapeCasts_S1024_S1024x1 : S1024.ShapeCasts S1024x1
  broadcasts_S1024x1_S1024x416 : S1024x1.Broadcasts S1024x416
  inb_S1x416_S1x416_0_0 : ∀ a, (![0, 0] : Fin 2 → Nat) a + S1x416.size a ≤ S1x416.size a
  h_S1x416 : 0 < S1x416.numel
  shapeCasts_S1x416_S1x416 : S1x416.ShapeCasts S1x416
  broadcasts_S1x416_S1024x416 : S1x416.Broadcasts S1024x416
  inb_S416x416_S416x416_0_0 : ∀ a, (![0, 0] : Fin 2 → Nat) a + S416x416.size a ≤ S416x416.size a
  h_S416x416 : 0 < S416x416.numel
  shapeCasts_S416x416_S416x416 : S416x416.ShapeCasts S416x416
  inb_S416x16_S416x16_0_0 : ∀ a, (![0, 0] : Fin 2 → Nat) a + S416x16.size a ≤ S416x16.size a
  h_S416x16 : 0 < S416x16.numel
  inb_S1x16_S1x16_0_0 : ∀ a, (![0, 0] : Fin 2 → Nat) a + S1x16.size a ≤ S1x16.size a
  shapeCasts_S1x16_S1x16 : S1x16.ShapeCasts S1x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x16_S1024x16_0_0 : ∀ a, (![0, 0] : Fin 2 → Nat) a + S1024x16.size a ≤ S1024x16.size a
  h_S1024x16 : 0 < S1024x16.numel
  inb_S1024x2_S1024x2_0_0 : ∀ a, (![0, 0] : Fin 2 → Nat) a + S1024x2.size a ≤ S1024x2.size a
  h_S1024x2 : 0 < S1024x2.numel
  dot_S26x100_S26x100x16_S26x16_1_1_n_2_0_0_wf : DotDims.WF S26x100 S26x100x16 S26x16 [1] [1] [] [2] [0] [0]
  dot_S100x1024_S100x16_S1024x16_0_0_1_1_n_n_wf : DotDims.WF S100x1024 S100x16 S1024x16 [0] [0] [1] [1] [] []
  dot_S1024x16_S16x416_S1024x416_1_0_0_1_n_n_wf : DotDims.WF S1024x16 S16x416 S1024x416 [1] [0] [0] [1] [] []
  dot_S1024x416_S416x416_S1024x416_1_0_0_1_n_n_wf : DotDims.WF S1024x416 S416x416 S1024x416 [1] [0] [0] [1] [] []
  dot_S1024x416_S416x16_S1024x16_1_0_0_1_n_n_wf : DotDims.WF S1024x416 S416x16 S1024x16 [1] [0] [0] [1] [] []
  dot_S1024x16_S16x2_S1024x2_1_0_0_1_n_n_wf : DotDims.WF S1024x16 S16x2 S1024x2 [1] [0] [0] [1] [] []
  hcc0_scratch3 : 0 + S_.numel ≤ 21
  hcc0_scratch4 : 1 + S_.numel ≤ 21
  hcc0_scoped0 : 2 + S_.numel ≤ 21
  hcc0_scoped1 : 3 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16384.size a ≤ S425984.size a
  k0_t2_ok : k0_t2_loop.OK
  k0_off2_inb : ∀ (i : grid0.Coords) (k0_t1 : Fin k0_t1_loop.trips) (k0_t2 : Fin k0_t2_loop.trips), ∀ (k0_h1 : k0_cond1 i k0_t2 = 1#1), ∀ a, (k0_off2 k0_t1) a + S1x100x100000.size a ≤ S26x100x100000.size a
  k0_off3_inb : ∀ (i : grid0.Coords) (k0_t2 : Fin k0_t2_loop.trips), ∀ (k0_h1 : k0_cond1 i k0_t2 = 1#1), ∀ a, (k0_off3 i k0_t2) a + S1x100000.size a ≤ S100x100000.size a
  k0_t3_ok : ∀ (i : grid0.Coords) (k0_t2 : Fin k0_t2_loop.trips), ∀ (k0_h1 : k0_cond1 i k0_t2 = 1#1), k0_t3_loop.OK
  k0_off4_inb : ∀ (i : grid0.Coords) (k0_t2 : Fin k0_t2_loop.trips) (k0_t3 : Fin k0_t3_loop.trips), ∀ (k0_h1 : k0_cond1 i k0_t2 = 1#1), ∀ a, (k0_off4 k0_t3) a + S16.size a ≤ S16384.size a
  k0_off5_inb : ∀ (i : grid0.Coords) (k0_t2 : Fin k0_t2_loop.trips) (k0_t3 : Fin k0_t3_loop.trips), ∀ (k0_h1 : k0_cond1 i k0_t2 = 1#1), ∀ a, (k0_off5 k0_t3) a + S1x16.size a ≤ S2x4096.size a
  k0_off6_inb : ∀ (i : grid0.Coords) (k0_t2 : Fin k0_t2_loop.trips) (k0_t3 : Fin k0_t3_loop.trips), ∀ (k0_h1 : k0_cond1 i k0_t2 = 1#1), ∀ a, (k0_off6 k0_t3) a + S16.size a ≤ S16384.size a
  k0_off7_inb : ∀ (i : grid0.Coords) (k0_t2 : Fin k0_t2_loop.trips) (k0_t3 : Fin k0_t3_loop.trips), ∀ (k0_h1 : k0_cond1 i k0_t2 = 1#1), ∀ a, (k0_off7 k0_t3) a + S1x16.size a ≤ S2x4096.size a
  k0_off8_inb : ∀ (i : grid0.Coords) (k0_t2 : Fin k0_t2_loop.trips) (k0_t3 : Fin k0_t3_loop.trips), ∀ (k0_h1 : k0_cond1 i k0_t2 = 1#1), ∀ a, (k0_off8 k0_t3) a + S16.size a ≤ S16384.size a
  k0_off9_inb : ∀ (i : grid0.Coords) (k0_t2 : Fin k0_t2_loop.trips) (k0_t3 : Fin k0_t3_loop.trips), ∀ (k0_h1 : k0_cond1 i k0_t2 = 1#1), ∀ a, (k0_off9 k0_t3) a + S1x16.size a ≤ S2x4096.size a
  k0_off10_inb : ∀ (i : grid0.Coords) (k0_t2 : Fin k0_t2_loop.trips) (k0_t3 : Fin k0_t3_loop.trips), ∀ (k0_h1 : k0_cond1 i k0_t2 = 1#1), ∀ a, (k0_off10 k0_t3) a + S16.size a ≤ S16384.size a
  k0_off11_inb : ∀ (i : grid0.Coords) (k0_t2 : Fin k0_t2_loop.trips) (k0_t3 : Fin k0_t3_loop.trips), ∀ (k0_h1 : k0_cond1 i k0_t2 = 1#1), ∀ a, (k0_off11 k0_t3) a + S1x16.size a ≤ S2x4096.size a
  k0_off12_inb : ∀ (i : grid0.Coords) (k0_t2 : Fin k0_t2_loop.trips) (k0_t3 : Fin k0_t3_loop.trips), ∀ (k0_h1 : k0_cond1 i k0_t2 = 1#1), ∀ a, (k0_off12 k0_t3) a + S16.size a ≤ S16384.size a
  k0_off13_inb : ∀ (i : grid0.Coords) (k0_t2 : Fin k0_t2_loop.trips) (k0_t3 : Fin k0_t3_loop.trips), ∀ (k0_h1 : k0_cond1 i k0_t2 = 1#1), ∀ a, (k0_off13 k0_t3) a + S1x16.size a ≤ S2x4096.size a
  k0_off14_inb : ∀ (i : grid0.Coords) (k0_t2 : Fin k0_t2_loop.trips) (k0_t3 : Fin k0_t3_loop.trips), ∀ (k0_h1 : k0_cond1 i k0_t2 = 1#1), ∀ a, (k0_off14 k0_t3) a + S16.size a ≤ S16384.size a
  k0_off15_inb : ∀ (i : grid0.Coords) (k0_t2 : Fin k0_t2_loop.trips) (k0_t3 : Fin k0_t3_loop.trips), ∀ (k0_h1 : k0_cond1 i k0_t2 = 1#1), ∀ a, (k0_off15 k0_t3) a + S1x16.size a ≤ S2x4096.size a
  k0_off16_inb : ∀ (i : grid0.Coords) (k0_t2 : Fin k0_t2_loop.trips) (k0_t3 : Fin k0_t3_loop.trips), ∀ (k0_h1 : k0_cond1 i k0_t2 = 1#1), ∀ a, (k0_off16 k0_t3) a + S16.size a ≤ S16384.size a
  k0_off17_inb : ∀ (i : grid0.Coords) (k0_t2 : Fin k0_t2_loop.trips) (k0_t3 : Fin k0_t3_loop.trips), ∀ (k0_h1 : k0_cond1 i k0_t2 = 1#1), ∀ a, (k0_off17 k0_t3) a + S1x16.size a ≤ S2x4096.size a
  k0_off18_inb : ∀ (i : grid0.Coords) (k0_t2 : Fin k0_t2_loop.trips) (k0_t3 : Fin k0_t3_loop.trips), ∀ (k0_h1 : k0_cond1 i k0_t2 = 1#1), ∀ a, (k0_off18 k0_t3) a + S16.size a ≤ S16384.size a
  k0_off19_inb : ∀ (i : grid0.Coords) (k0_t2 : Fin k0_t2_loop.trips) (k0_t3 : Fin k0_t3_loop.trips), ∀ (k0_h1 : k0_cond1 i k0_t2 = 1#1), ∀ a, (k0_off19 k0_t3) a + S1x16.size a ≤ S2x4096.size a
  k0_off20_inb : ∀ (i : grid0.Coords) (k0_t1 : Fin k0_t1_loop.trips) (k0_t2 : Fin k0_t2_loop.trips), ∀ (k0_h1 : k0_cond1 i k0_t2 = 1#1), ∀ a, (k0_off20 i k0_t1 k0_t2) a + S1x16384.size a ≤ S3328x16384.size a
  k0_t4_ok : ∀ (i : grid0.Coords) (k0_t2 : Fin k0_t2_loop.trips), ∀ (k0_h1 : k0_cond1 i k0_t2 = 1#1), k0_t4_loop.OK
  k0_off21_inb : ∀ (i : grid0.Coords) (k0_t2 : Fin k0_t2_loop.trips) (k0_t4 : Fin k0_t4_loop.trips), ∀ (k0_h1 : k0_cond1 i k0_t2 = 1#1), ∀ a, (k0_off21 k0_t4) a + S16.size a ≤ S16384.size a
  k0_off22_inb : ∀ (i : grid0.Coords) (k0_t2 : Fin k0_t2_loop.trips) (k0_t4 : Fin k0_t4_loop.trips), ∀ (k0_h1 : k0_cond1 i k0_t2 = 1#1), ∀ a, (k0_off22 k0_t4) a + S1x16.size a ≤ S2x4096.size a
  k0_off23_inb : ∀ (i : grid0.Coords) (k0_t2 : Fin k0_t2_loop.trips) (k0_t4 : Fin k0_t4_loop.trips), ∀ (k0_h1 : k0_cond1 i k0_t2 = 1#1), ∀ a, (k0_off23 k0_t4) a + S16.size a ≤ S16384.size a
  k0_off24_inb : ∀ (i : grid0.Coords) (k0_t2 : Fin k0_t2_loop.trips) (k0_t4 : Fin k0_t4_loop.trips), ∀ (k0_h1 : k0_cond1 i k0_t2 = 1#1), ∀ a, (k0_off24 k0_t4) a + S1x16.size a ≤ S2x4096.size a
  k0_off25_inb : ∀ (i : grid0.Coords) (k0_t2 : Fin k0_t2_loop.trips) (k0_t4 : Fin k0_t4_loop.trips), ∀ (k0_h1 : k0_cond1 i k0_t2 = 1#1), ∀ a, (k0_off25 k0_t4) a + S16.size a ≤ S16384.size a
  k0_off26_inb : ∀ (i : grid0.Coords) (k0_t2 : Fin k0_t2_loop.trips) (k0_t4 : Fin k0_t4_loop.trips), ∀ (k0_h1 : k0_cond1 i k0_t2 = 1#1), ∀ a, (k0_off26 k0_t4) a + S1x16.size a ≤ S2x4096.size a
  k0_off27_inb : ∀ (i : grid0.Coords) (k0_t2 : Fin k0_t2_loop.trips) (k0_t4 : Fin k0_t4_loop.trips), ∀ (k0_h1 : k0_cond1 i k0_t2 = 1#1), ∀ a, (k0_off27 k0_t4) a + S16.size a ≤ S16384.size a
  k0_off28_inb : ∀ (i : grid0.Coords) (k0_t2 : Fin k0_t2_loop.trips) (k0_t4 : Fin k0_t4_loop.trips), ∀ (k0_h1 : k0_cond1 i k0_t2 = 1#1), ∀ a, (k0_off28 k0_t4) a + S1x16.size a ≤ S2x4096.size a
  k0_off29_inb : ∀ (i : grid0.Coords) (k0_t2 : Fin k0_t2_loop.trips) (k0_t4 : Fin k0_t4_loop.trips), ∀ (k0_h1 : k0_cond1 i k0_t2 = 1#1), ∀ a, (k0_off29 k0_t4) a + S16.size a ≤ S16384.size a
  k0_off30_inb : ∀ (i : grid0.Coords) (k0_t2 : Fin k0_t2_loop.trips) (k0_t4 : Fin k0_t4_loop.trips), ∀ (k0_h1 : k0_cond1 i k0_t2 = 1#1), ∀ a, (k0_off30 k0_t4) a + S1x16.size a ≤ S2x4096.size a
  k0_off31_inb : ∀ (i : grid0.Coords) (k0_t2 : Fin k0_t2_loop.trips) (k0_t4 : Fin k0_t4_loop.trips), ∀ (k0_h1 : k0_cond1 i k0_t2 = 1#1), ∀ a, (k0_off31 k0_t4) a + S16.size a ≤ S16384.size a
  k0_off32_inb : ∀ (i : grid0.Coords) (k0_t2 : Fin k0_t2_loop.trips) (k0_t4 : Fin k0_t4_loop.trips), ∀ (k0_h1 : k0_cond1 i k0_t2 = 1#1), ∀ a, (k0_off32 k0_t4) a + S1x16.size a ≤ S2x4096.size a
  k0_off33_inb : ∀ (i : grid0.Coords) (k0_t2 : Fin k0_t2_loop.trips) (k0_t4 : Fin k0_t4_loop.trips), ∀ (k0_h1 : k0_cond1 i k0_t2 = 1#1), ∀ a, (k0_off33 k0_t4) a + S16.size a ≤ S16384.size a
  k0_off34_inb : ∀ (i : grid0.Coords) (k0_t2 : Fin k0_t2_loop.trips) (k0_t4 : Fin k0_t4_loop.trips), ∀ (k0_h1 : k0_cond1 i k0_t2 = 1#1), ∀ a, (k0_off34 k0_t4) a + S1x16.size a ≤ S2x4096.size a
  k0_off35_inb : ∀ (i : grid0.Coords) (k0_t2 : Fin k0_t2_loop.trips) (k0_t4 : Fin k0_t4_loop.trips), ∀ (k0_h1 : k0_cond1 i k0_t2 = 1#1), ∀ a, (k0_off35 k0_t4) a + S16.size a ≤ S16384.size a
  k0_off36_inb : ∀ (i : grid0.Coords) (k0_t2 : Fin k0_t2_loop.trips) (k0_t4 : Fin k0_t4_loop.trips), ∀ (k0_h1 : k0_cond1 i k0_t2 = 1#1), ∀ a, (k0_off36 k0_t4) a + S1x16.size a ≤ S2x4096.size a
  k0_t5_ok : ∀ (i : grid0.Coords) (k0_t2 : Fin k0_t2_loop.trips), ∀ (k0_h1 : k0_cond1 i k0_t2 = 1#1), k0_t5_loop.OK
  k0_off37_inb : ∀ (i : grid0.Coords) (k0_t2 : Fin k0_t2_loop.trips) (k0_t5 : Fin k0_t5_loop.trips), ∀ (k0_h1 : k0_cond1 i k0_t2 = 1#1), ∀ a, (k0_off37 k0_t5) a + S16.size a ≤ S16384.size a
  k0_off38_inb : ∀ (i : grid0.Coords) (k0_t2 : Fin k0_t2_loop.trips) (k0_t5 : Fin k0_t5_loop.trips), ∀ (k0_h1 : k0_cond1 i k0_t2 = 1#1), ∀ a, (k0_off38 k0_t5) a + S1x16.size a ≤ S2x4096.size a
  k0_off39_inb : ∀ (i : grid0.Coords) (k0_t2 : Fin k0_t2_loop.trips) (k0_t5 : Fin k0_t5_loop.trips), ∀ (k0_h1 : k0_cond1 i k0_t2 = 1#1), ∀ a, (k0_off39 k0_t5) a + S16.size a ≤ S16384.size a
  k0_off40_inb : ∀ (i : grid0.Coords) (k0_t2 : Fin k0_t2_loop.trips) (k0_t5 : Fin k0_t5_loop.trips), ∀ (k0_h1 : k0_cond1 i k0_t2 = 1#1), ∀ a, (k0_off40 k0_t5) a + S1x16.size a ≤ S2x4096.size a
  k0_off41_inb : ∀ (i : grid0.Coords) (k0_t2 : Fin k0_t2_loop.trips) (k0_t5 : Fin k0_t5_loop.trips), ∀ (k0_h1 : k0_cond1 i k0_t2 = 1#1), ∀ a, (k0_off41 k0_t5) a + S16.size a ≤ S16384.size a
  k0_off42_inb : ∀ (i : grid0.Coords) (k0_t2 : Fin k0_t2_loop.trips) (k0_t5 : Fin k0_t5_loop.trips), ∀ (k0_h1 : k0_cond1 i k0_t2 = 1#1), ∀ a, (k0_off42 k0_t5) a + S1x16.size a ≤ S2x4096.size a
  k0_off43_inb : ∀ (i : grid0.Coords) (k0_t2 : Fin k0_t2_loop.trips) (k0_t5 : Fin k0_t5_loop.trips), ∀ (k0_h1 : k0_cond1 i k0_t2 = 1#1), ∀ a, (k0_off43 k0_t5) a + S16.size a ≤ S16384.size a
  k0_off44_inb : ∀ (i : grid0.Coords) (k0_t2 : Fin k0_t2_loop.trips) (k0_t5 : Fin k0_t5_loop.trips), ∀ (k0_h1 : k0_cond1 i k0_t2 = 1#1), ∀ a, (k0_off44 k0_t5) a + S1x16.size a ≤ S2x4096.size a
  k0_off45_inb : ∀ (i : grid0.Coords) (k0_t2 : Fin k0_t2_loop.trips) (k0_t5 : Fin k0_t5_loop.trips), ∀ (k0_h1 : k0_cond1 i k0_t2 = 1#1), ∀ a, (k0_off45 k0_t5) a + S16.size a ≤ S16384.size a
  k0_off46_inb : ∀ (i : grid0.Coords) (k0_t2 : Fin k0_t2_loop.trips) (k0_t5 : Fin k0_t5_loop.trips), ∀ (k0_h1 : k0_cond1 i k0_t2 = 1#1), ∀ a, (k0_off46 k0_t5) a + S1x16.size a ≤ S2x4096.size a
  k0_off47_inb : ∀ (i : grid0.Coords) (k0_t2 : Fin k0_t2_loop.trips) (k0_t5 : Fin k0_t5_loop.trips), ∀ (k0_h1 : k0_cond1 i k0_t2 = 1#1), ∀ a, (k0_off47 k0_t5) a + S16.size a ≤ S16384.size a
  k0_off48_inb : ∀ (i : grid0.Coords) (k0_t2 : Fin k0_t2_loop.trips) (k0_t5 : Fin k0_t5_loop.trips), ∀ (k0_h1 : k0_cond1 i k0_t2 = 1#1), ∀ a, (k0_off48 k0_t5) a + S1x16.size a ≤ S2x4096.size a
  k0_off49_inb : ∀ (i : grid0.Coords) (k0_t2 : Fin k0_t2_loop.trips) (k0_t5 : Fin k0_t5_loop.trips), ∀ (k0_h1 : k0_cond1 i k0_t2 = 1#1), ∀ a, (k0_off49 k0_t5) a + S16.size a ≤ S16384.size a
  k0_off50_inb : ∀ (i : grid0.Coords) (k0_t2 : Fin k0_t2_loop.trips) (k0_t5 : Fin k0_t5_loop.trips), ∀ (k0_h1 : k0_cond1 i k0_t2 = 1#1), ∀ a, (k0_off50 k0_t5) a + S1x16.size a ≤ S2x4096.size a
  k0_off51_inb : ∀ (i : grid0.Coords) (k0_t2 : Fin k0_t2_loop.trips) (k0_t5 : Fin k0_t5_loop.trips), ∀ (k0_h1 : k0_cond1 i k0_t2 = 1#1), ∀ a, (k0_off51 k0_t5) a + S16.size a ≤ S16384.size a
  k0_off52_inb : ∀ (i : grid0.Coords) (k0_t2 : Fin k0_t2_loop.trips) (k0_t5 : Fin k0_t5_loop.trips), ∀ (k0_h1 : k0_cond1 i k0_t2 = 1#1), ∀ a, (k0_off52 k0_t5) a + S1x16.size a ≤ S2x4096.size a
  k0_t6_ok : ∀ (i : grid0.Coords) (k0_t2 : Fin k0_t2_loop.trips), ∀ (k0_h1 : k0_cond1 i k0_t2 = 1#1), k0_t6_loop.OK
  k0_off53_inb : ∀ (i : grid0.Coords) (k0_t2 : Fin k0_t2_loop.trips) (k0_t6 : Fin k0_t6_loop.trips), ∀ (k0_h1 : k0_cond1 i k0_t2 = 1#1), ∀ a, (k0_off53 k0_t6) a + S16.size a ≤ S16384.size a
  k0_off54_inb : ∀ (i : grid0.Coords) (k0_t2 : Fin k0_t2_loop.trips) (k0_t6 : Fin k0_t6_loop.trips), ∀ (k0_h1 : k0_cond1 i k0_t2 = 1#1), ∀ a, (k0_off54 k0_t6) a + S1x16.size a ≤ S2x4096.size a
  k0_off55_inb : ∀ (i : grid0.Coords) (k0_t2 : Fin k0_t2_loop.trips) (k0_t6 : Fin k0_t6_loop.trips), ∀ (k0_h1 : k0_cond1 i k0_t2 = 1#1), ∀ a, (k0_off55 k0_t6) a + S16.size a ≤ S16384.size a
  k0_off56_inb : ∀ (i : grid0.Coords) (k0_t2 : Fin k0_t2_loop.trips) (k0_t6 : Fin k0_t6_loop.trips), ∀ (k0_h1 : k0_cond1 i k0_t2 = 1#1), ∀ a, (k0_off56 k0_t6) a + S1x16.size a ≤ S2x4096.size a
  k0_off57_inb : ∀ (i : grid0.Coords) (k0_t2 : Fin k0_t2_loop.trips) (k0_t6 : Fin k0_t6_loop.trips), ∀ (k0_h1 : k0_cond1 i k0_t2 = 1#1), ∀ a, (k0_off57 k0_t6) a + S16.size a ≤ S16384.size a
  k0_off58_inb : ∀ (i : grid0.Coords) (k0_t2 : Fin k0_t2_loop.trips) (k0_t6 : Fin k0_t6_loop.trips), ∀ (k0_h1 : k0_cond1 i k0_t2 = 1#1), ∀ a, (k0_off58 k0_t6) a + S1x16.size a ≤ S2x4096.size a
  k0_off59_inb : ∀ (i : grid0.Coords) (k0_t2 : Fin k0_t2_loop.trips) (k0_t6 : Fin k0_t6_loop.trips), ∀ (k0_h1 : k0_cond1 i k0_t2 = 1#1), ∀ a, (k0_off59 k0_t6) a + S16.size a ≤ S16384.size a
  k0_off60_inb : ∀ (i : grid0.Coords) (k0_t2 : Fin k0_t2_loop.trips) (k0_t6 : Fin k0_t6_loop.trips), ∀ (k0_h1 : k0_cond1 i k0_t2 = 1#1), ∀ a, (k0_off60 k0_t6) a + S1x16.size a ≤ S2x4096.size a
  k0_off61_inb : ∀ (i : grid0.Coords) (k0_t2 : Fin k0_t2_loop.trips) (k0_t6 : Fin k0_t6_loop.trips), ∀ (k0_h1 : k0_cond1 i k0_t2 = 1#1), ∀ a, (k0_off61 k0_t6) a + S16.size a ≤ S16384.size a
  k0_off62_inb : ∀ (i : grid0.Coords) (k0_t2 : Fin k0_t2_loop.trips) (k0_t6 : Fin k0_t6_loop.trips), ∀ (k0_h1 : k0_cond1 i k0_t2 = 1#1), ∀ a, (k0_off62 k0_t6) a + S1x16.size a ≤ S2x4096.size a
  k0_off63_inb : ∀ (i : grid0.Coords) (k0_t2 : Fin k0_t2_loop.trips) (k0_t6 : Fin k0_t6_loop.trips), ∀ (k0_h1 : k0_cond1 i k0_t2 = 1#1), ∀ a, (k0_off63 k0_t6) a + S16.size a ≤ S16384.size a
  k0_off64_inb : ∀ (i : grid0.Coords) (k0_t2 : Fin k0_t2_loop.trips) (k0_t6 : Fin k0_t6_loop.trips), ∀ (k0_h1 : k0_cond1 i k0_t2 = 1#1), ∀ a, (k0_off64 k0_t6) a + S1x16.size a ≤ S2x4096.size a
  k0_off65_inb : ∀ (i : grid0.Coords) (k0_t2 : Fin k0_t2_loop.trips) (k0_t6 : Fin k0_t6_loop.trips), ∀ (k0_h1 : k0_cond1 i k0_t2 = 1#1), ∀ a, (k0_off65 k0_t6) a + S16.size a ≤ S16384.size a
  k0_off66_inb : ∀ (i : grid0.Coords) (k0_t2 : Fin k0_t2_loop.trips) (k0_t6 : Fin k0_t6_loop.trips), ∀ (k0_h1 : k0_cond1 i k0_t2 = 1#1), ∀ a, (k0_off66 k0_t6) a + S1x16.size a ≤ S2x4096.size a
  k0_off67_inb : ∀ (i : grid0.Coords) (k0_t2 : Fin k0_t2_loop.trips) (k0_t6 : Fin k0_t6_loop.trips), ∀ (k0_h1 : k0_cond1 i k0_t2 = 1#1), ∀ a, (k0_off67 k0_t6) a + S16.size a ≤ S16384.size a
  k0_off68_inb : ∀ (i : grid0.Coords) (k0_t2 : Fin k0_t2_loop.trips) (k0_t6 : Fin k0_t6_loop.trips), ∀ (k0_h1 : k0_cond1 i k0_t2 = 1#1), ∀ a, (k0_off68 k0_t6) a + S1x16.size a ≤ S2x4096.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3328x1024.size a ≤ S3328x16384.size a
  hwx1_0 : ∀ i : grid1.Coords, EltTy.bits .f32 = 32 ∨ (Rect.block (s := S3328x16384) S3328x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S26x100x16.size a ≤ S26x100x16.size a
  hwx1_1 : ∀ i : grid1.Coords, EltTy.bits .f32 = 32 ∨ (Rect.block (s := S26x100x16) S26x100x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S26x16.size a ≤ S26x16.size a
  hwx1_2 : ∀ i : grid1.Coords, EltTy.bits .f32 = 32 ∨ (Rect.block (s := S26x16) S26x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S26x16x416.size a ≤ S26x16x416.size a
  hwx1_3 : ∀ i : grid1.Coords, EltTy.bits .bf16 = 32 ∨ (Rect.block (s := S26x16x416) S26x16x416.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x416.size a ≤ S1x416.size a
  hwx1_4 : ∀ i : grid1.Coords, EltTy.bits .f32 = 32 ∨ (Rect.block (s := S1x416) S1x416.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x416.size a ≤ S1x416.size a
  hwx1_5 : ∀ i : grid1.Coords, EltTy.bits .f32 = 32 ∨ (Rect.block (s := S1x416) S1x416.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S416x416.size a ≤ S416x416.size a
  hwx1_6 : ∀ i : grid1.Coords, EltTy.bits .bf16 = 32 ∨ (Rect.block (s := S416x416) S416x416.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x416.size a ≤ S1x416.size a
  hwx1_7 : ∀ i : grid1.Coords, EltTy.bits .f32 = 32 ∨ (Rect.block (s := S1x416) S1x416.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S416x16.size a ≤ S416x16.size a
  hwx1_8 : ∀ i : grid1.Coords, EltTy.bits .f32 = 32 ∨ (Rect.block (s := S416x16) S416x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S16x2.size a ≤ S16x2.size a
  hwx1_10 : ∀ i : grid1.Coords, EltTy.bits .f32 = 32 ∨ (Rect.block (s := S16x2) S16x2.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x2.size a ≤ S1x2.size a
  hwx1_11 : ∀ i : grid1.Coords, EltTy.bits .f32 = 32 ∨ (Rect.block (s := S1x2) S1x2.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1024x2.size a ≤ S16384x2.size a
  hwx1_12 : ∀ i : grid1.Coords, EltTy.bits .f32 = 32 ∨ (Rect.block (s := S16384x2) S1024x2.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1024x16.size a ≤ S16384x16.size a
  hwx1_13 : ∀ i : grid1.Coords, EltTy.bits .f32 = 32 ∨ (Rect.block (s := S16384x16) S1024x16.size (cc1_transform_13 i) (hinb1_13 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
def dot_S26x100_S26x100x16_S26x16_1_1_n_2_0_0 : DotDims S26x100 S26x100x16 S26x16 where
  lhsContracting := [1]
  rhsContracting := [1]
  lhsNonContracting := []
  rhsNonContracting := [2]
  lhsBatch := [0]
  rhsBatch := [0]
  wf := dot_S26x100_S26x100x16_S26x16_1_1_n_2_0_0_wf
def dot_S100x1024_S100x16_S1024x16_0_0_1_1_n_n : DotDims S100x1024 S100x16 S1024x16 where
  lhsContracting := [0]
  rhsContracting := [0]
  lhsNonContracting := [1]
  rhsNonContracting := [1]
  lhsBatch := []
  rhsBatch := []
  wf := dot_S100x1024_S100x16_S1024x16_0_0_1_1_n_n_wf
def dot_S1024x16_S16x416_S1024x416_1_0_0_1_n_n : DotDims S1024x16 S16x416 S1024x416 where
  lhsContracting := [1]
  rhsContracting := [0]
  lhsNonContracting := [0]
  rhsNonContracting := [1]
  lhsBatch := []
  rhsBatch := []
  wf := dot_S1024x16_S16x416_S1024x416_1_0_0_1_n_n_wf
def dot_S1024x416_S416x416_S1024x416_1_0_0_1_n_n : DotDims S1024x416 S416x416 S1024x416 where
  lhsContracting := [1]
  rhsContracting := [0]
  lhsNonContracting := [0]
  rhsNonContracting := [1]
  lhsBatch := []
  rhsBatch := []
  wf := dot_S1024x416_S416x416_S1024x416_1_0_0_1_n_n_wf
def dot_S1024x416_S416x16_S1024x16_1_0_0_1_n_n : DotDims S1024x416 S416x16 S1024x16 where
  lhsContracting := [1]
  rhsContracting := [0]
  lhsNonContracting := [0]
  rhsNonContracting := [1]
  lhsBatch := []
  rhsBatch := []
  wf := dot_S1024x416_S416x16_S1024x16_1_0_0_1_n_n_wf
def dot_S1024x16_S16x2_S1024x2_1_0_0_1_n_n : DotDims S1024x16 S16x2 S1024x2 where
  lhsContracting := [1]
  rhsContracting := [0]
  lhsNonContracting := [0]
  rhsNonContracting := [1]
  lhsBatch := []
  rhsBatch := []
  wf := dot_S1024x16_S16x2_S1024x2_1_0_0_1_n_n_wf

abbrev win1_0 : Pipeline.Window sig grid1 :=
  Pipeline.Window.ofSpec (Memref.whole main_v2) S3328x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S26x100x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S26x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S26x16x416.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x416.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x416.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S416x416.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x416.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S416x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S16x2.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S1x2.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v32_0) S1024x2.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v32_1) S1024x16.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S26x16384 : Shape := ⟨2, ![26, 16384]⟩
abbrev S26x100000x100 : Shape := ⟨3, ![26, 100000, 100]⟩
abbrev S26x100 : Shape := ⟨2, ![26, 100]⟩
abbrev S26x100x16 : Shape := ⟨3, ![26, 100, 16]⟩
abbrev S26x16 : Shape := ⟨2, ![26, 16]⟩
abbrev S416 : Shape := ⟨1, ![416]⟩
abbrev S416x416 : Shape := ⟨2, ![416, 416]⟩
abbrev S416x16 : Shape := ⟨2, ![416, 16]⟩
abbrev S16 : Shape := ⟨1, ![16]⟩
abbrev S16x2 : Shape := ⟨2, ![16, 2]⟩
abbrev S2 : Shape := ⟨1, ![2]⟩
abbrev S_ : Shape := ⟨0, ![]⟩
abbrev S26x16384x1 : Shape := ⟨3, ![26, 16384, 1]⟩
abbrev S1 : Shape := ⟨1, ![1]⟩
abbrev S1x1x1 : Shape := ⟨3, ![1, 1, 1]⟩
abbrev S26x16384x100 : Shape := ⟨3, ![26, 16384, 100]⟩
abbrev S26x1x100 : Shape := ⟨3, ![26, 1, 100]⟩
abbrev S26x16384x16 : Shape := ⟨3, ![26, 16384, 16]⟩
abbrev S26x1x16 : Shape := ⟨3, ![26, 1, 16]⟩
abbrev S16384x26x16 : Shape := ⟨3, ![16384, 26, 16]⟩
abbrev S16384x416 : Shape := ⟨2, ![16384, 416]⟩
abbrev S16384 : Shape := ⟨1, ![16384]⟩
abbrev S16384x1 : Shape := ⟨2, ![16384, 1]⟩
abbrev S1x416 : Shape := ⟨2, ![1, 416]⟩
abbrev S16384x16 : Shape := ⟨2, ![16384, 16]⟩
abbrev S1x16 : Shape := ⟨2, ![1, 16]⟩
abbrev S16384x2 : Shape := ⟨2, ![16384, 2]⟩
abbrev S1x2 : Shape := ⟨2, ![1, 2]⟩

abbrev nBuf : Space → Nat
  | .hbm => 161
  | .vmem => 0
  | .smem => 0
  | _ => 0

abbrev hbmTy0_0 (i : Nat) : BufTy := match i % 128 with
  | 0 => ⟨S26x16384, .i32⟩
  | 1 => ⟨S26x100000x100, .f32⟩
  | 2 => ⟨S26x100, .f32⟩
  | 3 => ⟨S26x100, .f32⟩
  | 4 => ⟨S26x100x16, .f32⟩
  | 5 => ⟨S26x16, .f32⟩
  | 6 => ⟨S416, .f32⟩
  | 7 => ⟨S416, .f32⟩
  | 8 => ⟨S416x416, .f32⟩
  | 9 => ⟨S416, .f32⟩
  | 10 => ⟨S416x16, .f32⟩
  | 11 => ⟨S16, .f32⟩
  | 12 => ⟨S16x2, .f32⟩
  | 13 => ⟨S2, .f32⟩
  | 14 => ⟨S_, .i32⟩
  | 15 => ⟨S26x16384, .i32⟩
  | 16 => ⟨S26x16384, .i1⟩
  | 17 => ⟨S_, .i32⟩
  | 18 => ⟨S26x16384, .i32⟩
  | 19 => ⟨S26x16384, .i32⟩
  | 20 => ⟨S26x16384, .i32⟩
  | 21 => ⟨S26x16384x1, .i32⟩
  | 22 => ⟨S1, .i32⟩
  | 23 => ⟨S_, .i32⟩
  | 24 => ⟨S26x16384x1, .i32⟩
  | 25 => ⟨S26x16384x1, .i1⟩
  | 26 => ⟨S1x1x1, .i32⟩
  | 27 => ⟨S26x16384x1, .i32⟩
  | 28 => ⟨S26x16384x1, .i1⟩
  | 29 => ⟨S26x16384x1, .i1⟩
  | 30 => ⟨S_, .i1⟩
  | 31 => ⟨S26x16384, .i1⟩
  | 32 => ⟨S26x16384x100, .f32⟩
  | 33 => ⟨S26x16384x100, .i1⟩
  | 34 => ⟨S_, .f32⟩
  | 35 => ⟨S26x16384x100, .f32⟩
  | 36 => ⟨S26x16384x100, .f32⟩
  | 37 => ⟨S26x1x100, .f32⟩
  | 38 => ⟨S26x1x100, .f32⟩
  | 39 => ⟨S_, .f32⟩
  | 40 => ⟨S26x16384, .f32⟩
  | 41 => ⟨S26x16384x1, .f32⟩
  | 42 => ⟨S_, .f32⟩
  | 43 => ⟨S26x16384x1, .f32⟩
  | 44 => ⟨S26x16384x1, .f32⟩
  | 45 => ⟨S_, .i32⟩
  | 46 => ⟨S_, .f32⟩
  | 47 => ⟨S26x16384, .f32⟩
  | 48 => ⟨S26x16384x1, .f32⟩
  | 49 => ⟨S_, .f32⟩
  | 50 => ⟨S26x16384x1, .f32⟩
  | 51 => ⟨S26x16384x1, .f32⟩
  | 52 => ⟨S26x16384x100, .f32⟩
  | 53 => ⟨S26x16384x100, .f32⟩
  | 54 => ⟨S26x16384x100, .f32⟩
  | 55 => ⟨S_, .f32⟩
  | 56 => ⟨S_, .f32⟩
  | 57 => ⟨S_, .f32⟩
  | 58 => ⟨S_, .f32⟩
  | 59 => ⟨S26x16384, .f32⟩
  | 60 => ⟨S26x16384x1, .f32⟩
  | 61 => ⟨S26x16384x1, .f32⟩
  | 62 => ⟨S26x16384x1, .f32⟩
  | 63 => ⟨S_, .f32⟩
  | 64 => ⟨S_, .i1⟩
  | 65 => ⟨S_, .f32⟩
  | 66 => ⟨S_, .f32⟩
  | 67 => ⟨S26x16384x1, .f32⟩
  | 68 => ⟨S26x16384x1, .f32⟩
  | 69 => ⟨S26x16384x100, .f32⟩
  | 70 => ⟨S26x16384x100, .f32⟩
  | 71 => ⟨S_, .f32⟩
  | 72 => ⟨S26x16384x1, .f32⟩
  | 73 => ⟨S26x16384x1, .f32⟩
  | 74 => ⟨S26x16384x1, .f32⟩
  | 75 => ⟨S26x16384x100, .f32⟩
  | 76 => ⟨S26x16384x100, .f32⟩
  | 77 => ⟨S26x16384x100, .f32⟩
  | 78 => ⟨S26x16384x100, .f32⟩
  | 79 => ⟨S26x16384x100, .f32⟩
  | 80 => ⟨S26x16384x100, .f32⟩
  | 81 => ⟨S26x16384x16, .f32⟩
  | 82 => ⟨S26x1x16, .f32⟩
  | 83 => ⟨S26x16384x16, .f32⟩
  | 84 => ⟨S26x16384x16, .f32⟩
  | 85 => ⟨S_, .f32⟩
  | 86 => ⟨S26x16384x16, .f32⟩
  | 87 => ⟨S26x16384x16, .f32⟩
  | 88 => ⟨S26x16384x16, .f32⟩
  | 89 => ⟨S_, .f32⟩
  | 90 => ⟨S26x16384x16, .f32⟩
  | 91 => ⟨S26x16384x16, .f32⟩
  | 92 => ⟨S26x16384x16, .f32⟩
  | 93 => ⟨S26x16384x16, .f32⟩
  | 94 => ⟨S16384x26x16, .f32⟩
  | 95 => ⟨S16384x416, .f32⟩
  | 96 => ⟨S_, .f32⟩
  | 97 => ⟨S16384, .f32⟩
  | 98 => ⟨S16384x1, .f32⟩
  | 99 => ⟨S_, .f32⟩
  | 100 => ⟨S16384x1, .f32⟩
  | 101 => ⟨S16384x1, .f32⟩
  | 102 => ⟨S_, .i32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S16384x416, .f32⟩
  | 110 => ⟨S16384x416, .f32⟩
  | 111 => ⟨S16384x416, .f32⟩
  | 112 => ⟨S_, .f32⟩
  | 113 => ⟨S_, .f32⟩
  | 114 => ⟨S_, .f32⟩
  | 115 => ⟨S_, .f32⟩
  | 116 => ⟨S16384, .f32⟩
  | 117 => ⟨S16384x1, .f32⟩
  | 118 => ⟨S16384x1, .f32⟩
  | 119 => ⟨S16384x1, .f32⟩
  | 120 => ⟨S_, .f32⟩
  | 121 => ⟨S_, .i1⟩
  | 122 => ⟨S_, .f32⟩
  | 123 => ⟨S_, .f32⟩
  | 124 => ⟨S16384x1, .f32⟩
  | 125 => ⟨S16384x1, .f32⟩
  | 126 => ⟨S16384x416, .f32⟩
  | 127 => ⟨S16384x416, .f32⟩
  | _ => ⟨S26x16384, .i32⟩

abbrev hbmTy0_1 (i : Nat) : BufTy := match i % 128 with
  | 0 => ⟨S_, .f32⟩
  | 1 => ⟨S16384x1, .f32⟩
  | 2 => ⟨S16384x1, .f32⟩
  | 3 => ⟨S16384x1, .f32⟩
  | 4 => ⟨S16384x416, .f32⟩
  | 5 => ⟨S16384x416, .f32⟩
  | 6 => ⟨S1x416, .f32⟩
  | 7 => ⟨S16384x416, .f32⟩
  | 8 => ⟨S16384x416, .f32⟩
  | 9 => ⟨S1x416, .f32⟩
  | 10 => ⟨S16384x416, .f32⟩
  | 11 => ⟨S16384x416, .f32⟩
  | 12 => ⟨S16384x416, .f32⟩
  | 13 => ⟨S1x416, .f32⟩
  | 14 => ⟨S16384x416, .f32⟩
  | 15 => ⟨S16384x416, .f32⟩
  | 16 => ⟨S_, .f32⟩
  | 17 => ⟨S16384x416, .f32⟩
  | 18 => ⟨S16384x416, .f32⟩
  | 19 => ⟨S16384x416, .f32⟩
  | 20 => ⟨S_, .f32⟩
  | 21 => ⟨S16384x416, .f32⟩
  | 22 => ⟨S16384x416, .f32⟩
  | 23 => ⟨S16384x416, .f32⟩
  | 24 => ⟨S16384x416, .f32⟩
  | 25 => ⟨S16384x16, .f32⟩
  | 26 => ⟨S1x16, .f32⟩
  | 27 => ⟨S16384x16, .f32⟩
  | 28 => ⟨S16384x16, .f32⟩
  | 29 => ⟨S16384x2, .f32⟩
  | 30 => ⟨S1x2, .f32⟩
  | 31 => ⟨S16384x2, .f32⟩
  | 32 => ⟨S16384x2, .f32⟩
  | _ => ⟨S26x16384, .i32⟩

abbrev hbmTy (i : Nat) : BufTy := match i / 128 with
  | 0 => hbmTy0_0 i
  | 1 => hbmTy0_1 i
  | _ => ⟨S26x16384, .i32⟩

abbrev bufTy : (tb : Table) → Fin (tcTables nBuf tb) → BufTy
  | .hbm, ⟨i, _⟩ => hbmTy i
  | _, _ => ⟨S26x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_cst : Ref sig .tc := ⟨.hbm, 39, rfl⟩
abbrev main_v3 : Ref sig .tc := ⟨.hbm, 40, rfl⟩
abbrev main_v4 : Ref sig .tc := ⟨.hbm, 41, rfl⟩
abbrev main_cst_0 : Ref sig .tc := ⟨.hbm, 42, rfl⟩
abbrev main_v5 : Ref sig .tc := ⟨.hbm, 43, rfl⟩
abbrev main_v6 : Ref sig .tc := ⟨.hbm, 44, rfl⟩
abbrev main_c : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_cst_3 : Ref sig .tc := ⟨.hbm, 63, rfl⟩
abbrev main_call1_v13 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_cst_1 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst_2 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_3 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_4 : Ref sig .tc := ⟨.hbm, 96, rfl⟩
abbrev main_v32 : Ref sig .tc := ⟨.hbm, 97, rfl⟩
abbrev main_v33 : Ref sig .tc := ⟨.hbm, 98, rfl⟩
abbrev main_cst_5 : Ref sig .tc := ⟨.hbm, 99, rfl⟩
abbrev main_v34 : Ref sig .tc := ⟨.hbm, 100, rfl⟩
abbrev main_v35 : Ref sig .tc := ⟨.hbm, 101, rfl⟩
abbrev main_c_6 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_cst_2 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_v12 : Ref sig .tc := ⟨.hbm, 119, rfl⟩
abbrev main_call2_cst_3 : Ref sig .tc := ⟨.hbm, 120, rfl⟩
abbrev main_call2_v13 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_cst_7 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_cst_8 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_cst_9 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩

abbrev nD : Nat := 1
abbrev τ : Topo := Topo.v7x

variable {F : FTy → Type} [FloatOps F]

class Facts₀ : Prop where
  bcast_S_S26x16384 : S_.BroadcastsInDim S26x16384 (![] : Fin 0 → Fin S26x16384.rank)
  bcast_S26x16384_S26x16384x1_0_1 : S26x16384.BroadcastsInDim S26x16384x1 (![0, 1] : Fin 2 → Fin S26x16384x1.rank)
  bcast_S_S26x16384x1 : S_.BroadcastsInDim S26x16384x1 (![] : Fin 0 → Fin S26x16384x1.rank)
  bcast_S1_S1x1x1_2 : S1.BroadcastsInDim S1x1x1 (![2] : Fin 1 → Fin S1x1x1.rank)
  bcast_S1x1x1_S26x16384x1_0_1_2 : S1x1x1.BroadcastsInDim S26x16384x1 (![0, 1, 2] : Fin 3 → Fin S26x16384x1.rank)
  reducesTo_S26x16384x1_S26x16384_d2 : S26x16384x1.ReducesTo [2] S26x16384
  h_S_ : 0 < S_.numel
  bcast_S26x16384_S26x16384x100_0_1 : S26x16384.BroadcastsInDim S26x16384x100 (![0, 1] : Fin 2 → Fin S26x16384x100.rank)
  bcast_S_S26x16384x100 : S_.BroadcastsInDim S26x16384x100 (![] : Fin 0 → Fin S26x16384x100.rank)
  bcast_S26x100_S26x1x100_0_2 : S26x100.BroadcastsInDim S26x1x100 (![0, 2] : Fin 2 → Fin S26x1x100.rank)
  reducesTo_S26x16384x100_S26x16384_d2 : S26x16384x100.ReducesTo [2] S26x16384
  bcast_S26x16384x1_S26x16384x100_0_1_2 : S26x16384x1.BroadcastsInDim S26x16384x100 (![0, 1, 2] : Fin 3 → Fin S26x16384x100.rank)
  bcast_S26x1x100_S26x16384x100_0_1_2 : S26x1x100.BroadcastsInDim S26x16384x100 (![0, 1, 2] : Fin 3 → Fin S26x16384x100.rank)
  bcast_S26x16_S26x1x16_0_2 : S26x16.BroadcastsInDim S26x1x16 (![0, 2] : Fin 2 → Fin S26x1x16.rank)
  bcast_S26x1x16_S26x16384x16_0_1_2 : S26x1x16.BroadcastsInDim S26x16384x16 (![0, 1, 2] : Fin 3 → Fin S26x16384x16.rank)
  bcast_S_S26x16384x16 : S_.BroadcastsInDim S26x16384x16 (![] : Fin 0 → Fin S26x16384x16.rank)
  transposes_S26x16384x16_S16384x26x16_1_0_2 : S26x16384x16.Transposes [1, 0, 2] S16384x26x16
  shapeCasts_S16384x26x16_S16384x416 : S16384x26x16.ShapeCasts S16384x416
  reducesTo_S16384x416_S16384_d1 : S16384x416.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x416_0_1 : S16384x1.BroadcastsInDim S16384x416 (![0, 1] : Fin 2 → Fin S16384x416.rank)
  bcast_S416_S1x416_1 : S416.BroadcastsInDim S1x416 (![1] : Fin 1 → Fin S1x416.rank)
  bcast_S1x416_S16384x416_0_1 : S1x416.BroadcastsInDim S16384x416 (![0, 1] : Fin 2 → Fin S16384x416.rank)
  bcast_S_S16384x416 : S_.BroadcastsInDim S16384x416 (![] : Fin 0 → Fin S16384x416.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  gather_S26x100000x100_S26x16384x1_S26x16384x100_2_1_0_0_1_2_11100_wf : GatherDims.WF S26x100000x100 S26x16384x1 S26x16384x100 [2] [1] [0] [1] [0] 2 ![1, 1, 100]
  dot_S26x16384x100_S26x100x16_S26x16384x16_2_1_1_2_0_0_wf : DotDims.WF S26x16384x100 S26x100x16 S26x16384x16 [2] [1] [1] [2] [0] [0]
  dot_S16384x416_S416x416_S16384x416_1_0_0_1_n_n_wf : DotDims.WF S16384x416 S416x416 S16384x416 [1] [0] [0] [1] [] []
  dot_S16384x416_S416x16_S16384x16_1_0_0_1_n_n_wf : DotDims.WF S16384x416 S416x16 S16384x16 [1] [0] [0] [1] [] []
  dot_S16384x16_S16x2_S16384x2_1_0_0_1_n_n_wf : DotDims.WF S16384x16 S16x2 S16384x2 [1] [0] [0] [1] [] []

variable [Facts₀]

def gather_S26x100000x100_S26x16384x1_S26x16384x100_2_1_0_0_1_2_11100 : GatherDims S26x100000x100 S26x16384x1 S26x16384x100 where
  offsetDims := [2]
  collapsedSliceDims := [1]
  operandBatchingDims := [0]
  startIndicesBatchingDims := [0]
  startIndexMap := [1]
  indexVectorDim := 2
  sliceSizes := ![1, 1, 100]
  wf := gather_S26x100000x100_S26x16384x1_S26x16384x100_2_1_0_0_1_2_11100_wf
def dot_S26x16384x100_S26x100x16_S26x16384x16_2_1_1_2_0_0 : DotDims S26x16384x100 S26x100x16 S26x16384x16 where
  lhsContracting := [2]
  rhsContracting := [1]
  lhsNonContracting := [1]
  rhsNonContracting := [2]
  lhsBatch := [0]
  rhsBatch := [0]
  wf := dot_S26x16384x100_S26x100x16_S26x16384x16_2_1_1_2_0_0_wf
def dot_S16384x416_S416x416_S16384x416_1_0_0_1_n_n : DotDims S16384x416 S416x416 S16384x416 where
  lhsContracting := [1]
  rhsContracting := [0]
  lhsNonContracting := [0]
  rhsNonContracting := [1]
  lhsBatch := []
  rhsBatch := []
  wf := dot_S16384x416_S416x416_S16384x416_1_0_0_1_n_n_wf
def dot_S16384x416_S416x16_S16384x16_1_0_0_1_n_n : DotDims S16384x416 S416x16 S16384x16 where
  lhsContracting := [1]
  rhsContracting := [0]
  lhsNonContracting := [0]
  rhsNonContracting := [1]
  lhsBatch := []
  rhsBatch := []
  wf := dot_S16384x416_S416x16_S16384x16_1_0_0_1_n_n_wf
def dot_S16384x16_S16x2_S16384x2_1_0_0_1_n_n : DotDims S16384x16 S16x2 S16384x2 where
  lhsContracting := [1]
  rhsContracting := [0]
  lhsNonContracting := [0]
  rhsNonContracting := [1]
  lhsBatch := []
  rhsBatch := []
  wf := dot_S16384x16_S16x2_S16384x2_1_0_0_1_n_n_wf

class Facts : Prop extends Facts₀ where

variable [Facts]
-- ==== Proof.Preserves.lean ====
import proofs.«219071_g10050223472739_week1_w1_120_16_alg».proof.Defs
import Idealize.ShloMosaic.PureOps.IdealRules

noncomputable section

open Idealize.ShloMosaic

namespace Cert.Proof

theorem inv100_named :
    Named.named (F := Ideal) Cert.KernelIdeal.κ "inv_100" (φ := .f32) 0x3C23D70A#32 = ((1 / 100 : ℝ) : EReal) :=
  IdealRules.named_const.ideal_named_scalar _ _ _ _ rfl

theorem preserves : Cert.preserves_Kernel_KernelIdeal := by
  have s := IdealRules.named_const.statement Cert.KernelIdeal.κ "inv_100" .f32 0x3C23D70A#32
    ((1 / 100 : ℝ) : EReal) rfl
  exact ⟨s, s, s, s, s, s, s, s, s, s, s, s, s, s, s, s, s, s, s, s, s, s, s, s, s, s, s, s, s, s, s, s, s, s, s, s, s, s, s, s, s, s, s, s, s, s, s, s, s, s, s, s⟩

end Cert.Proof

end
-- ==== Proof.Spec.lean ====
import Idealize.ShloMosaic.PureOps.Ideal
import Idealize.ShloMosaic.PureOps.Ideal.Laws

noncomputable section

namespace Cert.Spec

open Idealize.ShloMosaic

structure Args where
  ids : Fin 26 → Fin 16384 → Fin 100000
  emb : Fin 26 → Fin 100000 → Fin 100 → EReal
  lnS : Fin 26 → Fin 100 → EReal
  lnB : Fin 26 → Fin 100 → EReal
  W : Fin 26 → Fin 100 → Fin 16 → EReal
  cb : Fin 26 → Fin 16 → EReal
  aS : Fin 416 → EReal
  aB : Fin 416 → EReal
  W1 : Fin 416 → Fin 416 → EReal
  b1 : Fin 416 → EReal
  W2 : Fin 416 → Fin 16 → EReal
  b2 : Fin 16 → EReal
  hW : Fin 16 → Fin 2 → EReal
  hb : Fin 2 → EReal

structure Args.Finite (a : Args) : Prop where
  emb : ∀ c v d, ∃ r : ℝ, a.emb c v d = (r : EReal)
  lnS : ∀ c d, ∃ r : ℝ, a.lnS c d = (r : EReal)
  lnB : ∀ c d, ∃ r : ℝ, a.lnB c d = (r : EReal)
  W : ∀ c d o, ∃ r : ℝ, a.W c d o = (r : EReal)
  cb : ∀ c o, ∃ r : ℝ, a.cb c o = (r : EReal)
  aS : ∀ j, ∃ r : ℝ, a.aS j = (r : EReal)
  aB : ∀ j, ∃ r : ℝ, a.aB j = (r : EReal)
  W1 : ∀ j k, ∃ r : ℝ, a.W1 j k = (r : EReal)
  b1 : ∀ k, ∃ r : ℝ, a.b1 k = (r : EReal)
  W2 : ∀ k o, ∃ r : ℝ, a.W2 k o = (r : EReal)
  b2 : ∀ o, ∃ r : ℝ, a.b2 o = (r : EReal)
  hW : ∀ o q, ∃ r : ℝ, a.hW o q = (r : EReal)
  hb : ∀ q, ∃ r : ℝ, a.hb q = (r : EReal)

abbrev c100 : EReal := Ideal.ofBits .f32 0x42C80000#32

abbrev c416 : EReal := Ideal.ofBits .f32 0x43D00000#32

abbrev eps : EReal := Ideal.ofBits .f32 0x3727C5AC#32

abbrev half : EReal := Ideal.ofBits .f32 0x3F000000#32

abbrev rt : EReal := Ideal.ofBits .f32 0x3F3504F3#32

abbrev one : EReal := Ideal.ofBits .f32 0x3F800000#32

abbrev inv100 : EReal := ((1 / 100 : ℝ) : EReal)

variable (a : Args)

def x (c : Fin 26) (b : Fin 16384) (d : Fin 100) : EReal := a.emb c (a.ids c b) d

def colOf (j : Fin 416) : Fin 26 := ⟨j.val / 16, by have := j.isLt; omega⟩
def outOf (j : Fin 416) : Fin 16 := ⟨j.val % 16, Nat.mod_lt _ (by decide)⟩

def muR (c : Fin 26) (b : Fin 16384) : EReal := Ideal.div (∑ d, x a c b d) c100
def varR (c : Fin 26) (b : Fin 16384) : EReal :=
  Ideal.div (∑ d, (x a c b d - muR a c b) * (x a c b d - muR a c b)) c100
def yR (c : Fin 26) (b : Fin 16384) (d : Fin 100) : EReal :=
  Ideal.div (x a c b d - muR a c b) (Ideal.sqrt (varR a c b + eps)) * a.lnS c d + a.lnB c d
def gR (c : Fin 26) (b : Fin 16384) (o : Fin 16) : EReal := (∑ d, yR a c b d * a.W c d o) + a.cb c o

def geluR (t : EReal) : EReal := (half * t) * Ideal.erfc ((-t) * rt)
def catR (b : Fin 16384) (j : Fin 416) : EReal := geluR (gR a (colOf j) b (outOf j))
def mu2R (b : Fin 16384) : EReal := Ideal.div (∑ j, catR a b j) c416
def var2R (b : Fin 16384) : EReal := Ideal.div (∑ j, (catR a b j - mu2R a b) * (catR a b j - mu2R a b)) c416
def hR (b : Fin 16384) (j : Fin 416) : EReal :=
  Ideal.div (catR a b j - mu2R a b) (Ideal.sqrt (var2R a b + eps)) * a.aS j + a.aB j
def h1R (b : Fin 16384) (k : Fin 416) : EReal := geluR ((∑ j, hR a b j * a.W1 j k) + a.b1 k)
def featsR (b : Fin 16384) (o : Fin 16) : EReal := (∑ k, h1R a b k * a.W2 k o) + a.b2 o
def logitsR (b : Fin 16384) (q : Fin 2) : EReal := (∑ o, featsR a b o * a.hW o q) + a.hb q

def meanK (c : Fin 26) (b : Fin 16384) : EReal := (∑ d, x a c b d) * inv100
def varK (c : Fin 26) (b : Fin 16384) : EReal := (∑ d, x a c b d * x a c b d) * inv100 - meanK a c b * meanK a c b
def xnK (c : Fin 26) (b : Fin 16384) (d : Fin 100) : EReal := (x a c b d - meanK a c b) * Ideal.rsqrt (varK a c b + eps)

def wfold (c : Fin 26) (d : Fin 100) (o : Fin 16) : EReal := a.lnS c d * a.W c d o

def cbfold (c : Fin 26) (o : Fin 16) : EReal := (∑ d, a.lnB c d * a.W c d o) + a.cb c o
def gK (c : Fin 26) (b : Fin 16384) (o : Fin 16) : EReal := (∑ d, xnK a c b d * wfold a c d o) + cbfold a c o

def geluK (t : EReal) : EReal := (half * t) * (one + Ideal.erf (t * rt))
def catK (b : Fin 16384) (j : Fin 416) : EReal := geluK (gK a (colOf j) b (outOf j))
def mu2K (b : Fin 16384) : EReal := Ideal.div (∑ j, catK a b j) c416
def var2K (b : Fin 16384) : EReal := Ideal.div (∑ j, catK a b j * catK a b j) c416 - mu2K a b * mu2K a b
def hK (b : Fin 16384) (j : Fin 416) : EReal :=
  (catK a b j - mu2K a b) * Ideal.rsqrt (var2K a b + eps) * a.aS j + a.aB j
def h1K (b : Fin 16384) (k : Fin 416) : EReal := geluK ((∑ j, hK a b j * a.W1 j k) + a.b1 k)
def featsK (b : Fin 16384) (o : Fin 16) : EReal := (∑ k, h1K a b k * a.W2 k o) + a.b2 o
def logitsK (b : Fin 16384) (q : Fin 2) : EReal := (∑ o, featsK a b o * a.hW o q) + a.hb q

end Cert.Spec

end
-- ==== Proof.SpecArrays.lean ====
import proofs.«219071_g10050223472739_week1_w1_120_16_alg».proof.Proof.Spec
import Idealize.ShloMosaic.Lib.ValueIdx

noncomputable section

namespace Cert.Spec

open Idealize.ShloMosaic Idealize.ShloMosaic.ValueIdx

structure Arrays where
  ids : IVec ⟨2, ![26, 16384]⟩ 32
  emb : FVec Ideal ⟨3, ![26, 100000, 100]⟩ .f32
  lnS : FVec Ideal ⟨2, ![26, 100]⟩ .f32
  lnB : FVec Ideal ⟨2, ![26, 100]⟩ .f32
  W : FVec Ideal ⟨3, ![26, 100, 16]⟩ .f32
  cb : FVec Ideal ⟨2, ![26, 16]⟩ .f32
  aS : FVec Ideal ⟨1, ![416]⟩ .f32
  aB : FVec Ideal ⟨1, ![416]⟩ .f32
  W1 : FVec Ideal ⟨2, ![416, 416]⟩ .f32
  b1 : FVec Ideal ⟨1, ![416]⟩ .f32
  W2 : FVec Ideal ⟨2, ![416, 16]⟩ .f32
  b2 : FVec Ideal ⟨1, ![16]⟩ .f32
  hW : FVec Ideal ⟨2, ![16, 2]⟩ .f32
  hb : FVec Ideal ⟨1, ![2]⟩ .f32

def Arrays.args (A : Arrays) : Args where
  ids c b := ⟨(A.ids (ix2 c b)).toNat % 100000, Nat.mod_lt _ (by decide)⟩
  emb c v d := A.emb (ix3 c v d)
  lnS c d := A.lnS (ix2 c d)
  lnB c d := A.lnB (ix2 c d)
  W c d o := A.W (ix3 c d o)
  cb c o := A.cb (ix2 c o)
  aS j := A.aS (ix1 j)
  aB j := A.aB (ix1 j)
  W1 j k := A.W1 (ix2 j k)
  b1 k := A.b1 (ix1 k)
  W2 k o := A.W2 (ix2 k o)
  b2 o := A.b2 (ix1 o)
  hW o q := A.hW (ix2 o q)
  hb q := A.hb (ix1 q)

structure Arrays.Ok (A : Arrays) : Prop where
  ids : ∀ c b, (A.ids (ix2 c b)).toNat < 100000
  fin : A.args.Finite

end Cert.Spec

end
-- ==== Proof.PreDecode.lean ====
import proofs.«219071_g10050223472739_week1_w1_120_16_alg».proof.Pre_input_domain
import proofs.«219071_g10050223472739_week1_w1_120_16_alg».proof.Proof.SpecArrays
import Idealize.ShloMosaic.Lib.ReduceAll
import Idealize.ShloMosaic.Lib.ValueIdx
import Idealize.ShloMosaic.PureOps.Ideal
import Idealize.ShloMosaic.PureOps.Ideal.Laws

noncomputable section

namespace Cert.Proof.PreDecode

open Idealize.ShloMosaic Idealize.ShloMosaic.ValueIdx

local instance : Subsingleton (⟨0, ![]⟩ : Shape).Idx := ⟨fun a b => funext fun d => d.elim0⟩

/-- An extended real whose absolute value is below plus infinity is neither infinity: it is a real number. -/
theorem real_of_abs_lt (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  induction x using EReal.rec with
  | coe r => exact ⟨r, rfl⟩
  | _ => simp [Ideal.cmp] at h

/-- A word that is signed-nonnegative has its top bit clear, so reads the same unsigned; at most 99999, it is below 100000. -/
theorem id_range (w : BitVec 32) (h0 : IntOp.cmpi .sge w 0#32 = 1#1) (h1 : IntOp.cmpi .sle w 99999#32 = 1#1) :
    w.toNat < 100000 := by
  rw [IntOp.cmpi_sge, show (0#32 : BitVec 32).toInt = 0 by decide] at h0
  rw [IntOp.cmpi_sle, show (99999#32 : BitVec 32).toInt = 99999 by decide,
    BitVec.toInt_eq_toNat_of_lt (BitVec.toInt_pos_iff.1 h0)] at h1
  omega

/-- The "all" of the finiteness test over one float array gives a real at every index. -/
theorem finite_of_all {s : Shape} {axes : List (Fin s.rank)} {hb : (⟨0, ![]⟩ : Shape).BroadcastsInDim s ![]}
    {hr : s.ReducesTo axes ⟨0, ![]⟩} {h0 : 0 < (⟨0, ![]⟩ : Shape).numel} {x : FVec Ideal s .f32}
    {j : (⟨0, ![]⟩ : Shape).Idx}
    (h : Host.reduce IntOp.andi
      (cmpf .olt (Host.absf x) (broadcastInDim s ![] hb (constant ⟨0, ![]⟩ .f32 0x7F800000#32)))
      (constantI ⟨0, ![]⟩ 1 1#1) hr h0 j = 1#1) (i : s.Idx) : ∃ r : ℝ, x i = (r : EReal) :=
  real_of_abs_lt (x i) (Host.reduce_andi_all _ _ hr h0 j h i)

/-- The "all" of the range test over an array of ids gives a row number at every index. -/
theorem range_of_all {s : Shape} {axes : List (Fin s.rank)} {hb : (⟨0, ![]⟩ : Shape).BroadcastsInDim s ![]}
    {hr : s.ReducesTo axes ⟨0, ![]⟩} {h0 : 0 < (⟨0, ![]⟩ : Shape).numel} {ids : IVec s 32}
    {j : (⟨0, ![]⟩ : Shape).Idx}
    (h : Host.reduce IntOp.andi
      (andi (cmpi .sge ids (broadcastInDim s ![] hb (constantI ⟨0, ![]⟩ 32 0#32)))
        (cmpi .sle ids (broadcastInDim s ![] hb (constantI ⟨0, ![]⟩ 32 99999#32))))
      (constantI ⟨0, ![]⟩ 1 1#1) hr h0 j = 1#1) (i : s.Idx) : (ids i).toNat < 100000 := by
  obtain ⟨e0, e1⟩ := IntOp.andi_eq_one.1 (Host.reduce_andi_all _ _ hr h0 j h i)
  exact id_range _ e0 e1

variable [Cert.Pre_input_domain.Facts]
open Cert.Pre_input_domain

/-- At any float instance the predicate's last conjunct gives the id range. -/
theorem ids_of_fn {F : FTy → Type} [FloatOps F] (ids : IVec S26x16384 32) (emb : FVec F S26x100000x100 .f32)
    (lnS lnB : FVec F S26x100 .f32) (W : FVec F S26x100x16 .f32) (cb : FVec F S26x16 .f32)
    (aS aB : FVec F S416 .f32) (W1 : FVec F S416x416 .f32) (b1 : FVec F S416 .f32) (W2 : FVec F S416x16 .f32)
    (b2 : FVec F S16 .f32) (hW : FVec F S16x2 .f32) (hb : FVec F S2 .f32)
    (h : fn (F := F) ids emb lnS lnB W cb aS aB W1 b1 W2 b2 hW hb = (fun _ => 1#1)) :
    ∀ c b, (ids (ix2 c b)).toNat < 100000 := by
  have h' := congrFun h ix0
  dsimp only [fn, fn_part1, fn_part2, fn_part3, fn_part4] at h'
  simp only [andi, IntOp.andi_eq_one] at h'
  exact fun c b => range_of_all h'.2 _

/-- At the exact instance the predicate's fourteen conjuncts say the arrays are admissible. -/
theorem ok_of_fn (A : Cert.Spec.Arrays)
    (h : fn (F := Ideal) A.ids A.emb A.lnS A.lnB A.W A.cb A.aS A.aB A.W1 A.b1 A.W2 A.b2 A.hW A.hb
      = (fun _ => 1#1)) : A.Ok := by
  have h' := congrFun h ix0
  dsimp only [fn, fn_part1, fn_part2, fn_part3, fn_part4] at h'
  simp only [andi, IntOp.andi_eq_one] at h'
  obtain ⟨⟨⟨⟨⟨⟨⟨⟨⟨⟨⟨⟨⟨e1, e2⟩, e3⟩, e4⟩, e5⟩, e6⟩, e7⟩, e8⟩, e9⟩, e10⟩, e11⟩, e12⟩, e13⟩, eids⟩ := h'
  exact ⟨fun _ _ => range_of_all eids _,
    ⟨fun _ _ _ => finite_of_all e1 _, fun _ _ => finite_of_all e2 _, fun _ _ => finite_of_all e3 _,
      fun _ _ _ => finite_of_all e4 _, fun _ _ => finite_of_all e5 _, fun _ => finite_of_all e6 _,
      fun _ => finite_of_all e7 _, fun _ _ => finite_of_all e8 _, fun _ => finite_of_all e9 _,
      fun _ _ => finite_of_all e10 _, fun _ => finite_of_all e11 _, fun _ _ => finite_of_all e12 _,
      fun _ => finite_of_all e13 _⟩⟩

end Cert.Proof.PreDecode

end
-- ==== Proof.Common.lean ====
import proofs.«219071_g10050223472739_week1_w1_120_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.ValueIdx
import Idealize.ShloMosaic.Lib.Tactic
import proofs.«219071_g10050223472739_week1_w1_120_16_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

variable (m : (ℓ : Loc nD τ sig) → Buf (Elt F) ℓ) (ρ : Dev nD → PrngReg)

abbrev eLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

variable [FloatOps F] [Named F]

def embT (d : Dev nD) : Buf (Elt F) (eLoc d) :=
  (transpose S26x100x100000 [0, 2, 1] · transposes_S26x100000x100_S26x100x100000_0_2_1)
    (m ((SparseCore.T d).loc main_arg1) : FVec F S26x100000x100 .f32)

def idsF (d : Dev nD) : Buf (Elt F) (iLoc d) :=
  shapeCast S425984 (m ((SparseCore.T d).loc main_arg0) : IVec S26x16384 32) shapeCasts_S26x16384_S425984

def wid (c : Fin 2) (s : Fin 16) : ℕ := 2 * s.val + c.val

def rowsOf (w : ℕ) : Finset S3328x16384.Idx :=
  Finset.univ.filter fun j => (j 0).val % 128 < 100 ∧ ((j 0).val % 128) % 32 = w

def rowsRest : Finset S3328x16384.Idx := Finset.univ.filter fun j => ¬ (j 0).val % 128 < 100

def gOut (d : Dev nD) (f₀ : Buf (Elt F) (oLoc d)) : Buf (Elt F) (oLoc d) := fun (j : S3328x16384.Idx) =>
  if h : (j 0).val % 128 < 100 then
    (embT m d : FVec F S26x100x100000 .f32)
      (ix3 (⟨(j 0).val / 128, by have h0 : (j 0).val < 3328 := (j 0).isLt; omega⟩ : Fin 26) (⟨(j 0).val % 128, h⟩ : Fin 100)
        (⟨((idsF m d : IVec S425984 32) (ix1 (⟨((j 0).val / 128) * 16384 + (j 1).val, by have h0 : (j 0).val < 3328 := (j 0).isLt; have h1 : (j 1).val < 16384 := (j 1).isLt; omega⟩ : Fin 425984))).toNat % 100000,
          Nat.mod_lt _ (by decide)⟩ : Fin 100000))
  else (f₀ : FVec F S3328x16384 .f32) j

def PreOK : Prop := ∀ (d : Dev nD) (j : S26x16384.Idx), ((m ((SparseCore.T d).loc main_arg0) : IVec S26x16384 32) j).toNat < 100000

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev qC (c : Fin 2) : PosShare TreeShare := Transfers.shareTok fullShare 2 c
abbrev qT (c : Fin 2) (s : Fin 16) : PosShare TreeShare := Transfers.shareTok (qC c) 16 s

def rowsCore (c : Fin 2) : Finset S3328x16384.Idx := Finset.univ.biUnion fun s : Fin 16 => rowsOf (wid c s)

abbrev cC (c : Fin ((K (F := F)).nCore 0)) : Fin 2 := Fin.cast nCore_zero c
abbrev sS (s : Fin ((K (F := F)).nSub 0)) : Fin 16 := Fin.cast nSub_zero s

def P : (K (F := F)).Pay (nD := nD) (Val := Elt F) (Name := ℕ) (U := UU) where
  st := fun q d c => match q with
    | 0 => iprop((eLoc d ↦{qC (cC c)} embT m d) ∗ (iLoc d ↦{qC (cC c)} idsF m d) ∗ oLoc d ↦[rowsCore (cC c)]{fullShare} m (oLoc d))
  dn := fun q d c => match q with
    | 0 => iprop((eLoc d ↦{qC (cC c)} embT m d) ∗ (iLoc d ↦{qC (cC c)} idsF m d) ∗ oLoc d ↦[rowsCore (cC c)]{fullShare} gOut m d (m (oLoc d)))
  go := fun q d c s => match q with
    | 0 => iprop((eLoc d ↦{qT (cC c) (sS s)} embT m d) ∗ (iLoc d ↦{qT (cC c) (sS s)} idsF m d)
        ∗ oLoc d ↦[rowsOf (wid (cC c) (sS s))]{fullShare} m (oLoc d))
  td := fun q d c s => match q with
    | 0 => iprop((eLoc d ↦{qT (cC c) (sS s)} embT m d) ∗ (iLoc d ↦{qT (cC c) (sS s)} idsF m d)
        ∗ oLoc d ↦[rowsOf (wid (cC c) (sS s))]{fullShare} gOut m d (m (oLoc d)))
  x := fun _ _ => iprop(emp)

instance P_storable : (P (F := F) m).IsStorable where
  st q d c := match q with | 0 => by unfold P; infer_instance
  dn q d c := match q with | 0 => by unfold P; infer_instance
  go q d c s := match q with | 0 => by unfold P; infer_instance
  td q d c s := match q with | 0 => by unfold P; infer_instance

end Cert.Proof.KI

end
-- ==== Proof.Launch0.lean ====
import proofs.«219071_g10050223472739_week1_w1_120_16_alg».proof.Proof.Common
import Idealize.ShloMosaic.Lib.StableHlo.Run

noncomputable section

namespace Cert.Proof.KI

open Cert.KernelIdeal Cert.KernelIdeal.Gen

open Idealize.ShloMosaic Idealize.ShloMosaic.TcCoe
open Idealize.ShloMosaic.SparseCore (S V T)
open Idealize.SL Idealize.SL.Sem

variable {F : FTy → Type} [FloatOps F] [Named F]

abbrev hostOps0 : List (HloOp τ sig (Elt F)) :=
  [
    (StableHlo.unary main_arg1 main_v0 ((transpose S26x100x100000 [0, 2, 1] · transposes_S26x100000x100_S26x100x100000_0_2_1))),
    (StableHlo.reshape main_arg0 main_v1 rfl shapeCasts_S26x16384_S425984)
  ]

abbrev hostOps1 : List (HloOp τ sig (Elt F)) :=
  [
    (StableHlo.unary main_arg2 main_v3 (broadcastInDim S26x100x1 ![0, 1] bcast_S26x100_S26x100x1_0_1)),
    (StableHlo.unary main_v3 main_v4 (broadcastInDim S26x100x16 ![0, 1, 2] bcast_S26x100x1_S26x100x16_0_1_2)),
    (StableHlo.binary main_v4 main_arg4 main_v5 (mulf)),
    (StableHlo.binary main_arg3 main_arg4 main_v6 ((fun l r => Host.dotGeneral dot_S26x100_S26x100x16_S26x16_1_1_n_2_0_0 none l r))),
    (StableHlo.binary main_v6 main_arg5 main_v7 (addf)),
    (StableHlo.nullary main_v8 (iotaInDim S26x26 32 0)),
    (StableHlo.nullary main_v9 (iotaInDim S26x26 32 1)),
    (StableHlo.nullary main_c (constantI S_ 32 0#32)),
    (StableHlo.unary main_c main_v10 (broadcastInDim S26x26 ![] bcast_S_S26x26)),
    (StableHlo.binary main_v8 main_v10 main_v11 (addi)),
    (StableHlo.binary main_v11 main_v9 main_v12 (cmpi .eq)),
    (StableHlo.unary main_v12 main_v13 (uitofp .bf16)),
    (StableHlo.unary main_v13 main_v14 (broadcastInDim S26x1x26x1 ![0, 2] bcast_S26x26_S26x1x26x1_0_2)),
    (StableHlo.nullary main_v15 (iotaInDim S16x16 32 0)),
    (StableHlo.nullary main_v16 (iotaInDim S16x16 32 1)),
    (StableHlo.nullary main_c_0 (constantI S_ 32 0#32)),
    (StableHlo.unary main_c_0 main_v17 (broadcastInDim S16x16 ![] bcast_S_S16x16)),
    (StableHlo.binary main_v15 main_v17 main_v18 (addi)),
    (StableHlo.binary main_v18 main_v16 main_v19 (cmpi .eq)),
    (StableHlo.unary main_v19 main_v20 (uitofp .bf16)),
    (StableHlo.unary main_v20 main_v21 (broadcastInDim S1x16x1x16 ![1, 3] bcast_S16x16_S1x16x1x16_1_3)),
    (StableHlo.unary main_v14 main_v22 (broadcastInDim S26x16x26x16 ![0, 1, 2, 3] bcast_S26x1x26x1_S26x16x26x16_0_1_2_3)),
    (StableHlo.unary main_v21 main_v23 (broadcastInDim S26x16x26x16 ![0, 1, 2, 3] bcast_S1x16x1x16_S26x16x26x16_0_1_2_3)),
    (StableHlo.binary main_v22 main_v23 main_v24 (mulf)),
    (StableHlo.reshape main_v24 main_v25 rfl shapeCasts_S26x16x26x16_S26x16x416),
    (StableHlo.reshape main_arg6 main_v26 rfl shapeCasts_S416_S1x416),
    (StableHlo.reshape main_arg7 main_v27 rfl shapeCasts_S416_S1x416),
    (StableHlo.unary main_arg8 main_v28 ((truncf .bf16 · bitsLt_bf16_f32))),
    (StableHlo.reshape main_arg9 main_v29 rfl shapeCasts_S416_S1x416),
    (StableHlo.reshape main_arg11 main_v30 rfl shapeCasts_S16_S1x16),
    (StableHlo.reshape main_arg13 main_v31 rfl shapeCasts_S2_S1x2)
  ]

theorem hostOps0_sub : (hostOps0 : List (HloOp τ sig (Elt F))).Forall fun op => op.bufs ⊆ StableHlo.tcRefs τ sig :=
  ⟨StableHlo.unary_bufs_sub .., StableHlo.reshape_bufs_sub ..⟩
theorem hostOps1_sub : (hostOps1 : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem main_eq (d : Dev nD) :
    main (F := F) d = (StableHlo.seq hostOps0 >>= fun _ => (K (F := F)).run d 0 >>= fun _ => StableHlo.seq hostOps1 >>= fun _ =>
      (Prog.lift (.customCall (SparseCore.inner (Pipeline.entry 0)) ()) >>= fun _ => pure ⟨⟩)) := by
  simp only [main, StableHlo.seq, bind_assoc, pure_bind]; rfl

variable (m : (ℓ : Loc nD τ sig) → Buf (Elt F) ℓ)

abbrev W0 (d : Dev nD) : Valuation τ sig (Elt F) := fun b => m (d, b)

abbrev W1 (d : Dev nD) : Valuation τ sig (Elt F) := StableHlo.after hostOps0 (W0 m d)

def W2 (d : Dev nD) : Valuation τ sig (Elt F) :=
  Function.update (W1 m d) (Proc.devRef .tc main_v2) (gOut m d (m (oLoc d)))

abbrev W3 (d : Dev nD) : Valuation τ sig (Elt F) := StableHlo.after hostOps1 (W2 m d)

abbrev V3 : (c : Dev nD) → (b : Ref sig .tc) → Buf (Elt F) ((c : Thread nD τ).loc b) := fun c b => W3 m c (Proc.devRef .tc b)

end Cert.Proof.KI

end
-- ==== Proof.Launch1.lean ====
import proofs.«219071_g10050223472739_week1_w1_120_16_alg».proof.Proof.Launch0
import proofs.«219071_g10050223472739_week1_w1_120_16_alg».proof.Proof.Gen.KernelIdeal.Launch
import Idealize.ShloMosaic.Lib.Pipeline.Sound

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

def G (d : Dev nD) : sProp 𝕄 :=
  iprop((bigSep Finset.univ fun p : Fin 1 => Pipeline.cellsGhost (cfgs) (EP (F := F)) p d)
    ∗ bigSep Finset.univ fun p : Fin 1 => Pipeline.toksInit (cfgs) (EP (F := F)) p d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  refine (ownU_pair _ _).trans ?_
  show iprop(_ ∗ BI.own ((EP (F := F)) _)) ⊢ _
  iintro ⟨HH, HP⟩
  imod (Pipeline.fund_ghost (nD := nD) (τ := τ) (Ix := HIx 1) (Val := Elt F) (Name := ℕ) (U := UU) (Lvl := ℕ) cfgs (EP (F := F)) cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.Split.lean ====
import proofs.«219071_g10050223472739_week1_w1_120_16_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

theorem tiles_disjoint (c : Fin 2) : ∀ s ∈ (Finset.univ : Finset (Fin 16)), ∀ s' ∈ (Finset.univ : Finset (Fin 16)), s ≠ s' →
    Disjoint (rowsOf (wid c s)) (rowsOf (wid c s')) := fun s _ s' _ h =>
  Finset.disjoint_filter.2 fun j _ h1 h2 => h (Fin.ext (by have := h1.2.symm.trans h2.2; unfold wid at this; omega))

theorem mem_rowsCore (c : Fin 2) (j : S3328x16384.Idx) :
    j ∈ rowsCore c ↔ (j 0).val % 128 < 100 ∧ (j 0).val % 128 % 32 % 2 = c.val := by
  have hc : c.val < 2 := c.isLt
  unfold rowsCore rowsOf wid
  simp only [Finset.mem_biUnion, Finset.mem_univ, true_and, Finset.mem_filter]
  constructor
  · rintro ⟨s, h1, h2⟩; exact ⟨h1, by omega⟩
  · rintro ⟨h1, h2⟩
    refine ⟨⟨(j 0).val % 128 % 32 / 2, by omega⟩, h1, ?_⟩
    show (j 0).val % 128 % 32 = 2 * ((j 0).val % 128 % 32 / 2) + c.val
    omega

theorem cores_disjoint : ∀ c ∈ (Finset.univ : Finset (Fin 2)), ∀ c' ∈ (Finset.univ : Finset (Fin 2)), c ≠ c' →
    Disjoint (rowsCore c) (rowsCore c') := fun c _ c' _ h =>
  Finset.disjoint_left.2 fun j h1 h2 => h (Fin.ext (((mem_rowsCore c j).1 h1).2.symm.trans ((mem_rowsCore c' j).1 h2).2))

theorem rest_disjoint : Disjoint rowsRest ((Finset.univ : Finset (Fin 2)).biUnion rowsCore) :=
  Finset.disjoint_left.2 fun j h1 h2 => by
    obtain ⟨c, -, hc⟩ := Finset.mem_biUnion.1 h2
    exact (Finset.mem_filter.1 h1).2 ((mem_rowsCore c j).1 hc).1

theorem rows_cover : rowsRest ∪ (Finset.univ : Finset (Fin 2)).biUnion rowsCore = Finset.univ := by
  refine Finset.eq_univ_iff_forall.2 fun j => ?_
  by_cases h : (j 0).val % 128 < 100
  · exact Finset.mem_union_right _ (Finset.mem_biUnion.2
      ⟨⟨(j 0).val % 128 % 32 % 2, by omega⟩, Finset.mem_univ _, (mem_rowsCore _ j).2 ⟨h, rfl⟩⟩)
  · exact Finset.mem_union_left _ (Finset.mem_filter.2 ⟨Finset.mem_univ _, h⟩)

variable (m : (ℓ : Loc nD τ sig) → Buf (Elt F) ℓ)
variable [FloatOps F] [Named F]

/-- Outside the gathered rows the output keeps what it held. -/
theorem oRest_gOut (d : Dev nD) :
    (oLoc d ↦[rowsRest]{fullShare} m (oLoc d) : sProp 𝕄) ⊢ oLoc d ↦[rowsRest]{fullShare} gOut m d (m (oLoc d)) :=
  Entails.of_eq (pointsTo_congr fun j hj => by unfold gOut; rw [dif_neg (Finset.mem_filter.1 hj).2])

omit [FloatOps F] [Named F] in
/-- Two tables held at share q split into n read tokens each, beside a resource X that splits into a rest R and n parts Φ; the
    tokens, with parts Ψ in place of Φ, give the tables back at q beside what R and the Ψ join to. -/
theorem split_toks (d : Dev nD) (q : PosShare TreeShare) (n : ℕ) (E : Buf (Elt F) (eLoc d)) (I : Buf (Elt F) (iLoc d))
    {X Y R : sProp 𝕄} {Φ Ψ : Fin n → sProp 𝕄} (hs : X ⊢ iprop(R ∗ bigSep Finset.univ Φ)) (hj : iprop(R ∗ bigSep Finset.univ Ψ) ⊢ Y) :
    iprop((eLoc d ↦{q} E) ∗ (iLoc d ↦{q} I) ∗ X) ⊢ iprop(
      (bigSep Finset.univ fun i : Fin n => iprop((eLoc d ↦{Transfers.shareTok q n i} E) ∗ (iLoc d ↦{Transfers.shareTok q n i} I) ∗ Φ i))
      ∗ ((bigSep Finset.univ fun i : Fin n => iprop((eLoc d ↦{Transfers.shareTok q n i} E) ∗ (iLoc d ↦{Transfers.shareTok q n i} I) ∗ Ψ i))
          -∗ iprop((eLoc d ↦{q} E) ∗ (iLoc d ↦{q} I) ∗ Y))) := by
  rw [bigSep_sep', bigSep_sep', bigSep_sep', bigSep_sep']
  iintro ⟨He, Hi, Ho⟩
  ihave He' := (Transfers.pointsTo_toks_split q n) $$ He
  icases He' with ⟨Hed, Het⟩
  ihave Hi' := (Transfers.pointsTo_toks_split q n) $$ Hi
  icases Hi' with ⟨Hid, Hit⟩
  ihave Ho' := hs $$ Ho
  icases Ho' with ⟨Hor, Hoc⟩
  isplitl [Het Hit Hoc]
  · isplitl [Het]; · iexact Het
    isplitl [Hit]; · iexact Hit
    iexact Hoc
  iintro ⟨Het, Hit, Hoc⟩
  isplitl [Hed Het]
  · iapply (Transfers.pointsTo_toks_join q n)
    isplitl [Hed]; · iexact Hed
    iexact Het
  isplitl [Hid Hit]
  · iapply (Transfers.pointsTo_toks_join q n)
    isplitl [Hid]; · iexact Hid
    iexact Hit
  iapply hj
  isplitl [Hor]; · iexact Hor
  iexact Hoc

omit [FloatOps F] [Named F] in
/-- A core's rows of the output are the disjoint union of its 16 tiles' rows. -/
theorem oPts_tiles (d : Dev nD) (c : Fin 2) (f : Buf (Elt F) (oLoc d)) :
    (oLoc d ↦[rowsCore c]{fullShare} f : sProp 𝕄) = bigSep Finset.univ fun s : Fin 16 => oLoc d ↦[rowsOf (wid c s)]{fullShare} f := by
  rw [← pointsTo_biUnion Finset.univ (ℓ := oLoc d) (fun s : Fin 16 => rowsOf (wid c s)) (tiles_disjoint c)]; rfl

theorem vecSplit : (K (F := F)).VecSplit' (P m) 0 := by
  intro d c
  refine (split_toks d (qC (cC c)) 16 (embT m d) (idsF m d) (R := iprop(emp))
    (Φ := fun s => oLoc d ↦[rowsOf (wid (cC c) s)]{fullShare} m (oLoc d))
    (Ψ := fun s => oLoc d ↦[rowsOf (wid (cC c) s)]{fullShare} gOut m d (m (oLoc d)))
    ((Entails.of_eq (oPts_tiles d _ _)).trans BI.emp_sep.2) (BI.emp_sep.1.trans (Entails.of_eq (oPts_tiles d _ _).symm))).trans ?_
  iintro H; imodintro; iexact H

omit [FloatOps F] [Named F] in
/-- The output is its rows outside the gathered ones and the two cores' rows. -/
theorem oPts_cores (d : Dev nD) (f : Buf (Elt F) (oLoc d)) :
    (oLoc d ↦{fullShare} f : sProp 𝕄)
      ⊣⊢ iprop((oLoc d ↦[rowsRest]{fullShare} f) ∗ bigSep Finset.univ fun c : Fin 2 => oLoc d ↦[rowsCore c]{fullShare} f) := by
  rw [← pointsTo_biUnion Finset.univ (ℓ := oLoc d) rowsCore cores_disjoint, ← rows_cover]
  exact pointsTo_union rest_disjoint

theorem callSplit (d : Dev nD) :
    iprop((eLoc d ↦{fullShare} embT m d) ∗ (iLoc d ↦{fullShare} idsF m d) ∗ (oLoc d ↦{fullShare} m (oLoc d)))
      ⊢ (iprop((bigSep Finset.univ fun c : Fin ((K (F := F)).nCore 0) => (P m).st 0 d c)
          ∗ ((bigSep Finset.univ fun c : Fin ((K (F := F)).nCore 0) => (P m).dn 0 d c)
              -∗ iprop((eLoc d ↦{fullShare} embT m d) ∗ (iLoc d ↦{fullShare} idsF m d) ∗ (oLoc d ↦{fullShare} gOut m d (m (oLoc d)))))) : sProp 𝕄) :=
  split_toks d fullShare 2 (embT m d) (idsF m d)
    (Φ := fun c => oLoc d ↦[rowsCore c]{fullShare} m (oLoc d)) (Ψ := fun c => oLoc d ↦[rowsCore c]{fullShare} gOut m d (m (oLoc d)))
    (oPts_cores d _).1 ((sep_mono_l (oRest_gOut m d)).trans (oPts_cores d _).2)

end Cert.Proof.KI

end
-- ==== Proof.MlpOut.lean ====
import proofs.«219071_g10050223472739_week1_w1_120_16_alg».proof.Proof.Gen.KernelIdeal.Skeleton
import Idealize.ShloMosaic.Lib.Pipeline.FrameBody
import Idealize.ShloMosaic.Lib.VecLiteral

noncomputable section

namespace Cert.Proof.KI

open Idealize.ShloMosaic Idealize.ShloMosaic.VecLiteral Idealize.SL.Sem
open Cert.KernelIdeal Cert.KernelIdeal.Gen

variable {F : FTy → Type} [FloatOps F] [Named F]

abbrev r1_0 : Rect S26x16 := Rect.unit (s := S26x16) ![0, 0] S26x16.size inb_S26x16_S26x16_0_0

-- Column c reads rows 128 c … 128 c + 99 of the looked-up rows, its own 100 × 16 matrix and its own 16 × 416 block; c < 26 keeps each in bounds.
abbrev r1slab (c : Fin 26) : Rect S3328x1024 := Rect.unit (s := S3328x1024) ![128 * c.val, 0] S100x1024.size
  (le_vecCons (by omega) (le_vecCons (Nat.le_refl _) fun a => a.elim0))
abbrev r1mat (c : Fin 26) : Rect S26x100x16 := Rect.unit (s := S26x100x16) ![c.val, 0, 0] S1x100x16.size
  (le_vecCons (by omega) (le_vecCons (Nat.le_refl _) (le_vecCons (Nat.le_refl _) fun a => a.elim0)))
abbrev r1blk (c : Fin 26) : Rect S26x16x416 := Rect.unit (s := S26x16x416) ![c.val, 0, 0] S1x16x416.size
  (le_vecCons (by omega) (le_vecCons (Nat.le_refl _) (le_vecCons (Nat.le_refl _) fun a => a.elim0)))

abbrev r1_79 : Rect S1x416 := Rect.unit (s := S1x416) ![0, 0] S1x416.size inb_S1x416_S1x416_0_0
abbrev r1_80 : Rect S416x416 := Rect.unit (s := S416x416) ![0, 0] S416x416.size inb_S416x416_S416x416_0_0
abbrev r1_81 : Rect S416x16 := Rect.unit (s := S416x16) ![0, 0] S416x16.size inb_S416x16_S416x16_0_0
abbrev r1_82 : Rect S1x16 := Rect.unit (s := S1x16) ![0, 0] S1x16.size inb_S1x16_S1x16_0_0
abbrev r1_83 : Rect S16x2 := Rect.unit (s := S16x2) ![0, 0] S16x2.size inb_S16x2_S16x2_0_0
abbrev r1_84 : Rect S1x2 := Rect.unit (s := S1x2) ![0, 0] S1x2.size inb_S1x2_S1x2_0_0
abbrev r1_85 : Rect S1024x16 := Rect.unit (s := S1024x16) ![0, 0] S1024x16.size inb_S1024x16_S1024x16_0_0
abbrev r1_86 : Rect S1024x2 := Rect.unit (s := S1024x2) ![0, 0] S1024x2.size inb_S1024x2_S1024x2_0_0

def mlp_v1 (x0 : Vec F S3328x1024 .f32) (x1 : Vec F S26x100x16 .f32) (x2 : Vec F S26x16 .f32) (x3 : Vec F S26x16x416 .bf16) : FVec F S26x16 .f32 :=
  k1_pay2 (View.ld x2 r1_0)
def mlp_v41 (x0 : Vec F S3328x1024 .f32) (x1 : Vec F S26x100x16 .f32) (x2 : Vec F S26x16 .f32) (x3 : Vec F S26x16x416 .bf16) : FVec F S1024x416 .f32 :=
  k1_pay5 (k1_pay3 (F := F)) (k1_pay4 (View.ld x2 r1_0) (View.ld x0 (r1slab 0)) (View.ld x1 (r1mat 0))) (View.ld x3 (r1blk 0))
def mlp_v119 (x0 : Vec F S3328x1024 .f32) (x1 : Vec F S26x100x16 .f32) (x2 : Vec F S26x16 .f32) (x3 : Vec F S26x16x416 .bf16) : FVec F S1024x416 .f32 :=
  k1_pay7 (mlp_v1 x0 x1 x2 x3) (mlp_v41 x0 x1 x2 x3)
    (k1_pay6 (mlp_v1 x0 x1 x2 x3) (View.ld x0 (r1slab 1)) (View.ld x1 (r1mat 1)) (View.ld x3 (r1blk 1))) (View.ld x0 (r1slab 2))
    (View.ld x1 (r1mat 2)) (View.ld x3 (r1blk 2))
def mlp_v158 (x0 : Vec F S3328x1024 .f32) (x1 : Vec F S26x100x16 .f32) (x2 : Vec F S26x16 .f32) (x3 : Vec F S26x16x416 .bf16) : FVec F S1024x416 .f32 :=
  k1_pay8 (mlp_v1 x0 x1 x2 x3) (mlp_v119 x0 x1 x2 x3) (View.ld x0 (r1slab 3)) (View.ld x1 (r1mat 3)) (View.ld x3 (r1blk 3))
def mlp_v197 (x0 : Vec F S3328x1024 .f32) (x1 : Vec F S26x100x16 .f32) (x2 : Vec F S26x16 .f32) (x3 : Vec F S26x16x416 .bf16) : FVec F S1024x416 .f32 :=
  k1_pay10 (mlp_v1 x0 x1 x2 x3) (mlp_v158 x0 x1 x2 x3) (k1_pay9 (View.ld x0 (r1slab 4))) (View.ld x1 (r1mat 4)) (View.ld x3 (r1blk 4))
def mlp_v236 (x0 : Vec F S3328x1024 .f32) (x1 : Vec F S26x100x16 .f32) (x2 : Vec F S26x16 .f32) (x3 : Vec F S26x16x416 .bf16) : FVec F S1024x416 .f32 :=
  k1_pay14 (mlp_v1 x0 x1 x2 x3) (mlp_v197 x0 x1 x2 x3) (k1_pay11 (View.ld x0 (r1slab 5))) (k1_pay12 (View.ld x0 (r1slab 5)))
    (k1_pay13 (View.ld x0 (r1slab 5))) (View.ld x1 (r1mat 5)) (View.ld x3 (r1blk 5))
def mlp_v275 (x0 : Vec F S3328x1024 .f32) (x1 : Vec F S26x100x16 .f32) (x2 : Vec F S26x16 .f32) (x3 : Vec F S26x16x416 .bf16) : FVec F S1024x416 .f32 :=
  k1_pay18 (mlp_v1 x0 x1 x2 x3) (mlp_v236 x0 x1 x2 x3) (k1_pay15 (View.ld x0 (r1slab 6))) (k1_pay16 (View.ld x0 (r1slab 6)))
    (k1_pay17 (View.ld x0 (r1slab 6))) (View.ld x1 (r1mat 6)) (View.ld x3 (r1blk 6))
def mlp_v314 (x0 : Vec F S3328x1024 .f32) (x1 : Vec F S26x100x16 .f32) (x2 : Vec F S26x16 .f32) (x3 : Vec F S26x16x416 .bf16) : FVec F S1024x416 .f32 :=
  k1_pay22 (mlp_v1 x0 x1 x2 x3) (mlp_v275 x0 x1 x2 x3) (k1_pay19 (View.ld x0 (r1slab 7))) (k1_pay20 (View.ld x0 (r1slab 7)))
    (k1_pay21 (View.ld x0 (r1slab 7))) (View.ld x1 (r1mat 7)) (View.ld x3 (r1blk 7))
def mlp_v353 (x0 : Vec F S3328x1024 .f32) (x1 : Vec F S26x100x16 .f32) (x2 : Vec F S26x16 .f32) (x3 : Vec F S26x16x416 .bf16) : FVec F S1024x416 .f32 :=
  k1_pay26 (mlp_v1 x0 x1 x2 x3) (mlp_v314 x0 x1 x2 x3) (k1_pay23 (View.ld x0 (r1slab 8))) (k1_pay24 (View.ld x0 (r1slab 8)))
    (k1_pay25 (View.ld x0 (r1slab 8))) (View.ld x1 (r1mat 8)) (View.ld x3 (r1blk 8))
def mlp_v392 (x0 : Vec F S3328x1024 .f32) (x1 : Vec F S26x100x16 .f32) (x2 : Vec F S26x16 .f32) (x3 : Vec F S26x16x416 .bf16) : FVec F S1024x416 .f32 :=
  k1_pay31 (mlp_v1 x0 x1 x2 x3) (mlp_v353 x0 x1 x2 x3) (k1_pay27 (View.ld x0 (r1slab 9))) (k1_pay29 (View.ld x0 (r1slab 9)))
    (k1_pay30 (View.ld x0 (r1slab 9))) (View.ld x1 (r1mat 9)) (View.ld x3 (r1blk 9))
def mlp_v431 (x0 : Vec F S3328x1024 .f32) (x1 : Vec F S26x100x16 .f32) (x2 : Vec F S26x16 .f32) (x3 : Vec F S26x16x416 .bf16) : FVec F S1024x416 .f32 :=
  k1_pay37 (mlp_v1 x0 x1 x2 x3) (mlp_v392 x0 x1 x2 x3) (k1_pay34 (View.ld x0 (r1slab 10))) (k1_pay35 (View.ld x0 (r1slab 10))) (k1_pay36 (F := F))
    (View.ld x1 (r1mat 10)) (View.ld x3 (r1blk 10))
def mlp_v470 (x0 : Vec F S3328x1024 .f32) (x1 : Vec F S26x100x16 .f32) (x2 : Vec F S26x16 .f32) (x3 : Vec F S26x16x416 .bf16) : FVec F S1024x416 .f32 :=
  k1_pay42 (mlp_v1 x0 x1 x2 x3) (mlp_v431 x0 x1 x2 x3) (k1_pay40 (View.ld x0 (r1slab 11))) (k1_pay41 (View.ld x0 (r1slab 11))) (View.ld x1 (r1mat 11))
    (View.ld x3 (r1blk 11))
def mlp_v509 (x0 : Vec F S3328x1024 .f32) (x1 : Vec F S26x100x16 .f32) (x2 : Vec F S26x16 .f32) (x3 : Vec F S26x16x416 .bf16) : FVec F S1024x416 .f32 :=
  k1_pay44 (mlp_v1 x0 x1 x2 x3) (mlp_v470 x0 x1 x2 x3) (k1_pay43 (View.ld x0 (r1slab 12))) (View.ld x1 (r1mat 12)) (View.ld x3 (r1blk 12))
def mlp_v548 (x0 : Vec F S3328x1024 .f32) (x1 : Vec F S26x100x16 .f32) (x2 : Vec F S26x16 .f32) (x3 : Vec F S26x16x416 .bf16) : FVec F S1024x416 .f32 :=
  k1_pay47 (mlp_v1 x0 x1 x2 x3) (mlp_v509 x0 x1 x2 x3) (k1_pay45 (View.ld x0 (r1slab 13))) (k1_pay46 (View.ld x1 (r1mat 13))) (View.ld x3 (r1blk 13))
def mlp_v587 (x0 : Vec F S3328x1024 .f32) (x1 : Vec F S26x100x16 .f32) (x2 : Vec F S26x16 .f32) (x3 : Vec F S26x16x416 .bf16) : FVec F S1024x416 .f32 :=
  k1_pay50 (mlp_v548 x0 x1 x2 x3) (k1_pay48 (View.ld x0 (r1slab 14)) (View.ld x1 (r1mat 14))) (k1_pay49 (mlp_v1 x0 x1 x2 x3)) (View.ld x3 (r1blk 14))
def mlp_v626 (x0 : Vec F S3328x1024 .f32) (x1 : Vec F S26x100x16 .f32) (x2 : Vec F S26x16 .f32) (x3 : Vec F S26x16x416 .bf16) : FVec F S1024x416 .f32 :=
  k1_pay52 (mlp_v587 x0 x1 x2 x3) (k1_pay51 (mlp_v1 x0 x1 x2 x3) (View.ld x0 (r1slab 15)) (View.ld x1 (r1mat 15))) (Scalar.ofBits .f32 0x3F000000#32)
    (View.ld x3 (r1blk 15))
def mlp_v665 (x0 : Vec F S3328x1024 .f32) (x1 : Vec F S26x100x16 .f32) (x2 : Vec F S26x16 .f32) (x3 : Vec F S26x16x416 .bf16) : FVec F S1024x416 .f32 :=
  k1_pay55 (mlp_v626 x0 x1 x2 x3) (k1_pay53 (mlp_v1 x0 x1 x2 x3) (View.ld x0 (r1slab 16)) (View.ld x1 (r1mat 16)))
    (k1_pay54 (mlp_v1 x0 x1 x2 x3) (View.ld x0 (r1slab 16)) (View.ld x1 (r1mat 16))) (Scalar.ofBits .f32 0x3F3504F3#32) (View.ld x3 (r1blk 16))
def mlp_v704 (x0 : Vec F S3328x1024 .f32) (x1 : Vec F S26x100x16 .f32) (x2 : Vec F S26x16 .f32) (x3 : Vec F S26x16x416 .bf16) : FVec F S1024x416 .f32 :=
  k1_pay59 (mlp_v665 x0 x1 x2 x3) (k1_pay57 (mlp_v1 x0 x1 x2 x3) (View.ld x0 (r1slab 17)) (View.ld x1 (r1mat 17)))
    (k1_pay58 (mlp_v1 x0 x1 x2 x3) (View.ld x0 (r1slab 17)) (View.ld x1 (r1mat 17))) (View.ld x3 (r1blk 17))
def mlp_v743 (x0 : Vec F S3328x1024 .f32) (x1 : Vec F S26x100x16 .f32) (x2 : Vec F S26x16 .f32) (x3 : Vec F S26x16x416 .bf16) : FVec F S1024x416 .f32 :=
  k1_pay63 (mlp_v704 x0 x1 x2 x3) (k1_pay61 (mlp_v1 x0 x1 x2 x3) (View.ld x0 (r1slab 18)) (View.ld x1 (r1mat 18)))
    (k1_pay62 (mlp_v1 x0 x1 x2 x3) (View.ld x0 (r1slab 18)) (View.ld x1 (r1mat 18))) (View.ld x3 (r1blk 18))
def mlp_v782 (x0 : Vec F S3328x1024 .f32) (x1 : Vec F S26x100x16 .f32) (x2 : Vec F S26x16 .f32) (x3 : Vec F S26x16x416 .bf16) : FVec F S1024x416 .f32 :=
  k1_pay65 (mlp_v743 x0 x1 x2 x3) (k1_pay64 (mlp_v1 x0 x1 x2 x3) (View.ld x0 (r1slab 19)) (View.ld x1 (r1mat 19))) (View.ld x3 (r1blk 19))
def mlp_v821 (x0 : Vec F S3328x1024 .f32) (x1 : Vec F S26x100x16 .f32) (x2 : Vec F S26x16 .f32) (x3 : Vec F S26x16x416 .bf16) : FVec F S1024x416 .f32 :=
  k1_pay67 (mlp_v782 x0 x1 x2 x3) (k1_pay66 (mlp_v1 x0 x1 x2 x3) (View.ld x0 (r1slab 20)) (View.ld x1 (r1mat 20))) (View.ld x3 (r1blk 20))
def mlp_v899 (x0 : Vec F S3328x1024 .f32) (x1 : Vec F S26x100x16 .f32) (x2 : Vec F S26x16 .f32) (x3 : Vec F S26x16x416 .bf16) : FVec F S1024x416 .f32 :=
  k1_pay69 (mlp_v1 x0 x1 x2 x3) (mlp_v821 x0 x1 x2 x3)
    (k1_pay68 (mlp_v1 x0 x1 x2 x3) (View.ld x0 (r1slab 21)) (View.ld x1 (r1mat 21)) (View.ld x3 (r1blk 21))) (View.ld x0 (r1slab 22))
    (View.ld x1 (r1mat 22)) (View.ld x3 (r1blk 22))
def mlp_v938 (x0 : Vec F S3328x1024 .f32) (x1 : Vec F S26x100x16 .f32) (x2 : Vec F S26x16 .f32) (x3 : Vec F S26x16x416 .bf16) : FVec F S1024x416 .f32 :=
  k1_pay70 (mlp_v1 x0 x1 x2 x3) (mlp_v899 x0 x1 x2 x3) (View.ld x0 (r1slab 23)) (View.ld x1 (r1mat 23)) (View.ld x3 (r1blk 23))
def mlp_v977 (x0 : Vec F S3328x1024 .f32) (x1 : Vec F S26x100x16 .f32) (x2 : Vec F S26x16 .f32) (x3 : Vec F S26x16x416 .bf16) : FVec F S1024x416 .f32 :=
  k1_pay72 (mlp_v1 x0 x1 x2 x3) (mlp_v938 x0 x1 x2 x3) (k1_pay71 (View.ld x0 (r1slab 24))) (View.ld x1 (r1mat 24)) (View.ld x3 (r1blk 24))
def mlp_v1016 (x0 : Vec F S3328x1024 .f32) (x1 : Vec F S26x100x16 .f32) (x2 : Vec F S26x16 .f32) (x3 : Vec F S26x16x416 .bf16) : FVec F S1024x416 .f32 :=
  k1_pay76 (mlp_v1 x0 x1 x2 x3) (mlp_v977 x0 x1 x2 x3) (k1_pay73 (View.ld x0 (r1slab 25))) (k1_pay74 (View.ld x0 (r1slab 25)))
    (k1_pay75 (View.ld x0 (r1slab 25))) (View.ld x1 (r1mat 25)) (View.ld x3 (r1blk 25))
def mlp_v1064 (x0 : Vec F S3328x1024 .f32) (x1 : Vec F S26x100x16 .f32) (x2 : Vec F S26x16 .f32) (x3 : Vec F S26x16x416 .bf16) (x4 x5 : Vec F S1x416 .f32) (x6 : Vec F S416x416 .bf16) (x7 : Vec F S1x416 .f32) (x8 : Vec F S416x16 .f32) (x9 : Vec F S1x16 .f32) : FVec F S1024x16 .f32 :=
  k1_pay79 (mlp_v1016 x0 x1 x2 x3)
    (k1_pay77 (mlp_v1 x0 x1 x2 x3) (mlp_v977 x0 x1 x2 x3) (k1_pay73 (View.ld x0 (r1slab 25))) (k1_pay74 (View.ld x0 (r1slab 25))) (k1_pay75 (View.ld x0 (r1slab 25))) (View.ld x1 (r1mat 25)) (View.ld x3 (r1blk 25)))
    (k1_pay78 (mlp_v1 x0 x1 x2 x3) (mlp_v977 x0 x1 x2 x3) (k1_pay73 (View.ld x0 (r1slab 25))) (k1_pay74 (View.ld x0 (r1slab 25))) (k1_pay75 (View.ld x0 (r1slab 25))) (View.ld x1 (r1mat 25)) (View.ld x3 (r1blk 25)))
    (Scalar.ofBits .f32 0x43D00000#32) (View.ld x4 r1_79) (View.ld x5 r1_79) (View.ld x6 r1_80) (View.ld x7 r1_79) (View.ld x8 r1_81)
    (View.ld x9 r1_82)
def out1_13 (x0 : Vec F S3328x1024 .f32) (x1 : Vec F S26x100x16 .f32) (x2 : Vec F S26x16 .f32) (x3 : Vec F S26x16x416 .bf16) (x4 x5 : Vec F S1x416 .f32) (x6 : Vec F S416x416 .bf16) (x7 : Vec F S1x416 .f32) (x8 : Vec F S416x16 .f32) (x9 : Vec F S1x16 .f32) (x10 : Vec F S16x2 .f32) (x11 : Vec F S1x2 .f32) : Vec F S1024x16 .f32 :=
  View.canon [⟨r1_85, mlp_v1064 x0 x1 x2 x3 x4 x5 x6 x7 x8 x9⟩]
def out1_12 (x0 : Vec F S3328x1024 .f32) (x1 : Vec F S26x100x16 .f32) (x2 : Vec F S26x16 .f32) (x3 : Vec F S26x16x416 .bf16) (x4 x5 : Vec F S1x416 .f32) (x6 : Vec F S416x416 .bf16) (x7 : Vec F S1x416 .f32) (x8 : Vec F S416x16 .f32) (x9 : Vec F S1x16 .f32) (x10 : Vec F S16x2 .f32) (x11 : Vec F S1x2 .f32) : Vec F S1024x2 .f32 :=
  View.canon [⟨r1_86, k1_pay1 (mlp_v1064 x0 x1 x2 x3 x4 x5 x6 x7 x8 x9) (View.ld x10 r1_83) (View.ld x11 r1_84)⟩]

end Cert.Proof.KI

end
-- ==== Proof.MlpFrame.lean ====
import proofs.«219071_g10050223472739_week1_w1_120_16_alg».proof.Proof.Common
import proofs.«219071_g10050223472739_week1_w1_120_16_alg».proof.Proof.Gen.KernelIdeal.Launch
import proofs.«219071_g10050223472739_week1_w1_120_16_alg».proof.Proof.Gen.KernelIdeal.Skeleton
import proofs.«219071_g10050223472739_week1_w1_120_16_alg».proof.Proof.Gen.KernelIdeal.Points
import Idealize.ShloMosaic.Lib.Pipeline.FrameBody
import Idealize.ShloMosaic.Lib.Ring
import Idealize.ShloMosaic.Lib.Tactic
import proofs.«219071_g10050223472739_week1_w1_120_16_alg».proof.Proof.MlpOut
set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (Vr : (c : Dev nD) → (b : Ref sig .tc) → Buf (Elt F) ((c : Thread nD τ).loc b))

def Φ1 (c : Dev nD) : sProp 𝕄 :=
  iprop(Pipeline.scopedRest (Ix := HIx 1) (Name := ℕ) (U := UU) (Lvl := ℕ) (Val := Elt F) spec1 c ∗ ∃ r, prngReg c r)

theorem Φ1_eq (c : Dev nD) : (Φ1 (F := F) c : sProp 𝕄)
    = iprop(Pipeline.scopedRest (Ix := HIx 1) (Name := ℕ) (U := UU) (Lvl := ℕ) (Val := Elt F) spec1 c ∗ ∃ r, prngReg c r) := rfl

def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

set_option maxHeartbeats 4000000 in
-- The body reads its twelve operand buffers whole and leaves in each result buffer its one store, which covers it.
theorem sound_kernel1 (c : Dev nD) (E : Set ℕ) (i : grid1.Coords) (x0 x1 x2 x3 x4 x5 x6 x7 x8 x9 x10 x11) {arg1 arg2 arg3 arg4 arg5 arg6 arg7 arg8 arg9 arg10 arg11 arg12 arg13 arg14} (harg1 : Memref.IsWhole arg1) (harg2 : Memref.IsWhole arg2) (harg3 : Memref.IsWhole arg3) (harg4 : Memref.IsWhole arg4) (harg5 : Memref.IsWhole arg5) (harg6 : Memref.IsWhole arg6) (harg7 : Memref.IsWhole arg7) (harg8 : Memref.IsWhole arg8) (harg9 : Memref.IsWhole arg9) (harg10 : Memref.IsWhole arg10) (harg11 : Memref.IsWhole arg11) (harg12 : Memref.IsWhole arg12) (harg13 : Memref.IsWhole arg13) (harg14 : Memref.IsWhole arg14) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11) ∗ owns (c : Thread nD τ) arg14 fullShare (out1_13 x0 x1 x2 x3 x4 x5 x6 x7 x8 x9 x10 x11)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec_parts
  sl_step
  iapply Hk
  isplitl [H0]; · iexists f0; isplitr; swap; iexact H0; ipureintro; rfl
  isplitl [H1]; · iexists f1; isplitr; swap; iexact H1; ipureintro; rfl
  isplitl [H2]; · iexists f2; isplitr; swap; iexact H2; ipureintro; rfl
  isplitl [H3]; · iexists f3; isplitr; swap; iexact H3; ipureintro; rfl
  isplitl [H4]; · iexists f4; isplitr; swap; iexact H4; ipureintro; rfl
  isplitl [H5]; · iexists f5; isplitr; swap; iexact H5; ipureintro; rfl
  isplitl [H6]; · iexists f6; isplitr; swap; iexact H6; ipureintro; rfl
  isplitl [H7]; · iexists f7; isplitr; swap; iexact H7; ipureintro; rfl
  isplitl [H8]; · iexists f8; isplitr; swap; iexact H8; ipureintro; rfl
  isplitl [H9]; · iexists f9; isplitr; swap; iexact H9; ipureintro; rfl
  isplitl [H10]; · iexists f10; isplitr; swap; iexact H10; ipureintro; rfl
  isplitl [H11]; · iexists f11; isplitr; swap; iexact H11; ipureintro; rfl
  isplitl [H12]
  · iexists _; isplitr; swap; iexact H12; ipureintro
    exact View.read_writes_eq_canon _ _ _ (View.cover_of_tiled [⟨r1_86, _⟩] S1024x2.size (by rfl))
  iexists _; isplitr; swap; iexact H13; ipureintro
  exact View.read_writes_eq_canon _ _ _ (View.cover_of_tiled [⟨r1_85, _⟩] S1024x16.size (by rfl))

def dats1 (_ : Fin 1) (c : Dev nD) : Dat τ (Elt F) (HIx 1) ℕ UU ℕ cfg1 c where
  A w := Vr c (Pipeline.arrRef spec1 w)
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => iblk Vr c 5 t
    | ⟨6, _⟩ => iblk Vr c 6 t
    | ⟨7, _⟩ => iblk Vr c 7 t
    | ⟨8, _⟩ => iblk Vr c 8 t
    | ⟨9, _⟩ => iblk Vr c 9 t
    | ⟨10, _⟩ => iblk Vr c 10 t
    | ⟨11, _⟩ => iblk Vr c 11 t
    | ⟨12, _⟩ => out1_12 (iblk Vr c 0 t) (iblk Vr c 1 t) (iblk Vr c 2 t) (iblk Vr c 3 t) (iblk Vr c 4 t) (iblk Vr c 5 t) (iblk Vr c 6 t) (iblk Vr c 7 t) (iblk Vr c 8 t) (iblk Vr c 9 t) (iblk Vr c 10 t) (iblk Vr c 11 t)
    | ⟨13, _⟩ => out1_13 (iblk Vr c 0 t) (iblk Vr c 1 t) (iblk Vr c 2 t) (iblk Vr c 3 t) (iblk Vr c 4 t) (iblk Vr c 5 t) (iblk Vr c 6 t) (iblk Vr c 7 t) (iblk Vr c 8 t) (iblk Vr c 9 t) (iblk Vr c 10 t) (iblk Vr c 11 t)
  Φ _ := Φ1 c
  q _ := fullShare
  owed _ := 0
  recorded _ := {p | (K (F := F)).lev ((c.tc : Thread nD τ), p.1) p.2 ≤ 8}

theorem A_eq1 (c : Dev nD) (w : Fin cfg1.W) : (dats1 Vr 0 c).A w = Vr c (Pipeline.arrRef spec1 w) := by
  dsimp only [dats1]

theorem after1_12 (c : Dev nD) (t : Fin cfg1.N) : (dats1 Vr 0 c).after 12 t = out1_12 (iblk Vr c 0 t) (iblk Vr c 1 t) (iblk Vr c 2 t) (iblk Vr c 3 t) (iblk Vr c 4 t) (iblk Vr c 5 t) (iblk Vr c 6 t) (iblk Vr c 7 t) (iblk Vr c 8 t) (iblk Vr c 9 t) (iblk Vr c 10 t) (iblk Vr c 11 t) := by dsimp only [dats1]
theorem after1_13 (c : Dev nD) (t : Fin cfg1.N) : (dats1 Vr 0 c).after 13 t = out1_13 (iblk Vr c 0 t) (iblk Vr c 1 t) (iblk Vr c 2 t) (iblk Vr c 3 t) (iblk Vr c 4 t) (iblk Vr c 5 t) (iblk Vr c 6 t) (iblk Vr c 7 t) (iblk Vr c 8 t) (iblk Vr c 9 t) (iblk Vr c 10 t) (iblk Vr c 11 t) := by dsimp only [dats1]

-- The body leaves its operands as it finds them: this turns the obligation's precondition into the triple's.
theorem before1 (c : Dev nD) (t : Fin cfg1.N) (w : Fin cfg1.W) (hw : w.val < 12) (d) :
    (dats1 Vr 0 c).before w t d = (dats1 Vr 0 c).after w t := by
  obtain ⟨k, hk⟩ := w
  change k < 12 at hw
  interval_cases k <;>
    exact ((dats1 Vr 0 c).before_in_eq_fetched _ rfl (fun _ => rfl) (fun _ _ _ => rfl)
      (fun t => by dsimp only [dats1, Dat.blockOf, iblk]; try rfl) t d).trans (by dsimp only [dats1, Dat.fetched, Dat.blockOf, iblk]; try rfl)

-- The triple at each grid point, with the invariant framed around it.
theorem body_obligation1 (c : Dev nD) : BodyObligation (dats1 (F := F) Vr 0 c) (defs₀ (F := F)) Variants.none (none : HIx 1) Set.univ := fun t => by
  rw [bigSep_W1, bigSep_W1]
  simp (disch := decide) only [before1 Vr c t]
  dsimp only [dats1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) (iblk Vr c 0 t) (iblk Vr c 1 t) (iblk Vr c 2 t) (iblk Vr c 3 t) (iblk Vr c 4 t) (iblk Vr c 5 t) (iblk Vr c 6 t) (iblk Vr c 7 t) (iblk Vr c 8 t) (iblk Vr c 9 t) (iblk Vr c 10 t) (iblk Vr c 11 t) _ _ _ _ _ _ _ _ _ _ _ _ _ _ _)
  iframe
  isplitl [H12]; · iexists _; iexact H12
  isplitl [H13]; · iexists _; iexact H13
  iintro H
  iframe
  iexact Ho

end Cert.Proof.KI

end
-- ==== Proof.Region.lean ====
import proofs.«219071_g10050223472739_week1_w1_120_16_alg».proof.Proof.MlpFrame
import proofs.«219071_g10050223472739_week1_w1_120_16_alg».proof.Proof.Launch0
import Idealize.ShloMosaic.Lib.Pipeline.Regions
import Idealize.ShloMosaic.Lib.Pipeline.RegionsLoop
import Idealize.ShloMosaic.Lib.Pipeline.FrameSuffix
import Idealize.ShloMosaic.Lib.SparseCore.Threads

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ)

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dats1 (V3 m) 0 c

/-- The buffers at the call's exit: its arrays at their final contents, every other buffer as entered. -/
def W4 (c : Dev nD) : Valuation τ sig (Elt F) :=
  Pipeline.withArrays spec1 c (W3 m c) fun w => (dats1 (V3 m) 0 c).arrAt w cfg1.N
theorem W4_arr (c : Dev nD) (w : Fin cfg1.W) :
    W4 m c (Proc.devRef .tc (Pipeline.arrRef spec1 w)) = (dats1 (V3 m) 0 c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- A buffer that is no result of the call (an array it only reads, or none of its arrays) is after the call what it was before. -/
theorem W4_in (c : Dev nD) (b : Ref sig .tc) (hb : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dats1 (V3 m) 0 c).arrAt_in w (hb w rfl) _).trans (A_eq1 (V3 m) c w))
  · exact W4_of_ne m c b fun w e => h ⟨w, e⟩

/-- @main's arguments. -/
def args : List (Ref sig .tc) := [main_arg0, main_arg1, main_arg2, main_arg3, main_arg4, main_arg5, main_arg6, main_arg7,
  main_arg8, main_arg9, main_arg10, main_arg11, main_arg12, main_arg13]

/-- No host operation writes an argument: each writes one buffer, and that is none of them. -/
theorem args_not_written {b : Ref sig .tc} (hb : b ∈ args) :
    ∀ op ∈ (hostOps0 ++ hostOps1 : List (HloOp τ sig (Elt F))), Proc.devRef .tc b ∉ op.writes := by
  have h : ∀ y : Ref sig .tc, (∀ b ∈ args, b ≠ y) → Proc.devRef (τ := τ) .tc b ≠ Proc.devRef .tc y :=
    fun y hy => StableHlo.devRef_ne_of_ne (hy b hb)
  refine List.forall_iff_forall_mem.mp ?_
  simp only [hostOps0, hostOps1, List.cons_append, List.nil_append, List.Forall, StableHlo.nullary_writes,
    StableHlo.unary_writes, StableHlo.binary_writes, StableHlo.reshape_writes, Finset.mem_singleton]
  repeat' apply And.intro
  all_goals exact h _ (by decide)

/-- An argument ends as launched: the call at most reads it, no host operation writes it, the gather's output is another buffer. -/
theorem W4_arg (c : Dev nD) {b : Ref sig .tc} (hb : b ∈ args) : W4 m c (Proc.devRef .tc b) = m ((c : Thread nD τ).loc b) :=
  (W4_in m c b (by revert b; decide)).trans <|
    (StableHlo.after_of_forall_not_mem hostOps1 _ fun op h => args_not_written hb op (List.mem_append_right _ h)).trans <|
    (Function.update_of_ne (StableHlo.devRef_ne_of_ne (by revert b; decide)) _ _).trans <|
    StableHlo.after_of_forall_not_mem hostOps0 _ fun op h => args_not_written hb op (List.mem_append_left _ h)

abbrev Rr (c : Dev nD) : sProp 𝕄 :=
  iprop((∃ r, prngReg c r) ∗ ∃ W, ⌜(K (F := F)).WBelow (T c) W 8⌝ ∗ owes (T c) (0 : CellTallies nD τ sig (HIx 1)) W)

set_option backward.isDefEq.respectTransparency.types false in
def reg1 : Pipeline.RegionSeg (pcfgs (F := F)) adm (pdats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ (K (F := F)).L (K (F := F)).lev 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, %hW, HO⟩; iexists W; isplitr; · ipureintro; exact fun p hp => Or.inl (hW p hp)
    iexact HO
  hin c := by
    rw [show (pdats m 0 c).Φ 0 = Φ1 (F := F) c from rfl, Φ1_eq]
    iintro ⟨Hp, -, Hr⟩
    isplitl [Hr]; · iexact Hr
    iexact Hp
  hout c := by
    rw [Pipeline.ownSems0_none, show (pdats m 0 c).Φ (Fin.last _) = Φ1 (F := F) c from rfl, Φ1_eq]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V3 m c) (fun b => W4 m c (Proc.devRef .tc b)) ((pdats m 0 c).arrAt · cfg1.N) (fun w => (W4_arr m c w).symm)
      fun b hb => W4_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

set_option backward.isDefEq.respectTransparency.types false in
theorem region_wp (d : Dev nD) (Φ : PUnit → sProp 𝕄) :
    iprop((iprop(boundary (T d) ∗ (reg1 m).post d) -∗ Φ ⟨⟩) ∗ boundary (T d) ∗ (reg1 m).pre d ∗ levAts (K (F := F)).L (K (F := F)).lev
        ∗ Pipeline.cellsGhost cfgs (EP (F := F)) 0 d ∗ Pipeline.toksInit cfgs (EP (F := F)) 0 d)
      ⊢ wp frame (wpE ((K (F := F)).defs (D (F := F))) 𝒱 (T d) none) Set.univ
          (Prog.lift (.customCall (SparseCore.inner (Pipeline.entry 0)) ()) >>= fun _ => pure ⟨⟩) Φ := by
  have hprog : (Prog.lift (.customCall (SparseCore.inner (Pipeline.entry 0)) ()) >>= fun _ => pure ⟨⟩
        : Prog (TpuEff nD τ sig (Elt F) (SparseCore.Sig (ΛP (F := F)) 1) .tc) PUnit)
      = SparseCore.liftProg (.op (.customCall (Pipeline.entry 0) ()) fun _ => .ret ⟨⟩) := rfl
  rw [hprog]
  refine BIBase.Entails.trans ?_ ((K (F := F)).wp_liftProg (D (F := F)) 𝒱 (T d) Set.univ none _ Φ)
  have h := Pipeline.RegionSeg.wp (pcfgs (F := F)) adm (pdats m) (none : HIx 1) cellOf_inj (EP (F := F)) defs₀ 𝒱₀
    (K (F := F)).L (K (F := F)).lev (p := 0) (reg1 m) d none (fun u h => nomatch h) (fun _ => .ret ⟨⟩) Φ
  refine BIBase.Entails.trans ?_ h
  iintro ⟨Hk, H⟩
  isplitl [Hk]
  · iintro H
    iapply (le_wp_ret _ _)
    iapply Hk; iexact H
  iexact H

end Cert.Proof.KI

end
-- ==== Proof.Fin.lean ====
import proofs.«219071_g10050223472739_week1_w1_120_16_alg».proof.Proof.Launch0
import Idealize.ShloMosaic.Lib.Pipeline.Frame

noncomputable section

namespace Cert.Proof.KI

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws

variable {F : FTy → Type}

local notation "𝕄" => MT nD τ sig (HIx 1) (Elt F) ℕ UU ℕ

variable (Wf : Dev nD → Valuation τ sig (Elt F))

/-- At the end every buffer of the device is held whole at its final contents. -/
abbrev FIN (d : Dev nD) : sProp 𝕄 := StableHlo.held (T d) (Pipeline.ucRefs τ sig) (Wf d)

def fq (d : Dev nD) (s' : Phys nD τ sig (Elt F)) : Prop := ∀ b ∈ Pipeline.ucRefs τ sig, s'.mem.mem (d, b) = Wf d b

/-- A buffer held whole is in memory at its contents. -/
theorem hfin (d : Dev nD) (s' : Phys nD τ sig (Elt F)) : iprop(FIN Wf d ∗ SI s') ⊢ (⌜fq Wf d s'⌝ : sProp 𝕄) :=
  sep_symm.trans (SI_pointsTo_bufs_agree (qs := fun _ => fullShare) (Pipeline.ucRefs τ sig))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Proof.KI

end
-- ==== Proof.Launch2.lean ====
import proofs.«219071_g10050223472739_week1_w1_120_16_alg».proof.Proof.Launch1
import proofs.«219071_g10050223472739_week1_w1_120_16_alg».proof.Proof.Split
import proofs.«219071_g10050223472739_week1_w1_120_16_alg».proof.Proof.Region
import proofs.«219071_g10050223472739_week1_w1_120_16_alg».proof.Proof.Fin

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev e' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev S3 : Finset (DevRef τ sig) := {e', i', o'}

omit [FloatOps F] [Named F] in
/-- The buffers held at `W`: the gather call's three arrays, and the rest. -/
theorem held_three (d : Dev nD) (W : Valuation τ sig (Elt F)) : (held (T d) (Pipeline.ucRefs τ sig) W : sProp 𝕄)
    = iprop(((eLoc d ↦{fullShare} W e') ∗ (iLoc d ↦{fullShare} W i') ∗ oLoc d ↦{fullShare} W o') ∗ held (T d) (Pipeline.ucRefs τ sig \ S3) W) := by
  rw [held_sub_split (T d) (show S3 ⊆ Pipeline.ucRefs τ sig by decide) W]
  unfold held S3
  rw [SparseCore.bigSep_insert' (by decide), SparseCore.bigSep_insert' (by decide), bigSep_singleton]

theorem W1_e (d : Dev nD) : W1 m d e' = embT m d := by
  unfold embT; dsimp only [W1, hostOps0]; after_results; try rfl
theorem W1_i (d : Dev nD) : W1 m d i' = idsF m d := by
  unfold idsF; dsimp only [W1, hostOps0]; after_results; rfl
theorem W1_o (d : Dev nD) : W1 m d o' = m (oLoc d) := by
  dsimp only [W1, hostOps0]; after_results; try rfl

theorem W2_e (d : Dev nD) : W2 m d e' = embT m d := by
  unfold W2; rw [Function.update_of_ne (show e' ≠ o' by decide)]; exact W1_e m d
theorem W2_i (d : Dev nD) : W2 m d i' = idsF m d := by
  unfold W2; rw [Function.update_of_ne (show i' ≠ o' by decide)]; exact W1_i m d
theorem W2_o (d : Dev nD) : W2 m d o' = gOut m d (m (oLoc d)) := by
  unfold W2; exact Function.update_self _ _ _
theorem W2_rest (d : Dev nD) : ∀ b ∈ Pipeline.ucRefs τ sig \ S3, W1 m d b = W2 m d b := fun b hb => by
  unfold W2
  rw [Function.update_of_ne]
  intro e; subst e
  exact (Finset.mem_sdiff.mp hb).2 (by decide)

theorem tcSt_one (d : Dev nD) : ∃ R : sProp 𝕄,
    (K (F := F)).tcSt EH d 1 = iprop((∃ W, ⌜(K (F := F)).WBelow (T d) W (8 * 1)⌝ ∗ owes (T d) (0 : CellTallies nD τ sig (HIx 1)) W) ∗ R) :=
  ⟨_, by unfold SparseCore.Cfg.tcSt; rw [(K (F := F)).Otc_end d le_rfl]⟩

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN (W4 m) d) := by
  obtain ⟨R, hR⟩ := tcSt_one (F := F) d
  rw [main_eq]
  unfold SparseCore.Cfg.tcRes G
  rw [show (fun b => m ((SparseCore.T d).loc b)) = (fun b => W0 m d (Proc.devRef .tc b)) from rfl, Pipeline.unscopedBufs_held]
  iintro ⟨#Hctx, Hst, ⟨Hb, Hheld, -, Hprng⟩, ⟨Hg, Ht⟩⟩
  ihave #Hlev := ((K (F := F)).ctx_levAts (EH := EH) (P := P m) κ) $$ Hctx
  iapply (StableHlo.wp_seq 𝒱 none Set.univ d (Pipeline.ucRefs τ sig) _ hostOps0
      (fun op h => Pipeline.sub_ucRefs op ((List.forall_iff_forall_mem.mp hostOps0_sub) op h))
      (List.forall_iff_forall_mem.mp hostOps0_fresh) (W0 m d)) $$ [Hb Hheld]
  · iframe
  iintro ⟨Hb, Hheld⟩
  ihave Hh := (Entails.of_eq (by rw [held_three, W1_e, W1_i, W1_o] : (held (T d) (Pipeline.ucRefs τ sig) (W1 m d) : sProp 𝕄) = _)) $$ Hheld
  icases Hh with ⟨H3, Hrest⟩
  ihave Hsplit := (callSplit m d) $$ H3
  icases Hsplit with ⟨Hsts, Hback⟩
  rw [wp_bind]
  iapply ((K (F := F)).wp_run (D (F := F)) 𝒱 (EH := EH) (P := P m) κ d 0) $$ [Hst Hsts Hb Hrest Hback Hprng Hg Ht]
  isplitr; · iexact Hctx
  isplitl [Hst]; · iexact Hst
  iframe Hsts
  iintro ⟨Hst, Hdn⟩
  ihave H3 := Hback $$ Hdn
  ihave Hheld := (Entails.of_eq (by rw [held_three d (W2 m d), W2_e, W2_i, W2_o, ← held_congr (T d) (W2_rest m d)] :
      _ = (held (T d) (Pipeline.ucRefs τ sig) (W2 m d) : sProp 𝕄))) $$ [H3 Hrest]
  · iframe
  iapply (StableHlo.wp_seq 𝒱 none Set.univ d (Pipeline.ucRefs τ sig) _ hostOps1
      (fun op h => Pipeline.sub_ucRefs op ((List.forall_iff_forall_mem.mp hostOps1_sub) op h))
      (List.forall_iff_forall_mem.mp hostOps1_fresh) (W2 m d)) $$ [Hb Hheld]
  · iframe
  iintro ⟨Hb, Hheld⟩
  ihave Hst' := (Entails.of_eq (show (K (F := F)).tcSt EH d ((0 : Fin 1).val + 1) = _ from hR)) $$ Hst
  icases Hst' with ⟨HO, HR⟩
  ihave Hg' := (Entails.of_eq (bigSep_univ_of_subsingleton (Φ := fun p : Fin 1 => Pipeline.cellsGhost cfgs (EP (F := F)) p d) (0 : Fin 1))) $$ Hg
  ihave Ht' := (Entails.of_eq (bigSep_univ_of_subsingleton (Φ := fun p : Fin 1 => Pipeline.toksInit cfgs (EP (F := F)) p d) (0 : Fin 1))) $$ Ht
  have hreg := region_wp m d (fun _ => iprop(iprop((∃ W, ⌜(K (F := F)).WBelow (T d) W (8 * 1)⌝ ∗ owes (T d) (0 : CellTallies nD τ sig (HIx 1)) W) ∗ R) ∗ FIN (W4 m) d))
  dsimp only [reg1, Rr] at hreg
  rw [hR]
  iapply hreg $$ [Hb Hheld HO HR Hprng Hg' Ht']
  isplitl [HR]
  · iintro ⟨Hb, Hheld, Hp, HO⟩
    iframe
  iframe Hb Hheld HO Hlev Hg' Ht'
  iexists _; iexact Hprng

end Cert.Proof.KI

end
-- ==== Proof.RunMain0.lean ====
import proofs.«219071_g10050223472739_week1_w1_120_16_alg».proof.Proof.Launch2

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ) (ρ : Dev nD → PrngReg)

def QC : PUnit × MemSt nD τ sig (Elt F) → Prop := fun r => ∀ d : Dev nD, ∀ b ∈ Pipeline.ucRefs τ sig, r.2.mem (d, b) = W4 m d b

/-- At the end an argument is in memory as launched. -/
theorem arg_end {r : PUnit × MemSt nD τ sig (Elt F)} (h : QC m r) (c : Dev nD) {b : Ref sig .tc} (hb : b ∈ args) :
    r.2.mem ((c.tc : Thread nD τ).loc b) = m ((c.tc : Thread nD τ).loc b) :=
  (h c _ (mem_uc b (by revert b; decide))).trans (W4_arg m c hb)

theorem frame_of_run
    (hrun : θ_run (Cert.KernelIdeal.defs (F := F)) (Cert.KernelIdeal.threads (F := F)) ⟨m, fun _ => 0, ρ⟩ (QC m)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (Cert.KernelIdeal.defs (F := F)) _ _).mono (fun r h c => by
    repeat' apply And.intro
    all_goals exact arg_end m h c (by decide)) hrun

theorem results_of_run
    (hrun : θ_run (Cert.KernelIdeal.defs (F := F)) (Cert.KernelIdeal.threads (F := F)) ⟨m, fun _ => 0, ρ⟩ (QC m)) :
    θ_run (Cert.KernelIdeal.defs (F := F)) (Cert.KernelIdeal.threads (F := F)) ⟨m, fun _ => 0, ρ⟩ (fun r => ∀ c : Dev nD,
      r.2.mem ((c.tc : Thread nD τ).loc main_v32_0) = (dats1 (V3 m) 0 c).arrAt 12 cfg1.N
      ∧ r.2.mem ((c.tc : Thread nD τ).loc main_v32_1) = (dats1 (V3 m) 0 c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (Cert.KernelIdeal.defs (F := F)) _ _).mono (fun r h c =>
    ⟨(h c _ (mem_uc _ (by decide))).trans (W4_arr m c 12), (h c _ (mem_uc _ (by decide))).trans (W4_arr m c 13), by
      repeat' apply And.intro
      all_goals exact arg_end m h c (by decide)⟩) hrun

end Cert.Proof.KI

end
-- ==== Proof.MlpSpec.lean ====
import proofs.«219071_g10050223472739_week1_w1_120_16_alg».proof.Proof.Spec
import proofs.«219071_g10050223472739_week1_w1_120_16_alg».proof.KernelIdeal
import Idealize.ShloMosaic.Lib.ValueIdx

noncomputable section

namespace Cert.Proof.KI

open Cert.KernelIdeal
open Idealize.ShloMosaic Idealize.ShloMosaic.ValueIdx

def rowAt (t : Fin 16) (bb : Fin 1024) : Fin 16384 := ⟨1024 * t.val + bb.val, by have := t.isLt; have := bb.isLt; omega⟩

structure BlocksOK (a : Cert.Spec.Args) (t : Fin 16)
    (x0 : Vec Ideal S3328x1024 .f32) (x1 : Vec Ideal S26x100x16 .f32) (x2 : Vec Ideal S26x16 .f32) (x3 : Vec Ideal S26x16x416 .bf16)
    (x4 x5 : Vec Ideal S1x416 .f32) (x6 : Vec Ideal S416x416 .bf16) (x7 : Vec Ideal S1x416 .f32) (x8 : Vec Ideal S416x16 .f32)
    (x9 : Vec Ideal S1x16 .f32) (x10 : Vec Ideal S16x2 .f32) (x11 : Vec Ideal S1x2 .f32) : Prop where
  h0 : ∀ (c : Fin 26) (d : Fin 100) (bb : Fin 1024),
    x0 (ix2 (⟨128 * c.val + d.val, by have := c.isLt; have := d.isLt; omega⟩ : Fin 3328) bb) = Cert.Spec.x a c (rowAt t bb) d
  h1 : ∀ (c : Fin 26) (d : Fin 100) (o : Fin 16), x1 (ix3 c d o) = Cert.Spec.wfold a c d o
  h2 : ∀ (c : Fin 26) (o : Fin 16), x2 (ix2 c o) = Cert.Spec.cbfold a c o
  h3 : ∀ (c : Fin 26) (o : Fin 16) (j : Fin 416), x3 (ix3 c o j) = if j.val = 16 * c.val + o.val then (1 : EReal) else 0
  h4 : ∀ j : Fin 416, x4 (ix2 (0 : Fin 1) j) = a.aS j
  h5 : ∀ j : Fin 416, x5 (ix2 (0 : Fin 1) j) = a.aB j
  h6 : ∀ (j k : Fin 416), x6 (ix2 j k) = a.W1 j k
  h7 : ∀ k : Fin 416, x7 (ix2 (0 : Fin 1) k) = a.b1 k
  h8 : ∀ (k : Fin 416) (o : Fin 16), x8 (ix2 k o) = a.W2 k o
  h9 : ∀ o : Fin 16, x9 (ix2 (0 : Fin 1) o) = a.b2 o
  h10 : ∀ (o : Fin 16) (q : Fin 2), x10 (ix2 o q) = a.hW o q
  h11 : ∀ q : Fin 2, x11 (ix2 (0 : Fin 1) q) = a.hb q

end Cert.Proof.KI

end
-- ==== Proof.KernelVals.lean ====
import proofs.«219071_g10050223472739_week1_w1_120_16_alg».proof.Proof.Launch0
import proofs.«219071_g10050223472739_week1_w1_120_16_alg».proof.Proof.MlpSpec
import proofs.«219071_g10050223472739_week1_w1_120_16_alg».proof.Proof.SpecArrays
import Idealize.ShloMosaic.Lib.StableHlo.Run
import Idealize.ShloMosaic.Lib.ValueIdx
import Idealize.ShloMosaic.Lib.Pipeline.Value
import Idealize.ShloMosaic.PureOps.Ideal.Laws

noncomputable section

namespace Cert.Proof.KI

open Cert.KernelIdeal Cert.KernelIdeal.Gen
open Idealize.ShloMosaic Idealize.ShloMosaic.TcCoe Idealize.ShloMosaic.ValueIdx
open Idealize.SL Idealize.SL.Sem

section Terms
variable {F : FTy → Type} [FloatOps F] [Named F]
variable (m : (ℓ : Loc nD τ sig) → Buf (Elt F) ℓ)

-- Before the second stretch of host operations only the transposed table, the flat ids and the gathered rows have been written.
theorem W2_arg (c : Dev nD) (r : Ref sig .tc) (h : r ∉ [main_v2, main_v1, main_v0]) :
    W2 m c (Proc.devRef .tc r) = m ((c : Thread nD τ).loc r) := by
  simp only [List.mem_cons, List.not_mem_nil, or_false, not_or] at h
  unfold W2
  rw [Function.update_of_ne (StableHlo.devRef_ne_of_ne h.1)]
  show StableHlo.after hostOps0 (W0 _ _) _ = _
  simp only [StableHlo.after_cons, StableHlo.after_nil]
  rw [StableHlo.reshape_result_ne (h := h.2.1), StableHlo.unary_result_ne (h := h.2.2)]

theorem V3_v2 (c : Dev nD) : V3 m c main_v2 = gOut m c (m (oLoc c)) := by
  show StableHlo.after hostOps1 (W2 m c) (Proc.devRef .tc main_v2) = _
  after_results_simp
  unfold W2
  rw [Function.update_self]

end Terms

def arraysOf (m : (ℓ : Loc nD τ sig) → Buf (Elt Ideal) ℓ) (c : Dev nD) : Cert.Spec.Arrays :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9), m ((c : Thread nD τ).loc main_arg10), m ((c : Thread nD τ).loc main_arg11),
    m ((c : Thread nD τ).loc main_arg12), m ((c : Thread nD τ).loc main_arg13)⟩

end Cert.Proof.KI

end
-- ==== Proof.KernelVals2.lean ====
import proofs.«219071_g10050223472739_week1_w1_120_16_alg».proof.Proof.KernelVals
import Idealize.ShloMosaic.Lib.ValueLayout
import Idealize.ShloMosaic.Lib.Pipeline.Value
import Idealize.ShloMosaic.Lib.Affine
import Idealize.ShloMosaic.PureOps.Ideal.Laws

noncomputable section

namespace Cert.Proof.KI

open Cert.KernelIdeal Cert.KernelIdeal.Gen
open Idealize.ShloMosaic Idealize.ShloMosaic.TcCoe Idealize.ShloMosaic.ValueIdx
open Idealize.SL Idealize.SL.Sem

-- The batched contraction of a 26 × 100 with a 26 × 100 × 16 array over the middle axis, entry by entry.
theorem cbdot_apply (A : FVec Ideal S26x100 .f32) (B : FVec Ideal S26x100x16 .f32) (g : Fin 26) (o : Fin 16) :
    Host.dotGeneral dot_S26x100_S26x100x16_S26x16_1_1_n_2_0_0 none A B (ix2 g o) = ∑ d : Fin 100, A (ix2 g d) * B (ix3 g d o) := by
  show FloatOps.dotGeneral _ none _ A B (ix2 g o) = _
  rw [Ideal.dotGeneral_apply, ← Equiv.sum_comp (contrEquiv1 dot_S26x100_S26x100x16_S26x16_1_1_n_2_0_0 100 rfl rfl).symm]
  refine Finset.sum_congr rfl fun d _ => ?_
  have cv := contrEquiv1_symm_val dot_S26x100_S26x100x16_S26x16_1_1_n_2_0_0 100 rfl rfl d
  refine congrArg₂ (· * ·) (congrArg A (funext fun ax => Fin.ext ?_)) (congrArg B (funext fun ax => Fin.ext ?_))
  · match ax with
    | ⟨0, _⟩ => rfl
    | ⟨1, _⟩ => exact cv
  · match ax with
    | ⟨0, _⟩ => rfl
    | ⟨1, _⟩ => exact cv
    | ⟨2, _⟩ => rfl

-- The pattern "row position plus zero equals column position", widened to a float, is the identity matrix.
theorem eye_at (n : ℕ) (hn : n ≤ 2 ^ 32) (h : S_.BroadcastsInDim ⟨2, ![n, n]⟩ ![]) (i k : Fin n) :
    (uitofp .bf16 (cmpi .eq (addi (iotaInDim ⟨2, ![n, n]⟩ 32 0) (broadcastInDim ⟨2, ![n, n]⟩ ![] h (constantI S_ 32 0#32)))
      (iotaInDim ⟨2, ![n, n]⟩ 32 1)) : FVec Ideal ⟨2, ![n, n]⟩ .bf16) (ix2 i k) = if i.val = k.val then (1 : EReal) else 0 := by
  show (((IntOp.cmpi .eq (BitVec.ofNat 32 i.val + 0#32) (BitVec.ofNat 32 k.val)).toNat : ℝ) : EReal) = _
  have e : BitVec.ofNat 32 i.val = BitVec.ofNat 32 k.val ↔ i.val = k.val := by
    rw [← BitVec.toNat_inj, BitVec.toNat_ofNat, BitVec.toNat_ofNat, Nat.mod_eq_of_lt (by omega), Nat.mod_eq_of_lt (by omega)]
  by_cases hik : i.val = k.val <;> simp [IntOp.cmpi, e, hik]

variable (m : (ℓ : Loc nD τ sig) → Buf (Elt Ideal) ℓ) (c : Dev nD)

-- Row 128 g + dd of the gathered rows holds, at column col, coordinate dd of the table row that batch row col selects in column g.
theorem v2_at (g : Fin 26) (dd : Fin 100) (col : Fin 16384) (hb : 128 * g.val + dd.val < 3328) :
    (V3 m c main_v2 : FVec Ideal S3328x16384 .f32) (ix2 (⟨128 * g.val + dd.val, hb⟩ : Fin 3328) col)
      = Cert.Spec.x (arraysOf m c).args g col dd := by
  have hr : (128 * g.val + dd.val) % 128 = dd.val := by omega
  have hq : (128 * g.val + dd.val) / 128 = g.val := by omega
  rw [V3_v2]
  unfold gOut
  rw [dif_pos (show ((ix2 (⟨128 * g.val + dd.val, hb⟩ : Fin 3328) col) 0).val % 128 < 100 from by
    show (128 * g.val + dd.val) % 128 < 100
    omega)]
  refine (transpose_ix3_021_apply (m ((SparseCore.T c).loc main_arg1) : FVec Ideal S26x100000x100 .f32)
    transposes_S26x100000x100_S26x100x100000_0_2_1 _ _ _).trans ?_
  show _ = (m ((c : Thread nD τ).loc main_arg1) : FVec Ideal S26x100000x100 .f32)
    (ix3 g ⟨((m ((c : Thread nD τ).loc main_arg0) : IVec S26x16384 32) (ix2 g col)).toNat % 100000, Nat.mod_lt _ (by decide)⟩ dd)
  congr 1
  funext a; apply Fin.ext
  match a with
  | ⟨0, _⟩ => exact hq
  | ⟨1, _⟩ =>
    show ((idsF m c : IVec S425984 32) (ix1 _)).toNat % 100000 = _
    unfold idsF
    rw [shapeCast_apply _ shapeCasts_S26x16384_S425984 _ (ix2 g col) (by
      rw [Shape.rowMajor_val_two, Shape.rowMajor_val_one]
      show g.val * 16384 + col.val = (128 * g.val + dd.val) / 128 * 16384 + col.val
      rw [hq])]
  | ⟨2, _⟩ => exact hr

-- Each other input array of the dense stage is a short chain of host operations over argument buffers; read at an index it is the specification's.
theorem v5_at (g : Fin 26) (dd : Fin 100) (o : Fin 16) :
    (V3 m c main_v5 : FVec Ideal S26x100x16 .f32) (ix3 g dd o) = Cert.Spec.wfold (arraysOf m c).args g dd o := by
  show StableHlo.after hostOps1 (W2 m c) (Proc.devRef .tc main_v5) _ = _
  after_results_simp
  rw [W2_arg m c _ (by decide), W2_arg m c _ (by decide)]
  show FloatOps.mulf _ _ = _
  rw [broadcastInDim_apply _ _ _ _ (ix3 g dd (0 : Fin 1)) (fun a => by fin_cases a <;> rfl),
    broadcastInDim_apply _ _ _ _ (ix2 g dd) (fun a => by fin_cases a <;> rfl)]
  rfl

theorem v7_at (g : Fin 26) (o : Fin 16) :
    (V3 m c main_v7 : FVec Ideal S26x16 .f32) (ix2 g o) = Cert.Spec.cbfold (arraysOf m c).args g o := by
  show StableHlo.after hostOps1 (W2 m c) (Proc.devRef .tc main_v7) _ = _
  after_results_simp
  rw [W2_arg m c _ (by decide), W2_arg m c _ (by decide), W2_arg m c _ (by decide)]
  show FloatOps.addf _ _ = _
  rw [cbdot_apply]
  rfl

-- In the 26 × 16 × 26 × 16 layout entry (g, o, a, b) is "g = a" times "o = b"; flattening the last two axes sends (a, b) to 16 a + b.
theorem v25_at (g : Fin 26) (o : Fin 16) (j : Fin 416) :
    (V3 m c main_v25 : FVec Ideal S26x16x416 .bf16) (ix3 g o j) = if j.val = 16 * g.val + o.val then (1 : EReal) else 0 := by
  show StableHlo.after hostOps1 (W2 m c) (Proc.devRef .tc main_v25) _ = _
  after_results_simp
  refine (shapeCast_apply _ shapeCasts_S26x16x26x16_S26x16x416 _
    (ix4 g o (Cert.Spec.colOf j) (Cert.Spec.outOf j)) (by
      rw [Shape.rowMajor_val_four, Shape.rowMajor_val_three]
      show ((g.val * 16 + o.val) * 26 + j.val / 16) * 16 + j.val % 16 = (g.val * 16 + o.val) * 416 + j.val
      omega)).trans ?_
  show FloatOps.mulf _ _ = _
  rw [broadcastInDim_apply _ _ _ _ (ix4 g (0 : Fin 1) (Cert.Spec.colOf j) (0 : Fin 1))
      (fun a => by fin_cases a <;> rfl),
    broadcastInDim_apply _ _ _ _ (ix2 g (Cert.Spec.colOf j)) (fun a => by fin_cases a <;> rfl),
    broadcastInDim_apply _ _ _ _ (ix4 (0 : Fin 1) o (0 : Fin 1) (Cert.Spec.outOf j))
      (fun a => by fin_cases a <;> rfl),
    broadcastInDim_apply _ _ _ _ (ix2 o (Cert.Spec.outOf j)) (fun a => by fin_cases a <;> rfl),
    eye_at 26 (by decide) bcast_S_S26x26, eye_at 16 (by decide) bcast_S_S16x16]
  show (if g.val = j.val / 16 then (1 : EReal) else 0) * (if o.val = j.val % 16 then (1 : EReal) else 0) = _
  rw [ite_zero_mul_ite_zero, one_mul]
  exact if_congr (by omega) rfl rfl

-- The remaining inputs are argument buffers: as they are, as one row, or rounded to the narrower format.
theorem params_at :
    (∀ j, (V3 m c main_v26 : FVec Ideal S1x416 .f32) (ix2 (0 : Fin 1) j) = (arraysOf m c).args.aS j)
    ∧ (∀ j, (V3 m c main_v27 : FVec Ideal S1x416 .f32) (ix2 (0 : Fin 1) j) = (arraysOf m c).args.aB j)
    ∧ (∀ j k, (V3 m c main_v28 : FVec Ideal S416x416 .bf16) (ix2 j k) = (arraysOf m c).args.W1 j k)
    ∧ (∀ k, (V3 m c main_v29 : FVec Ideal S1x416 .f32) (ix2 (0 : Fin 1) k) = (arraysOf m c).args.b1 k)
    ∧ (∀ k o, (V3 m c main_arg10 : FVec Ideal S416x16 .f32) (ix2 k o) = (arraysOf m c).args.W2 k o)
    ∧ (∀ o, (V3 m c main_v30 : FVec Ideal S1x16 .f32) (ix2 (0 : Fin 1) o) = (arraysOf m c).args.b2 o)
    ∧ (∀ o q, (V3 m c main_arg12 : FVec Ideal S16x2 .f32) (ix2 o q) = (arraysOf m c).args.hW o q)
    ∧ (∀ q, (V3 m c main_v31 : FVec Ideal S1x2 .f32) (ix2 (0 : Fin 1) q) = (arraysOf m c).args.hb q) := by
  refine ⟨?_, ?_, ?_, ?_, ?_, ?_, ?_, ?_⟩ <;> intros <;> dsimp only [V3, W3] <;> after_results_simp <;> rw [W2_arg m c _ (by decide)] <;>
    first | exact shapeCast_a_1a_apply _ _ _ _ | rfl

end Cert.Proof.KI

end
-- ==== Proof.MlpCol.lean ====
import proofs.«219071_g10050223472739_week1_w1_120_16_alg».proof.Proof.MlpSpec
import proofs.«219071_g10050223472739_week1_w1_120_16_alg».proof.Proof.Preserves
import Idealize.ShloMosaic.Lib.Pipeline.Value
import Idealize.ShloMosaic.Lib.ValueLayout
import Idealize.ShloMosaic.PureOps.Ideal.Laws

noncomputable section

namespace Cert.Proof.KI

open Idealize.ShloMosaic Idealize.ShloMosaic.ValueIdx
open Cert.KernelIdeal

theorem inb_slab (c : Fin 26) : ∀ a, (![128 * c.val, 0] : Fin 2 → Nat) a + S100x1024.size a ≤ S3328x1024.size a :=
  Fin.forall_fin_two.2 ⟨(by have := c.isLt; omega : 128 * c.val + 100 ≤ 3328), Nat.le_refl 1024⟩

/-- Member c of a stack of 26 arrays lies inside the stack. -/
theorem inb_member (c : Fin 26) (a b : ℕ) : ∀ ax, (![c.val, 0, 0] : Fin 3 → Nat) ax + (![1, a, b] : Fin 3 → Nat) ax ≤ (![26, a, b] : Fin 3 → Nat) ax := by
  intro ax
  have := c.isLt
  match ax with
  | ⟨0, _⟩ => show c.val + 1 ≤ 26; omega
  | ⟨1, _⟩ => show 0 + a ≤ a; omega
  | ⟨2, _⟩ => show 0 + b ≤ b; omega

theorem slices_bias (c : Fin 26) : S26x16.Slices ![c.val, 0] S1x16 :=
  ⟨rfl, Fin.forall_fin_two.2 ⟨(by have := c.isLt; omega : c.val + 1 ≤ 26), Nat.le_refl 16⟩⟩

/-- The 100 rows of the gathered block that hold column c's embedding coordinates. -/
abbrev rSlab (c : Fin 26) : Rect S3328x1024 := Rect.unit (s := S3328x1024) ![128 * c.val, 0] S100x1024.size (inb_slab c)
/-- The c-th of the 26 first-layer matrices. -/
abbrev rMat (c : Fin 26) : Rect S26x100x16 := Rect.unit (s := S26x100x16) ![c.val, 0, 0] S1x100x16.size (inb_member c 100 16)
/-- The c-th of the 26 placement blocks. -/
abbrev rPlace (c : Fin 26) : Rect S26x16x416 := Rect.unit (s := S26x16x416) ![c.val, 0, 0] S1x16x416.size (inb_member c 16 416)

section Stages
variable {F : FTy → Type} [FloatOps F] [Named F] [Facts₀]
open Facts₀

/-- The sums over the slab's 100 coordinates times the named 1/100, as one row. -/
def colMean (z : FVec F S100x1024 .f32) : FVec F S1x1024 .f32 :=
  mulf (shapeCast S1x1024 (multiReduction .add [0] S1024 z 0x00000000#32 reduces_S100x1024_S1024 (.inl rfl) rfl) shapeCasts_S1024_S1x1024)
    (broadcast S1x1024 (Named.named κ "inv_100" 0x3C23D70A#32))

/-- Layer norm over the 100 coordinates, the variance taken as mean of squares minus squared mean. -/
def colNorm (x : FVec F S100x1024 .f32) : FVec F S100x1024 .f32 :=
  mulf (subf x (broadcastTo S100x1024 (colMean x) broadcasts_S1x1024_S100x1024))
    (broadcastTo S100x1024 (rsqrt (addf (subf (colMean (mulf x x)) (mulf (colMean x) (colMean x)))
      (broadcast S1x1024 (Scalar.ofBits .f32 0x3727C5AC#32)))) broadcasts_S1x1024_S100x1024)

/-- The column's linear layer: the normalised rows against its matrix, plus its row of the bias table. -/
def colLin (c : Fin 26) (v1 : FVec F S26x16 .f32) (xn : FVec F S100x1024 .f32) (w : Vec F S1x100x16 .f32) : FVec F S1024x16 .f32 :=
  addf (matmul dot_S100x1024_S100x16_S1024x16_0_0_1_1_n_n none xn (shapeCast S100x16 w shapeCasts_S1x100x16_S100x16)
      (constant S1024x16 .f32 0x00000000#32))
    (broadcastTo S1024x16 (extractStridedSlice S1x16 ![c.val, 0] v1 (slices_bias c)) broadcasts_S1x16_S1024x16)

/-- GELU through erf, (g / 2) · (1 + erf (g / √2)), rounded to the narrower format. -/
def colGelu (g : FVec F S1024x16 .f32) : FVec F S1024x16 .bf16 :=
  truncf .bf16 (mulf (mulf (broadcast S1024x16 (Scalar.ofBits .f32 0x3F000000#32)) g)
    (addf (broadcast S1024x16 (Scalar.ofBits .f32 0x3F800000#32)) (erf (mulf g (broadcast S1024x16 (Scalar.ofBits .f32 0x3F3504F3#32))))))
    bitsLt_bf16_f32

/-- The column's 16 outputs scattered to their places among the 416 features and added to the running sum. -/
def colPlace (acc : FVec F S1024x416 .f32) (g : FVec F S1024x16 .bf16) (p : Vec F S1x16x416 .bf16) : FVec F S1024x416 .f32 :=
  addf acc (matmul dot_S1024x16_S16x416_S1024x416_1_0_0_1_n_n none g (shapeCast S16x416 p shapeCasts_S1x16x416_S16x416)
    (constant S1024x416 .f32 0x00000000#32))

/-- What column c adds to the running sum. -/
def colStep (c : Fin 26) (x0 : Vec F S3328x1024 .f32) (x1 : Vec F S26x100x16 .f32) (v1 : FVec F S26x16 .f32)
    (x3 : Vec F S26x16x416 .bf16) (acc : FVec F S1024x416 .f32) : FVec F S1024x416 .f32 :=
  colPlace acc (colGelu (colLin c v1 (colNorm (shapeCast S100x1024 (View.ld x0 (rSlab c)) shapeCasts_S100x1024_S100x1024))
    (View.ld x1 (rMat c)))) (View.ld x3 (rPlace c))

/-- The running sum after columns 0 … n − 1, starting from zero. -/
def accUpTo (x0 : Vec F S3328x1024 .f32) (x1 : Vec F S26x100x16 .f32) (v1 : FVec F S26x16 .f32)
    (x3 : Vec F S26x16x416 .bf16) : (n : Nat) → n ≤ 26 → FVec F S1024x416 .f32
  | 0, _ => broadcast S1024x416 (Scalar.ofBits .f32 0x00000000#32)
  | n + 1, h => colStep ⟨n, h⟩ x0 x1 v1 x3 (accUpTo x0 x1 v1 x3 n (Nat.le_of_succ_le h))

/-- The running sum after all 26 columns. -/
def accAll (x0 : Vec F S3328x1024 .f32) (x1 : Vec F S26x100x16 .f32) (v1 : FVec F S26x16 .f32)
    (x3 : Vec F S26x16x416 .bf16) : FVec F S1024x416 .f32 :=
  accUpTo x0 x1 v1 x3 26 (Nat.le_refl 26)

end Stages

end Cert.Proof.KI

end
-- ==== Proof.MlpTail.lean ====
import proofs.«219071_g10050223472739_week1_w1_120_16_alg».proof.Proof.Gen.KernelIdeal.Skeleton
import proofs.«219071_g10050223472739_week1_w1_120_16_alg».proof.Proof.MlpSpec
import Idealize.ShloMosaic.Lib.ValueLayout
import Idealize.ShloMosaic.Lib.StackMember
import Idealize.ShloMosaic.Lib.Pipeline.FrameBody

noncomputable section

namespace Cert.Proof.KI

open Idealize.ShloMosaic Idealize.SL.Sem Idealize.ShloMosaic.ValueIdx
open Cert.KernelIdeal Cert.KernelIdeal.Gen

section Generic

variable {F : FTy → Type} [FloatOps F] [Named F]

/-- The row means of a 1024 × 416 value, as a column: the row sums divided by 416. -/
def tMean (z : FVec F S1024x416 .f32) : FVec F S1024x1 .f32 :=
  divf (shapeCast S1024x1 (multiReduction .add [1] S1024 z 0x00000000#32 reduces_S1024x416_S1024 (.inl rfl) rfl) shapeCasts_S1024_S1024x1)
    (broadcast S1024x1 (Scalar.ofBits .f32 0x43D00000#32))

/-- Layer norm over the 416 features, the variance taken as mean of squares minus squared mean. -/
def tNorm (acc : FVec F S1024x416 .f32) : FVec F S1024x416 .f32 :=
  mulf (subf acc (broadcastTo S1024x416 (tMean acc) broadcasts_S1024x1_S1024x416))
    (broadcastTo S1024x416 (rsqrt (addf (subf (tMean (mulf acc acc)) (mulf (tMean acc) (tMean acc)))
      (broadcast S1024x1 (Scalar.ofBits .f32 0x3727C5AC#32)))) broadcasts_S1024x1_S1024x416)

/-- A 1 × 416 parameter row repeated down the 1024 rows. -/
def tRow416 (x : Vec F S1x416 .f32) : FVec F S1024x416 .f32 :=
  broadcastTo S1024x416 (shapeCast S1x416 (View.ld x (Rect.unit (s := S1x416) ![0, 0] S1x416.size inb_S1x416_S1x416_0_0)) shapeCasts_S1x416_S1x416)
    broadcasts_S1x416_S1024x416

/-- The hidden layer before its GELU: normalised rows, scaled and biased, rounded, through the 416 × 416 matrix, plus its bias. -/
def tPre (acc : FVec F S1024x416 .f32) (x4 x5 : Vec F S1x416 .f32) (x6 : Vec F S416x416 .bf16) (x7 : Vec F S1x416 .f32) :
    FVec F S1024x416 .f32 :=
  addf (matmul dot_S1024x416_S416x416_S1024x416_1_0_0_1_n_n none
      (truncf .bf16 (addf (mulf (tNorm acc) (tRow416 x4)) (tRow416 x5)) bitsLt_bf16_f32)
      (shapeCast S416x416 (View.ld x6 (Rect.unit (s := S416x416) ![0, 0] S416x416.size inb_S416x416_S416x416_0_0)) shapeCasts_S416x416_S416x416)
      (constant S1024x416 .f32 0x00000000#32))
    (tRow416 x7)

/-- GELU through erf: (z / 2) · (1 + erf (z / √2)). -/
def tGelu (z : FVec F S1024x416 .f32) : FVec F S1024x416 .f32 :=
  mulf (mulf (broadcast S1024x416 (Scalar.ofBits .f32 0x3F000000#32)) z)
    (addf (broadcast S1024x416 (Scalar.ofBits .f32 0x3F800000#32)) (erf (mulf z (broadcast S1024x416 (Scalar.ofBits .f32 0x3F3504F3#32)))))

/-- The 16 features: the hidden layer's GELU through the 416 × 16 matrix, plus its bias. -/
def tailFeats (acc : FVec F S1024x416 .f32) (x4 x5 : Vec F S1x416 .f32) (x6 : Vec F S416x416 .bf16) (x7 : Vec F S1x416 .f32)
    (x8 : Vec F S416x16 .f32) (x9 : Vec F S1x16 .f32) : FVec F S1024x16 .f32 :=
  addf (matmul dot_S1024x416_S416x16_S1024x16_1_0_0_1_n_n none (tGelu (tPre acc x4 x5 x6 x7))
      (View.ld x8 (Rect.unit (s := S416x16) ![0, 0] S416x16.size inb_S416x16_S416x16_0_0)) (constant S1024x16 .f32 0x00000000#32))
    (broadcastTo S1024x16 (shapeCast S1x16 (View.ld x9 (Rect.unit (s := S1x16) ![0, 0] S1x16.size inb_S1x16_S1x16_0_0)) shapeCasts_S1x16_S1x16)
      broadcasts_S1x16_S1024x16)

/-- The 2 logits: the features through the 16 × 2 head, plus its bias. -/
def tailLogits (feats : FVec F S1024x16 .f32) (x10 : Vec F S16x2 .f32) (x11 : Vec F S1x2 .f32) : FVec F S1024x2 .f32 :=
  addf (matmul dot_S1024x16_S16x2_S1024x2_1_0_0_1_n_n none feats (View.ld x10 (Rect.unit (s := S16x2) ![0, 0] S16x2.size inb_S16x2_S16x2_0_0))
      (constant S1024x2 .f32 0x00000000#32))
    (broadcastTo S1024x2 (shapeCast S1x2 (View.ld x11 (Rect.unit (s := S1x2) ![0, 0] S1x2.size inb_S1x2_S1x2_0_0)) shapeCasts_S1x2_S1x2)
      broadcasts_S1x2_S1024x2)

end Generic

section AtIndex

theorem zeros2 : (![0, 0] : Fin 2 → Nat) = fun _ => 0 := funext fun a => by fin_cases a <;> rfl

/-- Loading all of a rank-2 buffer and casting it to its own shape changes nothing. -/
theorem shapeCast_ld_whole {n0 n1 : ℕ} {e : EltTy} (x : Vec Ideal ⟨2, ![n0, n1]⟩ e)
    (inb : ∀ a, (![0, 0] : Fin 2 → Nat) a + (⟨2, ![n0, n1]⟩ : Shape).size a ≤ (⟨2, ![n0, n1]⟩ : Shape).size a)
    (h : (⟨2, ![n0, n1]⟩ : Shape).ShapeCasts ⟨2, ![n0, n1]⟩) :
    shapeCast ⟨2, ![n0, n1]⟩ (View.ld x (Rect.unit (s := ⟨2, ![n0, n1]⟩) ![0, 0] (Shape.size ⟨2, ![n0, n1]⟩) inb)) h = x :=
  (shapeCast_self _ h).trans (View.ld_unit_zero zeros2 inb x)

/-- Repeating a column along the rows: entry (p, c) is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  broadcastTo_apply v h (ix2 p c) (ix2 p (0 : Fin 1)) fun ax => by
    match ax with
    | ⟨0, _⟩ =>
      show p.val = if a = 1 then 0 else p.val
      have := p.isLt
      split <;> omega
    | ⟨1, _⟩ => rfl

/-- An m × k by k × n product into zeros read at an index: the sum over the contracted coordinate of the products of the entries. -/
theorem matmul_plain_apply {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) :=
  hd ▸ (congrFun (matmul_zero_eq_dotGeneral _ none A B) _).trans (StackMember.dotGeneral_plain_apply none A B a b)

/-- A row mean read at a row: the sum over the 416 features, divided by 416. -/
theorem tMean_apply (z : FVec Ideal S1024x416 .f32) (bb : Fin 1024) (u : Fin 1) :
    tMean z (ix2 bb u) = Ideal.div (∑ k : Fin 416, z (ix2 bb k)) Cert.Spec.c416 := by
  refine congrArg (Ideal.div · Cert.Spec.c416) ((shapeCast_apply _ shapeCasts_S1024_S1024x1 _ (ix1 bb) ?_).trans
    ((Ideal.multiReduction_add_single z _ reduces_S1024x416_S1024 _ rfl _).trans
      (Finset.sum_congr rfl fun k _ => congrArg z (funext fun c => Fin.ext ?_))))
  · rw [Shape.rowMajor_val_two, Shape.rowMajor_val_one]
    show bb.val = bb.val * 1 + u.val
    omega
  · match c with
    | ⟨0, _⟩ => simp [Shape.Reduces.lift_val, Shape.Reduces.liftVal]
    | ⟨1, _⟩ => simp [Shape.Reduces.lift_val, Shape.Reduces.liftVal]

theorem tRow416_apply (x : Vec Ideal S1x416 .f32) (bb : Fin 1024) (j : Fin 416) : tRow416 x (ix2 bb j) = x (ix2 (0 : Fin 1) j) :=
  (broadcastTo_1b_ab_apply _ _ bb j).trans (congrFun (shapeCast_ld_whole x _ _) _)

end AtIndex

section Value

open Cert.Spec

variable (a : Cert.Spec.Args) (t : Fin 16) (acc : FVec Ideal S1024x416 .f32)
  (hacc : ∀ (bb : Fin 1024) (j : Fin 416), acc (ix2 bb j) = Cert.Spec.catK a (rowAt t bb) j)
  {x0 : Vec Ideal S3328x1024 .f32} {x1 : Vec Ideal S26x100x16 .f32} {x2 : Vec Ideal S26x16 .f32}
  {x3 : Vec Ideal S26x16x416 .bf16} {x4 x5 : Vec Ideal S1x416 .f32} {x6 : Vec Ideal S416x416 .bf16} {x7 : Vec Ideal S1x416 .f32}
  {x8 : Vec Ideal S416x16 .f32} {x9 : Vec Ideal S1x16 .f32} {x10 : Vec Ideal S16x2 .f32} {x11 : Vec Ideal S1x2 .f32}

include hacc

theorem tNorm_eq (bb : Fin 1024) (j : Fin 416) :
    tNorm acc (ix2 bb j) = (catK a (rowAt t bb) j - mu2K a (rowAt t bb)) * Ideal.rsqrt (var2K a (rowAt t bb) + eps) := by
  unfold tNorm
  rw [mulf_apply, subf_apply, broadcastTo_a1_ab_apply, broadcastTo_a1_ab_apply]
  show (_ - tMean acc _) * Ideal.rsqrt (tMean (mulf acc acc) (ix2 bb (0 : Fin 1)) - tMean acc (ix2 bb (0 : Fin 1)) * tMean acc (ix2 bb (0 : Fin 1)) + eps) = _
  rw [tMean_apply, tMean_apply]
  simp only [mulf_apply, hacc]
  rfl

theorem tPre_eq (h4 : ∀ j : Fin 416, x4 (ix2 (0 : Fin 1) j) = a.aS j) (h5 : ∀ j : Fin 416, x5 (ix2 (0 : Fin 1) j) = a.aB j)
    (h6 : ∀ (j k : Fin 416), x6 (ix2 j k) = a.W1 j k) (h7 : ∀ k : Fin 416, x7 (ix2 (0 : Fin 1) k) = a.b1 k)
    (bb : Fin 1024) (k : Fin 416) :
    tPre acc x4 x5 x6 x7 (ix2 bb k) = (∑ j, hK a (rowAt t bb) j * a.W1 j k) + a.b1 k := by
  unfold tPre
  rw [addf_apply, matmul_plain_apply dot_S1024x416_S416x416_S1024x416_1_0_0_1_n_n rfl, tRow416_apply, h7]
  refine congrArg (· + _) (Finset.sum_congr rfl fun j _ => ?_)
  rw [truncf_apply, addf_apply, mulf_apply, tRow416_apply, tRow416_apply, tNorm_eq a t acc hacc, h4, h5, shapeCast_ld_whole, h6, hK]

/-- Entry (bb, o) of the features is the specification's, given the 416 features in `acc`. -/
theorem tailFeats_apply (h : BlocksOK a t x0 x1 x2 x3 x4 x5 x6 x7 x8 x9 x10 x11) (bb : Fin 1024) (o : Fin 16) :
    tailFeats acc x4 x5 x6 x7 x8 x9 (ix2 bb o) = featsK a (rowAt t bb) o := by
  unfold tailFeats
  rw [addf_apply, matmul_plain_apply dot_S1024x416_S416x16_S1024x16_1_0_0_1_n_n rfl, broadcastTo_1b_ab_apply, shapeCast_ld_whole x9, h.h9, featsK]
  refine congrArg (· + _) (Finset.sum_congr rfl fun k _ => ?_)
  rw [View.ld_unit_zero zeros2, h.h8]
  exact congrArg (geluK · * _) (tPre_eq a t acc hacc h.h4 h.h5 h.h6 h.h7 bb k)

omit hacc

/-- Entry (bb, q) of the logits is the specification's, given the features. -/
theorem tailLogits_apply (h : BlocksOK a t x0 x1 x2 x3 x4 x5 x6 x7 x8 x9 x10 x11) (feats : FVec Ideal S1024x16 .f32)
    (hf : ∀ (bb : Fin 1024) (o : Fin 16), feats (ix2 bb o) = featsK a (rowAt t bb) o) (bb : Fin 1024) (q : Fin 2) :
    tailLogits feats x10 x11 (ix2 bb q) = logitsK a (rowAt t bb) q := by
  unfold tailLogits
  rw [addf_apply, matmul_plain_apply dot_S1024x16_S16x2_S1024x2_1_0_0_1_n_n rfl, broadcastTo_1b_ab_apply, shapeCast_ld_whole x11, h.h11, logitsK]
  refine congrArg (· + _) (Finset.sum_congr rfl fun o _ => ?_)
  rw [View.ld_unit_zero zeros2, h.h10, hf]

end Value

end Cert.Proof.KI

end
-- ==== Proof.MlpIdent.lean ====
import proofs.«219071_g10050223472739_week1_w1_120_16_alg».proof.Proof.MlpOut
import proofs.«219071_g10050223472739_week1_w1_120_16_alg».proof.Proof.MlpCol
import proofs.«219071_g10050223472739_week1_w1_120_16_alg».proof.Proof.MlpTail

noncomputable section

namespace Cert.Proof.KI

open Idealize.ShloMosaic
open Cert.KernelIdeal

variable {F : FTy → Type} [FloatOps F] [Named F] (x0 : Vec F S3328x1024 .f32) (x1 : Vec F S26x100x16 .f32) (x2 : Vec F S26x16 .f32)
  (x3 : Vec F S26x16x416 .bf16)

/-- Each stretch of the body applies the next column step (two where it spans two columns) to what the stretch before left. -/
theorem mlp_v1016_eq_accAll : mlp_v1016 x0 x1 x2 x3 = accAll x0 x1 (mlp_v1 x0 x1 x2 x3) x3 := by
  have s (c : Fin 26) {a b : FVec F S1024x416 .f32} (e : a = b) :
      colStep c x0 x1 (mlp_v1 x0 x1 x2 x3) x3 a = colStep c x0 x1 (mlp_v1 x0 x1 x2 x3) x3 b := congrArg _ e
  refine s 25 (a := mlp_v977 x0 x1 x2 x3) ?_
  refine s 24 (a := mlp_v938 x0 x1 x2 x3) ?_
  refine s 23 (a := mlp_v899 x0 x1 x2 x3) ?_
  refine s 22 (s 21 (a := mlp_v821 x0 x1 x2 x3) ?_)
  refine s 20 (a := mlp_v782 x0 x1 x2 x3) ?_
  refine s 19 (a := mlp_v743 x0 x1 x2 x3) ?_
  refine s 18 (a := mlp_v704 x0 x1 x2 x3) ?_
  refine s 17 (a := mlp_v665 x0 x1 x2 x3) ?_
  refine s 16 (a := mlp_v626 x0 x1 x2 x3) ?_
  refine s 15 (a := mlp_v587 x0 x1 x2 x3) ?_
  refine s 14 (a := mlp_v548 x0 x1 x2 x3) ?_
  refine s 13 (a := mlp_v509 x0 x1 x2 x3) ?_
  refine s 12 (a := mlp_v470 x0 x1 x2 x3) ?_
  refine s 11 (a := mlp_v431 x0 x1 x2 x3) ?_
  refine s 10 (a := mlp_v392 x0 x1 x2 x3) ?_
  refine s 9 (a := mlp_v353 x0 x1 x2 x3) ?_
  refine s 8 (a := mlp_v314 x0 x1 x2 x3) ?_
  refine s 7 (a := mlp_v275 x0 x1 x2 x3) ?_
  refine s 6 (a := mlp_v236 x0 x1 x2 x3) ?_
  refine s 5 (a := mlp_v197 x0 x1 x2 x3) ?_
  refine s 4 (a := mlp_v158 x0 x1 x2 x3) ?_
  refine s 3 (a := mlp_v119 x0 x1 x2 x3) ?_
  refine s 2 (s 1 (a := mlp_v41 x0 x1 x2 x3) ?_)
  rfl

theorem mlp_v1064_eq (x4 x5 : Vec F S1x416 .f32) (x6 : Vec F S416x416 .bf16) (x7 : Vec F S1x416 .f32) (x8 : Vec F S416x16 .f32)
    (x9 : Vec F S1x16 .f32) :
    mlp_v1064 x0 x1 x2 x3 x4 x5 x6 x7 x8 x9 = tailFeats (accAll x0 x1 (mlp_v1 x0 x1 x2 x3) x3) x4 x5 x6 x7 x8 x9 :=
  congrArg (tailFeats · x4 x5 x6 x7 x8 x9) (mlp_v1016_eq_accAll x0 x1 x2 x3)

end Cert.Proof.KI

end
-- ==== Proof.MlpCol2.lean ====
import proofs.«219071_g10050223472739_week1_w1_120_16_alg».proof.Proof.MlpCol
import proofs.«219071_g10050223472739_week1_w1_120_16_alg».proof.Proof.MlpTail

noncomputable section

namespace Cert.Proof.KI

open Idealize.ShloMosaic Idealize.ShloMosaic.ValueIdx
open Cert.KernelIdeal
open Cert.Spec (inv100 eps geluK gK catK colOf outOf wfold cbfold)

variable [Facts₀]
open Facts₀

/-- Entry (d, bb) of column c's slab is entry (128 c + d, bb) of the block. -/
theorem ld_slab_apply (c : Fin 26) (x0 : Vec Ideal S3328x1024 .f32) (d : Fin 100) (bb : Fin 1024) :
    View.ld x0 (rSlab c) (ix2 d bb)
      = x0 (ix2 (⟨128 * c.val + d.val, by have := c.isLt; have := d.isLt; omega⟩ : Fin 3328) bb) := by
  show x0 ((rSlab c).idx (ix2 d bb)) = _
  refine congrArg x0 (funext fun ax => Fin.ext ?_)
  match ax with
  | ⟨0, _⟩ => show 128 * c.val + 1 * d.val = 128 * c.val + d.val; omega
  | ⟨1, _⟩ => show 0 + 1 * bb.val = bb.val; omega

/-- Member c of a stack of 26 arrays, read at (0, p, q), is the stack at (c, p, q). -/
theorem ld_member_apply {a b : ℕ} {e : EltTy} (x : Vec Ideal ⟨3, ![26, a, b]⟩ e) (c : Fin 26) (p : Fin a) (q : Fin b) :
    View.ld x (Rect.unit (s := ⟨3, ![26, a, b]⟩) ![c.val, 0, 0] ![1, a, b] (inb_member c a b)) (ix3 (0 : Fin 1) p q) = x (ix3 c p q) := by
  show x ((Rect.unit (s := ⟨3, ![26, a, b]⟩) ![c.val, 0, 0] ![1, a, b] (inb_member c a b)).idx (ix3 (0 : Fin 1) p q)) = _
  refine congrArg x (funext fun ax => Fin.ext ?_)
  match ax with
  | ⟨0, _⟩ => show c.val + 1 * 0 = c.val; omega
  | ⟨1, _⟩ => show 0 + 1 * p.val = p.val; omega
  | ⟨2, _⟩ => show 0 + 1 * q.val = q.val; omega

/-- A column mean read at batch row bb: the sum over the slab's 100 coordinates, times 1/100. -/
theorem colMean_apply (z : FVec Ideal S100x1024 .f32) (u : Fin 1) (bb : Fin 1024) :
    colMean z (ix2 u bb) = (∑ d : Fin 100, z (ix2 d bb)) * inv100 := by
  unfold colMean
  rw [mulf_apply, shapeCast_a_1a_apply, broadcast_apply, Cert.Proof.inv100_named]
  refine congrArg (· * _) ((Ideal.multiReduction_add_single z _ reduces_S100x1024_S1024 _ rfl _).trans
    (Finset.sum_congr rfl fun d _ => congrArg z (funext fun c => Fin.ext ?_)))
  match c with
  | ⟨0, _⟩ => simp [Shape.Reduces.lift_val, Shape.Reduces.liftVal]
  | ⟨1, _⟩ => simp [Shape.Reduces.lift_val, Shape.Reduces.liftVal]

/-- The normalised slab at (d, bb), in terms of the slab's entries `X` along batch row bb. -/
theorem colNorm_apply (x : FVec Ideal S100x1024 .f32) (bb : Fin 1024) (X : Fin 100 → EReal)
    (hX : ∀ e : Fin 100, x (ix2 e bb) = X e) (d : Fin 100) :
    colNorm (F := Ideal) x (ix2 d bb)
      = (X d - (∑ e, X e) * inv100)
        * Ideal.rsqrt ((∑ e, X e * X e) * inv100 - (∑ e, X e) * inv100 * ((∑ e, X e) * inv100) + eps) := by
  unfold colNorm
  rw [mulf_apply, subf_apply, broadcastTo_1b_ab_apply, broadcastTo_1b_ab_apply]
  show (_ - colMean x _) * Ideal.rsqrt (colMean (mulf x x) (ix2 (0 : Fin 1) bb)
    - colMean x (ix2 (0 : Fin 1) bb) * colMean x (ix2 (0 : Fin 1) bb) + eps) = _
  rw [colMean_apply, colMean_apply]
  simp only [mulf_apply, hX]

/-- A product contracting the FIRST axis of both operands, at (bb, o): the sum over that axis. -/
theorem matmul_lin_apply (xn : FVec Ideal S100x1024 .f32) (w : FVec Ideal S100x16 .f32) (bb : Fin 1024) (o : Fin 16) :
    matmul dot_S100x1024_S100x16_S1024x16_0_0_1_1_n_n none xn w (constant (F := Ideal) S1024x16 .f32 0x00000000#32) (ix2 bb o)
      = ∑ d : Fin 100, xn (ix2 d bb) * w (ix2 d o) := by
  refine (Ideal.matmul_constant_zero_apply dot_S100x1024_S100x16_S1024x16_0_0_1_1_n_n none xn w (ix2 bb o)).trans ?_
  rw [← Equiv.sum_comp (contrEquiv1 dot_S100x1024_S100x16_S1024x16_0_0_1_1_n_n 100 rfl rfl).symm]
  refine Finset.sum_congr rfl fun d _ => ?_
  have cv := contrEquiv1_symm_val dot_S100x1024_S100x16_S1024x16_0_0_1_1_n_n 100 rfl rfl d
  congr 1
  · refine congrArg xn (funext fun ax => Fin.ext ?_)
    match ax with
    | ⟨0, _⟩ => exact (DotDims.lhsIdx_val_of_single (d := dot_S100x1024_S100x16_S1024x16_0_0_1_1_n_n) (cl := 0) rfl _ _).trans cv
    | ⟨1, _⟩ => simp [DotDims.lhsIdx, dot_S100x1024_S100x16_S1024x16_0_0_1_1_n_n]; rfl
  · refine congrArg w (funext fun ax => Fin.ext ?_)
    match ax with
    | ⟨0, _⟩ => exact (DotDims.rhsIdx_val_of_single (d := dot_S100x1024_S100x16_S1024x16_0_0_1_1_n_n) (cr := 0) rfl _ _).trans cv
    | ⟨1, _⟩ => simp [DotDims.rhsIdx, dot_S100x1024_S100x16_S1024x16_0_0_1_1_n_n]; rfl

/-- The linear layer at (bb, o). -/
theorem colLin_apply (c : Fin 26) (v1 : FVec Ideal S26x16 .f32) (xn : FVec Ideal S100x1024 .f32) (w : Vec Ideal S1x100x16 .f32)
    (bb : Fin 1024) (o : Fin 16) :
    colLin (F := Ideal) c v1 xn w (ix2 bb o) = (∑ d : Fin 100, xn (ix2 d bb) * w (ix3 (0 : Fin 1) d o)) + v1 (ix2 c o) := by
  unfold colLin
  simp only [addf_apply, matmul_lin_apply, shapeCast_1ab_ab_apply, broadcastTo_1b_ab_apply]
  exact congrArg (_ + ·) (slice2_axis0_apply c.val v1 (slices_bias c) (0 : Fin 1) o c (by simp))

/-- The scatter at (bb, j): the running sum plus the 16 outputs against column j of the placement block. -/
theorem colPlace_apply (acc : FVec Ideal S1024x416 .f32) (g : FVec Ideal S1024x16 .bf16) (p : Vec Ideal S1x16x416 .bf16)
    (bb : Fin 1024) (j : Fin 416) :
    colPlace (F := Ideal) acc g p (ix2 bb j) = acc (ix2 bb j) + ∑ o : Fin 16, g (ix2 bb o) * p (ix3 (0 : Fin 1) o j) := by
  unfold colPlace
  simp only [addf_apply, matmul_plain_apply dot_S1024x16_S16x416_S1024x416_1_0_0_1_n_n rfl, shapeCast_1ab_ab_apply]

/-- Against a 0/1 block whose one sits at j = 16 c + o, the 16 outputs select output j % 16 when j / 16 = c, else nothing. -/
theorem sum_place (c : Fin 26) (j : Fin 416) (f : Fin 16 → EReal) :
    (∑ o : Fin 16, f o * (if j.val = 16 * c.val + o.val then (1 : EReal) else 0)) = if colOf j = c then f (outOf j) else 0 := by
  have hk (o : Fin 16) : j.val = 16 * c.val + o.val ↔ colOf j = c ∧ o = outOf j := by
    have := o.isLt
    simp only [Fin.ext_iff, colOf, outOf]
    omega
  simp only [hk, mul_ite, mul_one, mul_zero]
  split <;> rename_i hc <;> simp [hc]

variable (a : Cert.Spec.Args) (t : Fin 16)
  (x0 : Vec Ideal S3328x1024 .f32) (x1 : Vec Ideal S26x100x16 .f32) (v1 : FVec Ideal S26x16 .f32) (x3 : Vec Ideal S26x16x416 .bf16)
  (h0 : ∀ (c : Fin 26) (d : Fin 100) (bb : Fin 1024),
    x0 (ix2 (⟨128 * c.val + d.val, by have := c.isLt; have := d.isLt; omega⟩ : Fin 3328) bb) = Cert.Spec.x a c (rowAt t bb) d)
  (h1 : ∀ (c : Fin 26) (d : Fin 100) (o : Fin 16), x1 (ix3 c d o) = Cert.Spec.wfold a c d o)
  (h2 : ∀ (c : Fin 26) (o : Fin 16), v1 (ix2 c o) = Cert.Spec.cbfold a c o)
  (h3 : ∀ (c : Fin 26) (o : Fin 16) (j : Fin 416), x3 (ix3 c o j) = if j.val = 16 * c.val + o.val then (1 : EReal) else 0)

include h0 h1 h2 h3 in
/-- Column c contributes to feature j exactly when j / 16 = c, and then its GELU output j % 16. -/
theorem colStep_apply (c : Fin 26) (acc : FVec Ideal S1024x416 .f32) (bb : Fin 1024) (j : Fin 416) :
    colStep (F := Ideal) c x0 x1 v1 x3 acc (ix2 bb j)
      = acc (ix2 bb j) + (if colOf j = c then geluK (gK a c (rowAt t bb) (outOf j)) else 0) := by
  unfold colStep
  rw [colPlace_apply]
  refine congrArg (_ + ·) ((Finset.sum_congr rfl fun o _ => ?_).trans (sum_place c j fun o => geluK (gK a c (rowAt t bb) o)))
  rw [ld_member_apply, h3]
  refine congrArg (geluK · * _) ?_
  rw [colLin_apply, h2, gK]
  refine congrArg (· + _) (Finset.sum_congr rfl fun d _ => ?_)
  rw [ld_member_apply, h1]
  exact congrArg (· * _) (colNorm_apply _ bb (fun e => Cert.Spec.x a c (rowAt t bb) e)
    (fun e => (congrFun (shapeCast_self (s := S100x1024) _ _) _).trans ((ld_slab_apply c x0 e bb).trans (h0 c e bb))) d)

include h0 h1 h2 h3 in
/-- By induction on n: the features of the columns below n are in place, the others still zero. -/
theorem accUpTo_apply (bb : Fin 1024) (j : Fin 416) (n : Nat) (hn : n ≤ 26) :
    accUpTo (F := Ideal) x0 x1 v1 x3 n hn (ix2 bb j) = if (colOf j).val < n then catK a (rowAt t bb) j else 0 := by
  induction n with
  | zero => exact Ideal.ofBits_zero_f32.trans (if_neg (Nat.not_lt_zero _)).symm
  | succ n ih =>
    show colStep ⟨n, hn⟩ x0 x1 v1 x3 (accUpTo x0 x1 v1 x3 n (Nat.le_of_succ_le hn)) (ix2 bb j) = _
    rw [colStep_apply a t x0 x1 v1 x3 h0 h1 h2 h3, ih]
    rcases Nat.lt_trichotomy (colOf j).val n with hlt | heq | hgt
    · rw [if_pos hlt, if_neg fun e => Nat.ne_of_lt hlt (congrArg Fin.val e), if_pos (by omega), add_zero]
    · have e : colOf j = ⟨n, hn⟩ := Fin.ext heq
      rw [if_neg (by omega), if_pos e, if_pos (by omega), zero_add, ← e]
      rfl
    · rw [if_neg (by omega), if_neg fun e => Nat.ne_of_gt hgt (congrArg Fin.val e), if_neg (by omega), add_zero]

include h0 h1 h2 h3 in
/-- All 416 features are in place after the 26 columns. -/
theorem accAll_apply (bb : Fin 1024) (j : Fin 416) :
    accAll (F := Ideal) x0 x1 v1 x3 (ix2 bb j) = Cert.Spec.catK a (rowAt t bb) j :=
  (accUpTo_apply a t x0 x1 v1 x3 h0 h1 h2 h3 bb j 26 (Nat.le_refl 26)).trans (if_pos (colOf j).isLt)

end Cert.Proof.KI

end
-- ==== Proof.MlpValue.lean ====
import proofs.«219071_g10050223472739_week1_w1_120_16_alg».proof.Proof.MlpIdent
import proofs.«219071_g10050223472739_week1_w1_120_16_alg».proof.Proof.MlpCol2

noncomputable section

namespace Cert.Proof.KI

open Idealize.ShloMosaic Idealize.ShloMosaic.ValueIdx
open Cert.KernelIdeal

variable (a : Cert.Spec.Args) (t : Fin 16) (x0 : Vec Ideal S3328x1024 .f32) (x1 : Vec Ideal S26x100x16 .f32) (x2 : Vec Ideal S26x16 .f32)
  (x3 : Vec Ideal S26x16x416 .bf16) (x4 x5 : Vec Ideal S1x416 .f32) (x6 : Vec Ideal S416x416 .bf16) (x7 : Vec Ideal S1x416 .f32)
  (x8 : Vec Ideal S416x16 .f32) (x9 : Vec Ideal S1x16 .f32) (x10 : Vec Ideal S16x2 .f32) (x11 : Vec Ideal S1x2 .f32)
  (h : BlocksOK a t x0 x1 x2 x3 x4 x5 x6 x7 x8 x9 x10 x11) (bb : Fin 1024)

include h

/-- The column steps give the 416 features (their bias table is the third block whole); the tail maps them to the 16. -/
theorem mlp_v1064_apply (o : Fin 16) :
    mlp_v1064 (F := Ideal) x0 x1 x2 x3 x4 x5 x6 x7 x8 x9 (ix2 bb o) = Cert.Spec.featsK a (rowAt t bb) o := by
  rw [mlp_v1064_eq]
  exact tailFeats_apply a t _ (accAll_apply a t x0 x1 (mlp_v1 x0 x1 x2 x3) x3 h.h0 h.h1
    (fun c o => (congrFun (shapeCast_ld_whole x2 _ _) (ix2 c o)).trans (h.h2 c o)) h.h3) h bb o

/-- What the body stores as features, entry by entry. -/
theorem out1_13_apply (o : Fin 16) :
    out1_13 (F := Ideal) x0 x1 x2 x3 x4 x5 x6 x7 x8 x9 x10 x11 (ix2 bb o) = Cert.Spec.featsK a (rowAt t bb) o := by
  unfold out1_13
  rw [View.canon_unit_zero zeros2]
  exact mlp_v1064_apply a t x0 x1 x2 x3 x4 x5 x6 x7 x8 x9 x10 x11 h bb o

/-- What the body stores as logits, entry by entry. -/
theorem out1_12_apply (q : Fin 2) :
    out1_12 (F := Ideal) x0 x1 x2 x3 x4 x5 x6 x7 x8 x9 x10 x11 (ix2 bb q) = Cert.Spec.logitsK a (rowAt t bb) q := by
  unfold out1_12
  rw [View.canon_unit_zero zeros2]
  exact tailLogits_apply a t h _ (fun bb o => mlp_v1064_apply a t x0 x1 x2 x3 x4 x5 x6 x7 x8 x9 x10 x11 h bb o) bb q

end Cert.Proof.KI

end
-- ==== Proof.KernelVals3.lean ====
import proofs.«219071_g10050223472739_week1_w1_120_16_alg».proof.Proof.KernelVals2
import proofs.«219071_g10050223472739_week1_w1_120_16_alg».proof.Proof.MlpFrame
import proofs.«219071_g10050223472739_week1_w1_120_16_alg».proof.Proof.MlpValue
import Idealize.ShloMosaic.Lib.Pipeline.Value

noncomputable section

namespace Cert.Proof.KI

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

theorem hN1 : cfg1.N = 16 := N_1

theorem idx_in : ∀ w : Fin 14, 0 < w.val ∧ w.val < 12 → ∀ (t : Fin grid1.N) a, (win1 w).index t a = 0 := by decide +kernel
theorem idx1_0 : ∀ t : Fin grid1.N, win1_0.index t 0 = 0 ∧ win1_0.index t 1 = t.val := by decide +kernel
theorem idx1_12 : ∀ t : Fin grid1.N, win1_12.index t 0 = t.val ∧ win1_12.index t 1 = 0 := by decide +kernel
theorem idx1_13 : ∀ t : Fin grid1.N, win1_13.index t 0 = t.val ∧ win1_13.index t 1 = 0 := by decide +kernel

theorem emb_in (w : Fin 14) (h : 0 < w.val ∧ w.val < 12) (t : Fin grid1.N) (y) (a) : (((win1 w).rect t).emb y a : ℕ) = y a :=
  (win1 w).rect_emb_val_of_index_zero t a (idx_in w h t a) y

theorem blk0_at (t : Fin cfg1.N) (r : Fin 3328) (bb : Fin 1024) (hb : 1024 * t.val + bb.val < 16384) :
    iblk (V3 m) c 0 t (ix2 r bb) = (V3 m c main_v2 : FVec Ideal S3328x16384 .f32) (ix2 r (⟨1024 * t.val + bb.val, hb⟩ : Fin 16384)) := by
  obtain ⟨e0, e1⟩ := idx1_0 t
  refine congrArg (V3 m c main_v2 : FVec Ideal S3328x16384 .f32) (funext fun a => Fin.ext ((win1_0.rect_emb_val t _ a).trans ?_))
  match a with
  | ⟨0, _⟩ => show win1_0.index t 0 * 3328 + r.val = r.val; omega
  | ⟨1, _⟩ => show win1_0.index t 1 * 1024 + bb.val = 1024 * t.val + bb.val; omega

theorem blk1 (t : Fin cfg1.N) : iblk (V3 m) c 1 t = V3 m c main_v5 :=
  funext fun y => congrArg (V3 m c main_v5) (funext fun a => Fin.ext (emb_in 1 (by decide) t y a))
theorem blk2 (t : Fin cfg1.N) : iblk (V3 m) c 2 t = V3 m c main_v7 :=
  funext fun y => congrArg (V3 m c main_v7) (funext fun a => Fin.ext (emb_in 2 (by decide) t y a))
theorem blk3 (t : Fin cfg1.N) : iblk (V3 m) c 3 t = V3 m c main_v25 :=
  funext fun y => congrArg (V3 m c main_v25) (funext fun a => Fin.ext (emb_in 3 (by decide) t y a))
theorem blk4 (t : Fin cfg1.N) : iblk (V3 m) c 4 t = V3 m c main_v26 :=
  funext fun y => congrArg (V3 m c main_v26) (funext fun a => Fin.ext (emb_in 4 (by decide) t y a))
theorem blk5 (t : Fin cfg1.N) : iblk (V3 m) c 5 t = V3 m c main_v27 :=
  funext fun y => congrArg (V3 m c main_v27) (funext fun a => Fin.ext (emb_in 5 (by decide) t y a))
theorem blk6 (t : Fin cfg1.N) : iblk (V3 m) c 6 t = V3 m c main_v28 :=
  funext fun y => congrArg (V3 m c main_v28) (funext fun a => Fin.ext (emb_in 6 (by decide) t y a))
theorem blk7 (t : Fin cfg1.N) : iblk (V3 m) c 7 t = V3 m c main_v29 :=
  funext fun y => congrArg (V3 m c main_v29) (funext fun a => Fin.ext (emb_in 7 (by decide) t y a))
theorem blk8 (t : Fin cfg1.N) : iblk (V3 m) c 8 t = V3 m c main_arg10 :=
  funext fun y => congrArg (V3 m c main_arg10) (funext fun a => Fin.ext (emb_in 8 (by decide) t y a))
theorem blk9 (t : Fin cfg1.N) : iblk (V3 m) c 9 t = V3 m c main_v30 :=
  funext fun y => congrArg (V3 m c main_v30) (funext fun a => Fin.ext (emb_in 9 (by decide) t y a))
theorem blk10 (t : Fin cfg1.N) : iblk (V3 m) c 10 t = V3 m c main_arg12 :=
  funext fun y => congrArg (V3 m c main_arg12) (funext fun a => Fin.ext (emb_in 10 (by decide) t y a))
theorem blk11 (t : Fin cfg1.N) : iblk (V3 m) c 11 t = V3 m c main_v31 :=
  funext fun y => congrArg (V3 m c main_v31) (funext fun a => Fin.ext (emb_in 11 (by decide) t y a))

theorem blocksOK (t : Fin cfg1.N) :
    BlocksOK (arraysOf m c).args (Fin.cast N_1 t)
      (iblk (V3 m) c 0 t) (iblk (V3 m) c 1 t) (iblk (V3 m) c 2 t) (iblk (V3 m) c 3 t) (iblk (V3 m) c 4 t)
      (iblk (V3 m) c 5 t) (iblk (V3 m) c 6 t) (iblk (V3 m) c 7 t) (iblk (V3 m) c 8 t) (iblk (V3 m) c 9 t) (iblk (V3 m) c 10 t) (iblk (V3 m) c 11 t) := by
  rw [blk1, blk2, blk3, blk4, blk5, blk6, blk7, blk8, blk9, blk10, blk11]
  obtain ⟨h4, h5, h6, h7, h8, h9, h10, h11⟩ := params_at m c
  exact ⟨fun g d bb => (blk0_at m c t _ bb (rowAt (Fin.cast N_1 t) bb).isLt).trans (v2_at m c g d _ _), v5_at m c, v7_at m c, v25_at m c,
    h4, h5, h6, h7, h8, h9, h10, h11⟩

-- Element (bb, k) of a result block at grid point t is row 1024 t + bb of the array.
theorem emb13 (t : Fin cfg1.N) (bb : Fin 1024) (o : Fin 16) :
    ((cfg1.win 13).blk t).view.emb (ix2 bb o) = ix2 (rowAt (Fin.cast N_1 t) bb) o := by
  obtain ⟨e0, e1⟩ := idx1_13 t
  refine funext fun a => Fin.ext ((win1_13.rect_emb_val t _ a).trans ?_)
  match a with
  | ⟨0, _⟩ => show win1_13.index t 0 * 1024 + bb.val = 1024 * t.val + bb.val; omega
  | ⟨1, _⟩ => show win1_13.index t 1 * 16 + o.val = o.val; omega

theorem emb12 (t : Fin cfg1.N) (bb : Fin 1024) (q : Fin 2) :
    ((cfg1.win 12).blk t).view.emb (ix2 bb q) = ix2 (rowAt (Fin.cast N_1 t) bb) q := by
  obtain ⟨e0, e1⟩ := idx1_12 t
  refine funext fun a => Fin.ext ((win1_12.rect_emb_val t _ a).trans ?_)
  match a with
  | ⟨0, _⟩ => show win1_12.index t 0 * 1024 + bb.val = 1024 * t.val + bb.val; omega
  | ⟨1, _⟩ => show win1_12.index t 1 * 2 + q.val = q.val; omega

theorem flushed13_eq (t : Fin cfg1.N) :
    (dats1 (V3 m) 0 c).flushed 13 t
      = ((cfg1.win 13).blk t).view.read (Elt Ideal) (fun j : S16384x16.Idx => Cert.Spec.featsK (arraysOf m c).args (j 0) (j 1)) := by
  show (cfg1.win 13).cut (grid1.coords t) ((dats1 (V3 m) 0 c).after 13 t) = _
  rw [after1_13]
  funext y
  obtain ⟨bb, o, rfl⟩ : ∃ (bb : Fin 1024) (o : Fin 16), y = ix2 bb o := ⟨y 0, y 1, eq_ix2 y⟩
  show out1_13 (F := Ideal) _ _ _ _ _ _ _ _ _ _ _ _ (ix2 bb o)
    = Cert.Spec.featsK _ ((((cfg1.win 13).blk t).view.emb (ix2 bb o)) 0) ((((cfg1.win 13).blk t).view.emb (ix2 bb o)) 1)
  rw [out1_13_apply _ _ _ _ _ _ _ _ _ _ _ _ _ _ (blocksOK m c t) bb o, emb13]
  rfl

theorem flushed12_eq (t : Fin cfg1.N) :
    (dats1 (V3 m) 0 c).flushed 12 t
      = ((cfg1.win 12).blk t).view.read (Elt Ideal) (fun j : S16384x2.Idx => Cert.Spec.logitsK (arraysOf m c).args (j 0) (j 1)) := by
  show (cfg1.win 12).cut (grid1.coords t) ((dats1 (V3 m) 0 c).after 12 t) = _
  rw [after1_12]
  funext y
  obtain ⟨bb, q, rfl⟩ : ∃ (bb : Fin 1024) (q : Fin 2), y = ix2 bb q := ⟨y 0, y 1, eq_ix2 y⟩
  show out1_12 (F := Ideal) _ _ _ _ _ _ _ _ _ _ _ _ (ix2 bb q)
    = Cert.Spec.logitsK _ ((((cfg1.win 12).blk t).view.emb (ix2 bb q)) 0) ((((cfg1.win 12).blk t).view.emb (ix2 bb q)) 1)
  rw [out1_12_apply _ _ _ _ _ _ _ _ _ _ _ _ _ _ (blocksOK m c t) bb q, emb12]
  rfl

-- Row r of a result array is element r % 1024 of the block of grid point r / 1024.
theorem cover13 (i : S16384x16.Idx) : ∃ t : Fin cfg1.N, (cfg1.win 13).flush t = true ∧ i ∈ ((cfg1.win 13).blk t).view.set := by
  have h0 : (i 0).val < 16384 := (i 0).isLt
  have ht : (i 0).val / 1024 < cfg1.N := by rw [hN1]; omega
  have e : ((cfg1.win 13).blk ⟨_, ht⟩).view.emb (ix2 ⟨(i 0).val % 1024, Nat.mod_lt _ (by decide)⟩ (i 1)) = i :=
    (emb13 _ _ _).trans (funext fun a => Fin.ext (by
      match a with
      | ⟨0, _⟩ => show 1024 * ((i 0).val / 1024) + (i 0).val % 1024 = (i 0).val; omega
      | ⟨1, _⟩ => rfl))
  exact ⟨_, flush1_13 _, e ▸ View.emb_mem_set _ _⟩

theorem cover12 (i : S16384x2.Idx) : ∃ t : Fin cfg1.N, (cfg1.win 12).flush t = true ∧ i ∈ ((cfg1.win 12).blk t).view.set := by
  have h0 : (i 0).val < 16384 := (i 0).isLt
  have ht : (i 0).val / 1024 < cfg1.N := by rw [hN1]; omega
  have e : ((cfg1.win 12).blk ⟨_, ht⟩).view.emb (ix2 ⟨(i 0).val % 1024, Nat.mod_lt _ (by decide)⟩ (i 1)) = i :=
    (emb12 _ _ _).trans (funext fun a => Fin.ext (by
      match a with
      | ⟨0, _⟩ => show 1024 * ((i 0).val / 1024) + (i 0).val % 1024 = (i 0).val; omega
      | ⟨1, _⟩ => rfl))
  exact ⟨_, flush1_12 _, e ▸ View.emb_mem_set _ _⟩

theorem final13 (hok : (arraysOf m c).Ok) :
    (dats1 (V3 m) 0 c).arrAt 13 cfg1.N = fun (j : S16384x16.Idx) => Cert.Spec.featsK (arraysOf m c).args (j 0) (j 1) :=
  (dats1 (V3 m) 0 c).arrAt_eq_of_cover 13 _ (fun t _ => flushed13_eq m c t) cover13

theorem final12 (hok : (arraysOf m c).Ok) :
    (dats1 (V3 m) 0 c).arrAt 12 cfg1.N = fun (j : S16384x2.Idx) => Cert.Spec.logitsK (arraysOf m c).args (j 0) (j 1) :=
  (dats1 (V3 m) 0 c).arrAt_eq_of_cover 12 _ (fun t _ => flushed12_eq m c t) cover12

end Cert.Proof.KI

end
-- ==== Proof.RefTerms.lean ====
import proofs.«219071_g10050223472739_week1_w1_120_16_alg».proof.ReferenceIdeal

noncomputable section

namespace Cert.ReferenceIdeal.RefTerms

open Idealize.ShloMosaic Idealize.SL.Sem
open Cert.ReferenceIdeal

structure In (F : FTy → Type) where
  a0 : IVec S26x16384 32
  a1 : FVec F S26x100000x100 .f32
  a2 : FVec F S26x100 .f32
  a3 : FVec F S26x100 .f32
  a4 : FVec F S26x100x16 .f32
  a5 : FVec F S26x16 .f32
  a6 : FVec F S416 .f32
  a7 : FVec F S416 .f32
  a8 : FVec F S416x416 .f32
  a9 : FVec F S416 .f32
  a10 : FVec F S416x16 .f32
  a11 : FVec F S16 .f32
  a12 : FVec F S16x2 .f32
  a13 : FVec F S2 .f32

variable {F : FTy → Type} [FloatOps F] [Facts]
open Facts₀ Facts

def call0_c (i : In F) : IVec S_ 32 := constantI S_ 32 0#32
def call0_v0 (i : In F) : IVec S26x16384 32 := broadcastInDim S26x16384 ![] bcast_S_S26x16384 (call0_c i)
def call0_v1 (i : In F) : IVec S26x16384 1 := cmpi .slt i.a0 (call0_v0 i)
def call0_c_0 (i : In F) : IVec S_ 32 := constantI S_ 32 100000#32
def call0_v2 (i : In F) : IVec S26x16384 32 := broadcastInDim S26x16384 ![] bcast_S_S26x16384 (call0_c_0 i)
def call0_v3 (i : In F) : IVec S26x16384 32 := addi i.a0 (call0_v2 i)
def call0_v4 (i : In F) : IVec S26x16384 32 := select (call0_v1 i) (call0_v3 i) i.a0
def call0_v5 (i : In F) : IVec S26x16384x1 32 := broadcastInDim S26x16384x1 ![0, 1] bcast_S26x16384_S26x16384x1_0_1 (call0_v4 i)
def call0_c_1 (i : In F) : IVec S1 32 := constantI S1 32 99999#32
def call0_c_2 (i : In F) : IVec S_ 32 := constantI S_ 32 0#32
def call0_v6 (i : In F) : IVec S26x16384x1 32 := broadcastInDim S26x16384x1 ![] bcast_S_S26x16384x1 (call0_c_2 i)
def call0_v7 (i : In F) : IVec S26x16384x1 1 := cmpi .sge (call0_v5 i) (call0_v6 i)
def call0_v8 (i : In F) : IVec S1x1x1 32 := broadcastInDim S1x1x1 ![2] bcast_S1_S1x1x1_2 (call0_c_1 i)
def call0_v9 (i : In F) : IVec S26x16384x1 32 := broadcastInDim S26x16384x1 ![0, 1, 2] bcast_S1x1x1_S26x16384x1_0_1_2 (call0_v8 i)
def call0_v10 (i : In F) : IVec S26x16384x1 1 := cmpi .sle (call0_v5 i) (call0_v9 i)
def call0_v11 (i : In F) : IVec S26x16384x1 1 := andi (call0_v7 i) (call0_v10 i)
def call0_c_3 (i : In F) : IVec S_ 1 := constantI S_ 1 1#1
def call0_v12 (i : In F) : IVec S26x16384 1 := Host.reduce IntOp.andi (call0_v11 i) (call0_c_3 i) reducesTo_S26x16384x1_S26x16384_d2 h_S_
def call0_v13 (i : In F) : FVec F S26x16384x100 .f32 := Host.gather gather_S26x100000x100_S26x16384x1_S26x16384x100_2_1_0_0_1_2_11100 i.a1 (call0_v5 i)
def call0_v14 (i : In F) : IVec S26x16384x100 1 := broadcastInDim S26x16384x100 ![0, 1] bcast_S26x16384_S26x16384x100_0_1 (call0_v12 i)
def call0_cst (i : In F) : FVec F S_ .f32 := constant S_ .f32 0x7FC00000#32
def call0_v15 (i : In F) : FVec F S26x16384x100 .f32 := broadcastInDim S26x16384x100 ![] bcast_S_S26x16384x100 (call0_cst i)
def v0 (i : In F) : FVec F S26x16384x100 .f32 := select (call0_v14 i) (call0_v13 i) (call0_v15 i)
def v1 (i : In F) : FVec F S26x1x100 .f32 := broadcastInDim S26x1x100 ![0, 2] bcast_S26x100_S26x1x100_0_2 i.a2
def v2 (i : In F) : FVec F S26x1x100 .f32 := broadcastInDim S26x1x100 ![0, 2] bcast_S26x100_S26x1x100_0_2 i.a3
def cst (i : In F) : FVec F S_ .f32 := constant S_ .f32 0x00000000#32
def v3 (i : In F) : FVec F S26x16384 .f32 := Host.reduceAdd (v0 i) (cst i) reducesTo_S26x16384x100_S26x16384_d2 h_S_
def v4 (i : In F) : FVec F S26x16384x1 .f32 := broadcastInDim S26x16384x1 ![0, 1] bcast_S26x16384_S26x16384x1_0_1 (v3 i)
def cst_0 (i : In F) : FVec F S_ .f32 := constant S_ .f32 0x42C80000#32
def v5 (i : In F) : FVec F S26x16384x1 .f32 := broadcastInDim S26x16384x1 ![] bcast_S_S26x16384x1 (cst_0 i)
def v6 (i : In F) : FVec F S26x16384x1 .f32 := Host.divf (v4 i) (v5 i)
def c (i : In F) : IVec S_ 32 := constantI S_ 32 0#32
def call1_cst (i : In F) : FVec F S_ .f32 := constant S_ .f32 0x00000000#32
def call1_v0 (i : In F) : FVec F S26x16384 .f32 := Host.reduceAdd (v0 i) (call1_cst i) reducesTo_S26x16384x100_S26x16384_d2 h_S_
def call1_v1 (i : In F) : FVec F S26x16384x1 .f32 := broadcastInDim S26x16384x1 ![0, 1] bcast_S26x16384_S26x16384x1_0_1 (call1_v0 i)
def call1_cst_0 (i : In F) : FVec F S_ .f32 := constant S_ .f32 0x42C80000#32
def call1_v2 (i : In F) : FVec F S26x16384x1 .f32 := broadcastInDim S26x16384x1 ![] bcast_S_S26x16384x1 (call1_cst_0 i)
def call1_v3 (i : In F) : FVec F S26x16384x1 .f32 := Host.divf (call1_v1 i) (call1_v2 i)
def call1_v4 (i : In F) : FVec F S26x16384x100 .f32 := broadcastInDim S26x16384x100 ![0, 1, 2] bcast_S26x16384x1_S26x16384x100_0_1_2 (call1_v3 i)
def call1_v5 (i : In F) : FVec F S26x16384x100 .f32 := subf (v0 i) (call1_v4 i)
def call1_v6 (i : In F) : FVec F S26x16384x100 .f32 := mulf (call1_v5 i) (call1_v5 i)
def call1_v7 (i : In F) : FVec F S_ .f32 := sitofp .f32 (c i)
def call1_cst_1 (i : In F) : FVec F S_ .f32 := constant S_ .f32 0x42C80000#32
def call1_v8 (i : In F) : FVec F S_ .f32 := subf (call1_cst_1 i) (call1_v7 i)
def call1_cst_2 (i : In F) : FVec F S_ .f32 := constant S_ .f32 0x00000000#32
def call1_v9 (i : In F) : FVec F S26x16384 .f32 := Host.reduceAdd (call1_v6 i) (call1_cst_2 i) reducesTo_S26x16384x100_S26x16384_d2 h_S_
def call1_v10 (i : In F) : FVec F S26x16384x1 .f32 := broadcastInDim S26x16384x1 ![0, 1] bcast_S26x16384_S26x16384x1_0_1 (call1_v9 i)
def call1_v11 (i : In F) : FVec F S26x16384x1 .f32 := broadcastInDim S26x16384x1 ![] bcast_S_S26x16384x1 (call1_v8 i)
def call1_v12 (i : In F) : FVec F S26x16384x1 .f32 := Host.divf (call1_v10 i) (call1_v11 i)
def call1_cst_3 (i : In F) : FVec F S_ .f32 := constant S_ .f32 0x00000000#32
def call1_v13 (i : In F) : IVec S_ 1 := cmpf .ogt (call1_v8 i) (call1_cst_3 i)
def call1_cst_4 (i : In F) : FVec F S_ .f32 := constant S_ .f32 0x7FC00000#32
def call1_call0_v0 (i : In F) : FVec F S_ .f32 := id (call1_cst_4 i)
def call1_call0_v1 (i : In F) : FVec F S26x16384x1 .f32 := broadcastInDim S26x16384x1 ![] bcast_S_S26x16384x1 (call1_call0_v0 i)
def v7 (i : In F) : FVec F S26x16384x1 .f32 := select (broadcastInDim S26x16384x1 ![] bcast_S_S26x16384x1 (call1_v13 i)) (call1_v12 i) (call1_call0_v1 i)
def v8 (i : In F) : FVec F S26x16384x100 .f32 := broadcastInDim S26x16384x100 ![0, 1, 2] bcast_S26x16384x1_S26x16384x100_0_1_2 (v6 i)
def v9 (i : In F) : FVec F S26x16384x100 .f32 := subf (v0 i) (v8 i)
def cst_1 (i : In F) : FVec F S_ .f32 := constant S_ .f32 0x3727C5AC#32
def v10 (i : In F) : FVec F S26x16384x1 .f32 := broadcastInDim S26x16384x1 ![] bcast_S_S26x16384x1 (cst_1 i)
def v11 (i : In F) : FVec F S26x16384x1 .f32 := addf (v7 i) (v10 i)
def v12 (i : In F) : FVec F S26x16384x1 .f32 := Host.sqrt (v11 i)
def v13 (i : In F) : FVec F S26x16384x100 .f32 := broadcastInDim S26x16384x100 ![0, 1, 2] bcast_S26x16384x1_S26x16384x100_0_1_2 (v12 i)
def v14 (i : In F) : FVec F S26x16384x100 .f32 := Host.divf (v9 i) (v13 i)
def v15 (i : In F) : FVec F S26x16384x100 .f32 := broadcastInDim S26x16384x100 ![0, 1, 2] bcast_S26x1x100_S26x16384x100_0_1_2 (v1 i)
def v16 (i : In F) : FVec F S26x16384x100 .f32 := mulf (v14 i) (v15 i)
def v17 (i : In F) : FVec F S26x16384x100 .f32 := broadcastInDim S26x16384x100 ![0, 1, 2] bcast_S26x1x100_S26x16384x100_0_1_2 (v2 i)
def v18 (i : In F) : FVec F S26x16384x100 .f32 := addf (v16 i) (v17 i)
def v19 (i : In F) : FVec F S26x16384x16 .f32 := Host.dotGeneral dot_S26x16384x100_S26x100x16_S26x16384x16_2_1_1_2_0_0 none (v18 i) i.a4
def v20 (i : In F) : FVec F S26x1x16 .f32 := broadcastInDim S26x1x16 ![0, 2] bcast_S26x16_S26x1x16_0_2 i.a5
def v21 (i : In F) : FVec F S26x16384x16 .f32 := broadcastInDim S26x16384x16 ![0, 1, 2] bcast_S26x1x16_S26x16384x16_0_1_2 (v20 i)
def v22 (i : In F) : FVec F S26x16384x16 .f32 := addf (v19 i) (v21 i)
def cst_2 (i : In F) : FVec F S_ .f32 := constant S_ .f32 0x3F000000#32
def v23 (i : In F) : FVec F S26x16384x16 .f32 := broadcastInDim S26x16384x16 ![] bcast_S_S26x16384x16 (cst_2 i)
def v24 (i : In F) : FVec F S26x16384x16 .f32 := mulf (v23 i) (v22 i)
def v25 (i : In F) : FVec F S26x16384x16 .f32 := Host.negf (v22 i)
def cst_3 (i : In F) : FVec F S_ .f32 := constant S_ .f32 0x3F3504F3#32
def v26 (i : In F) : FVec F S26x16384x16 .f32 := broadcastInDim S26x16384x16 ![] bcast_S_S26x16384x16 (cst_3 i)
def v27 (i : In F) : FVec F S26x16384x16 .f32 := mulf (v25 i) (v26 i)
def v28 (i : In F) : FVec F S26x16384x16 .f32 := Host.erfc (v27 i)
def v29 (i : In F) : FVec F S26x16384x16 .f32 := mulf (v24 i) (v28 i)
def v30 (i : In F) : FVec F S16384x26x16 .f32 := transpose S16384x26x16 [1, 0, 2] (v29 i) transposes_S26x16384x16_S16384x26x16_1_0_2
def v31 (i : In F) : FVec F S16384x416 .f32 := shapeCast S16384x416 (v30 i) shapeCasts_S16384x26x16_S16384x416
def cst_4 (i : In F) : FVec F S_ .f32 := constant S_ .f32 0x00000000#32
def v32 (i : In F) : FVec F S16384 .f32 := Host.reduceAdd (v31 i) (cst_4 i) reducesTo_S16384x416_S16384_d1 h_S_
def v33 (i : In F) : FVec F S16384x1 .f32 := broadcastInDim S16384x1 ![0] bcast_S16384_S16384x1_0 (v32 i)
def cst_5 (i : In F) : FVec F S_ .f32 := constant S_ .f32 0x43D00000#32
def v34 (i : In F) : FVec F S16384x1 .f32 := broadcastInDim S16384x1 ![] bcast_S_S16384x1 (cst_5 i)
def v35 (i : In F) : FVec F S16384x1 .f32 := Host.divf (v33 i) (v34 i)
def c_6 (i : In F) : IVec S_ 32 := constantI S_ 32 0#32
def call2_cst (i : In F) : FVec F S_ .f32 := constant S_ .f32 0x00000000#32
def call2_v0 (i : In F) : FVec F S16384 .f32 := Host.reduceAdd (v31 i) (call2_cst i) reducesTo_S16384x416_S16384_d1 h_S_
def call2_v1 (i : In F) : FVec F S16384x1 .f32 := broadcastInDim S16384x1 ![0] bcast_S16384_S16384x1_0 (call2_v0 i)
def call2_cst_0 (i : In F) : FVec F S_ .f32 := constant S_ .f32 0x43D00000#32
def call2_v2 (i : In F) : FVec F S16384x1 .f32 := broadcastInDim S16384x1 ![] bcast_S_S16384x1 (call2_cst_0 i)
def call2_v3 (i : In F) : FVec F S16384x1 .f32 := Host.divf (call2_v1 i) (call2_v2 i)
def call2_v4 (i : In F) : FVec F S16384x416 .f32 := broadcastInDim S16384x416 ![0, 1] bcast_S16384x1_S16384x416_0_1 (call2_v3 i)
def call2_v5 (i : In F) : FVec F S16384x416 .f32 := subf (v31 i) (call2_v4 i)
def call2_v6 (i : In F) : FVec F S16384x416 .f32 := mulf (call2_v5 i) (call2_v5 i)
def call2_v7 (i : In F) : FVec F S_ .f32 := sitofp .f32 (c_6 i)
def call2_cst_1 (i : In F) : FVec F S_ .f32 := constant S_ .f32 0x43D00000#32
def call2_v8 (i : In F) : FVec F S_ .f32 := subf (call2_cst_1 i) (call2_v7 i)
def call2_cst_2 (i : In F) : FVec F S_ .f32 := constant S_ .f32 0x00000000#32
def call2_v9 (i : In F) : FVec F S16384 .f32 := Host.reduceAdd (call2_v6 i) (call2_cst_2 i) reducesTo_S16384x416_S16384_d1 h_S_
def call2_v10 (i : In F) : FVec F S16384x1 .f32 := broadcastInDim S16384x1 ![0] bcast_S16384_S16384x1_0 (call2_v9 i)
def call2_v11 (i : In F) : FVec F S16384x1 .f32 := broadcastInDim S16384x1 ![] bcast_S_S16384x1 (call2_v8 i)
def call2_v12 (i : In F) : FVec F S16384x1 .f32 := Host.divf (call2_v10 i) (call2_v11 i)
def call2_cst_3 (i : In F) : FVec F S_ .f32 := constant S_ .f32 0x00000000#32
def call2_v13 (i : In F) : IVec S_ 1 := cmpf .ogt (call2_v8 i) (call2_cst_3 i)
def call2_cst_4 (i : In F) : FVec F S_ .f32 := constant S_ .f32 0x7FC00000#32
def call2_call0_v0 (i : In F) : FVec F S_ .f32 := id (call2_cst_4 i)
def call2_call0_v1 (i : In F) : FVec F S16384x1 .f32 := broadcastInDim S16384x1 ![] bcast_S_S16384x1 (call2_call0_v0 i)
def v36 (i : In F) : FVec F S16384x1 .f32 := select (broadcastInDim S16384x1 ![] bcast_S_S16384x1 (call2_v13 i)) (call2_v12 i) (call2_call0_v1 i)
def v37 (i : In F) : FVec F S16384x416 .f32 := broadcastInDim S16384x416 ![0, 1] bcast_S16384x1_S16384x416_0_1 (v35 i)
def v38 (i : In F) : FVec F S16384x416 .f32 := subf (v31 i) (v37 i)
def cst_7 (i : In F) : FVec F S_ .f32 := constant S_ .f32 0x3727C5AC#32
def v39 (i : In F) : FVec F S16384x1 .f32 := broadcastInDim S16384x1 ![] bcast_S_S16384x1 (cst_7 i)
def v40 (i : In F) : FVec F S16384x1 .f32 := addf (v36 i) (v39 i)
def v41 (i : In F) : FVec F S16384x1 .f32 := Host.sqrt (v40 i)
def v42 (i : In F) : FVec F S16384x416 .f32 := broadcastInDim S16384x416 ![0, 1] bcast_S16384x1_S16384x416_0_1 (v41 i)
def v43 (i : In F) : FVec F S16384x416 .f32 := Host.divf (v38 i) (v42 i)
def v44 (i : In F) : FVec F S1x416 .f32 := broadcastInDim S1x416 ![1] bcast_S416_S1x416_1 i.a6
def v45 (i : In F) : FVec F S16384x416 .f32 := broadcastInDim S16384x416 ![0, 1] bcast_S1x416_S16384x416_0_1 (v44 i)
def v46 (i : In F) : FVec F S16384x416 .f32 := mulf (v43 i) (v45 i)
def v47 (i : In F) : FVec F S1x416 .f32 := broadcastInDim S1x416 ![1] bcast_S416_S1x416_1 i.a7
def v48 (i : In F) : FVec F S16384x416 .f32 := broadcastInDim S16384x416 ![0, 1] bcast_S1x416_S16384x416_0_1 (v47 i)
def v49 (i : In F) : FVec F S16384x416 .f32 := addf (v46 i) (v48 i)
def v50 (i : In F) : FVec F S16384x416 .f32 := Host.dotGeneral dot_S16384x416_S416x416_S16384x416_1_0_0_1_n_n none (v49 i) i.a8
def v51 (i : In F) : FVec F S1x416 .f32 := broadcastInDim S1x416 ![1] bcast_S416_S1x416_1 i.a9
def v52 (i : In F) : FVec F S16384x416 .f32 := broadcastInDim S16384x416 ![0, 1] bcast_S1x416_S16384x416_0_1 (v51 i)
def v53 (i : In F) : FVec F S16384x416 .f32 := addf (v50 i) (v52 i)
def cst_8 (i : In F) : FVec F S_ .f32 := constant S_ .f32 0x3F000000#32
def v54 (i : In F) : FVec F S16384x416 .f32 := broadcastInDim S16384x416 ![] bcast_S_S16384x416 (cst_8 i)
def v55 (i : In F) : FVec F S16384x416 .f32 := mulf (v54 i) (v53 i)
def v56 (i : In F) : FVec F S16384x416 .f32 := Host.negf (v53 i)
def cst_9 (i : In F) : FVec F S_ .f32 := constant S_ .f32 0x3F3504F3#32
def v57 (i : In F) : FVec F S16384x416 .f32 := broadcastInDim S16384x416 ![] bcast_S_S16384x416 (cst_9 i)
def v58 (i : In F) : FVec F S16384x416 .f32 := mulf (v56 i) (v57 i)
def v59 (i : In F) : FVec F S16384x416 .f32 := Host.erfc (v58 i)
def v60 (i : In F) : FVec F S16384x416 .f32 := mulf (v55 i) (v59 i)
def v61 (i : In F) : FVec F S16384x16 .f32 := Host.dotGeneral dot_S16384x416_S416x16_S16384x16_1_0_0_1_n_n none (v60 i) i.a10
def v62 (i : In F) : FVec F S1x16 .f32 := broadcastInDim S1x16 ![1] bcast_S16_S1x16_1 i.a11
def v63 (i : In F) : FVec F S16384x16 .f32 := broadcastInDim S16384x16 ![0, 1] bcast_S1x16_S16384x16_0_1 (v62 i)
def v64 (i : In F) : FVec F S16384x16 .f32 := addf (v61 i) (v63 i)
def v65 (i : In F) : FVec F S16384x2 .f32 := Host.dotGeneral dot_S16384x16_S16x2_S16384x2_1_0_0_1_n_n none (v64 i) i.a12
def v66 (i : In F) : FVec F S1x2 .f32 := broadcastInDim S1x2 ![1] bcast_S2_S1x2_1 i.a13
def v67 (i : In F) : FVec F S16384x2 .f32 := broadcastInDim S16384x2 ![0, 1] bcast_S1x2_S16384x2_0_1 (v66 i)
def v68 (i : In F) : FVec F S16384x2 .f32 := addf (v65 i) (v67 i)
def out0 (i : In F) : FVec F S16384x2 .f32 := v68 i
def out1 (i : In F) : FVec F S16384x16 .f32 := v64 i

end Cert.ReferenceIdeal.RefTerms

end
-- ==== Proof.RefRun.lean ====
import proofs.«219071_g10050223472739_week1_w1_120_16_alg».proof.Proof.RefTerms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The program's operations in order, cut where a single computed value is still to be read. -/
abbrev w1 : List (HloOp τ sig (Elt F)) :=
  [ TRef.nullary main_call0.c (constantI S_ 32 0#32),
    TRef.unary main_call0.c main_call0.v0 (broadcastInDim S26x16384 ![] bcast_S_S26x16384),
    TRef.binary (.of main_arg0) main_call0.v0 main_call0.v1 (cmpi .slt),
    TRef.nullary main_call0.c_0 (constantI S_ 32 100000#32),
    TRef.unary main_call0.c_0 main_call0.v2 (broadcastInDim S26x16384 ![] bcast_S_S26x16384),
    TRef.binary (.of main_arg0) main_call0.v2 main_call0.v3 addi,
    TRef.ternary main_call0.v1 main_call0.v3 (.of main_arg0) main_call0.call0.v0 select,
    TRef.unary main_call0.call0.v0 main_call0.v5 (broadcastInDim S26x16384x1 ![0, 1] bcast_S26x16384_S26x16384x1_0_1),
    TRef.nullary main_call0.c_1 (constantI S1 32 99999#32),
    TRef.nullary main_call0.c_2 (constantI S_ 32 0#32),
    TRef.unary main_call0.c_2 main_call0.v6 (broadcastInDim S26x16384x1 ![] bcast_S_S26x16384x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S26x16384x1 ![0, 1, 2] bcast_S1x1x1_S26x16384x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S26x16384x1_S26x16384_d2 h_S_),
    TRef.binary (.of main_arg1) main_call0.v5 main_call0.v13 (fun x i => Host.gather gather_S26x100000x100_S26x16384x1_S26x16384x100_2_1_0_0_1_2_11100 x i),
    TRef.unary main_call0.v12 main_call0.v14 (broadcastInDim S26x16384x100 ![0, 1] bcast_S26x16384_S26x16384x100_0_1),
    TRef.nullary main_call0.cst (constant S_ .f32 0x7FC00000#32),
    TRef.unary main_call0.cst main_call0.v15 (broadcastInDim S26x16384x100 ![] bcast_S_S26x16384x100),
    TRef.ternary main_call0.v14 main_call0.v13 main_call0.v15 main_call0.v16 select ]

abbrev w2 : List (HloOp τ sig (Elt F)) :=
  [ unary main_arg2 main_v1 (broadcastInDim S26x1x100 ![0, 2] bcast_S26x100_S26x1x100_0_2),
    unary main_arg3 main_v2 (broadcastInDim S26x1x100 ![0, 2] bcast_S26x100_S26x1x100_0_2),
    nullary main_cst (constant S_ .f32 0x00000000#32),
    binary main_v0 main_cst main_v3 ((fun x v => Host.reduceAdd x v reducesTo_S26x16384x100_S26x16384_d2 h_S_) : FVec F S26x16384x100 .f32 → FVec F S_ .f32 → FVec F S26x16384 .f32),
    unary main_v3 main_v4 (broadcastInDim S26x16384x1 ![0, 1] bcast_S26x16384_S26x16384x1_0_1),
    nullary main_cst_0 (constant S_ .f32 0x42C80000#32),
    unary main_cst_0 main_v5 (broadcastInDim S26x16384x1 ![] bcast_S_S26x16384x1),
    binary main_v4 main_v5 main_v6 Host.divf,
    nullary main_c (constantI S_ 32 0#32),
    TRef.nullary main_call1.cst (constant S_ .f32 0x00000000#32),
    TRef.binary (.of main_v0) main_call1.cst main_call1.v0 (fun x v => Host.reduceAdd x v reducesTo_S26x16384x100_S26x16384_d2 h_S_),
    TRef.unary main_call1.v0 main_call1.v1 (broadcastInDim S26x16384x1 ![0, 1] bcast_S26x16384_S26x16384x1_0_1),
    TRef.nullary main_call1.cst_0 (constant S_ .f32 0x42C80000#32),
    TRef.unary main_call1.cst_0 main_call1.v2 (broadcastInDim S26x16384x1 ![] bcast_S_S26x16384x1),
    TRef.binary main_call1.v1 main_call1.v2 main_call1.v3 Host.divf,
    TRef.unary main_call1.v3 main_call1.v4 (broadcastInDim S26x16384x100 ![0, 1, 2] bcast_S26x16384x1_S26x16384x100_0_1_2),
    TRef.binary (.of main_v0) main_call1.v4 main_call1.v5 subf,
    TRef.binary main_call1.v5 main_call1.v5 main_call1.v6 mulf,
    TRef.unary (.of main_c) main_call1.v7 (sitofp .f32),
    TRef.nullary main_call1.cst_1 (constant S_ .f32 0x42C80000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S26x16384x100_S26x16384_d2 h_S_),
    TRef.unary main_call1.v9 main_call1.v10 (broadcastInDim S26x16384x1 ![0, 1] bcast_S26x16384_S26x16384x1_0_1),
    TRef.unary main_call1.v8 main_call1.v11 (broadcastInDim S26x16384x1 ![] bcast_S_S26x16384x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S26x16384x1 ![] bcast_S_S26x16384x1),
    TRef.ternary main_call1.v13 main_call1.v12 main_call1.call0.v1 main_call1.call0.v2 (fun p a b => select (broadcastInDim S26x16384x1 ![] bcast_S_S26x16384x1 p) a b),
    unary main_v6 main_v8 (broadcastInDim S26x16384x100 ![0, 1, 2] bcast_S26x16384x1_S26x16384x100_0_1_2),
    binary main_v0 main_v8 main_v9 subf,
    nullary main_cst_1 (constant S_ .f32 0x3727C5AC#32),
    unary main_cst_1 main_v10 (broadcastInDim S26x16384x1 ![] bcast_S_S26x16384x1),
    binary main_v7 main_v10 main_v11 addf,
    unary main_v11 main_v12 Host.sqrt,
    unary main_v12 main_v13 (broadcastInDim S26x16384x100 ![0, 1, 2] bcast_S26x16384x1_S26x16384x100_0_1_2),
    binary main_v9 main_v13 main_v14 Host.divf,
    unary main_v1 main_v15 (broadcastInDim S26x16384x100 ![0, 1, 2] bcast_S26x1x100_S26x16384x100_0_1_2),
    binary main_v14 main_v15 main_v16 mulf,
    unary main_v2 main_v17 (broadcastInDim S26x16384x100 ![0, 1, 2] bcast_S26x1x100_S26x16384x100_0_1_2),
    binary main_v16 main_v17 main_v18 addf ]

abbrev w3 : List (HloOp τ sig (Elt F)) :=
  [ binary main_v18 main_arg4 main_v19 ((fun l r => Host.dotGeneral dot_S26x16384x100_S26x100x16_S26x16384x16_2_1_1_2_0_0 none l r) : FVec F S26x16384x100 .f32 → FVec F S26x100x16 .f32 → FVec F S26x16384x16 .f32),
    unary main_arg5 main_v20 (broadcastInDim S26x1x16 ![0, 2] bcast_S26x16_S26x1x16_0_2),
    unary main_v20 main_v21 (broadcastInDim S26x16384x16 ![0, 1, 2] bcast_S26x1x16_S26x16384x16_0_1_2),
    binary main_v19 main_v21 main_v22 addf,
    nullary main_cst_2 (constant S_ .f32 0x3F000000#32),
    unary main_cst_2 main_v23 (broadcastInDim S26x16384x16 ![] bcast_S_S26x16384x16),
    binary main_v23 main_v22 main_v24 mulf,
    unary main_v22 main_v25 Host.negf,
    nullary main_cst_3 (constant S_ .f32 0x3F3504F3#32),
    unary main_cst_3 main_v26 (broadcastInDim S26x16384x16 ![] bcast_S_S26x16384x16),
    binary main_v25 main_v26 main_v27 mulf,
    unary main_v27 main_v28 Host.erfc,
    binary main_v24 main_v28 main_v29 mulf,
    unary main_v29 main_v30 ((transpose S16384x26x16 [1, 0, 2] · transposes_S26x16384x16_S16384x26x16_1_0_2) : FVec F S26x16384x16 .f32 → FVec F S16384x26x16 .f32),
    reshape main_v30 main_v31 rfl shapeCasts_S16384x26x16_S16384x416 ]

abbrev w4 : List (HloOp τ sig (Elt F)) :=
  [ nullary main_cst_4 (constant S_ .f32 0x00000000#32),
    binary main_v31 main_cst_4 main_v32 ((fun x v => Host.reduceAdd x v reducesTo_S16384x416_S16384_d1 h_S_) : FVec F S16384x416 .f32 → FVec F S_ .f32 → FVec F S16384 .f32),
    unary main_v32 main_v33 (broadcastInDim S16384x1 ![0] bcast_S16384_S16384x1_0),
    nullary main_cst_5 (constant S_ .f32 0x43D00000#32),
    unary main_cst_5 main_v34 (broadcastInDim S16384x1 ![] bcast_S_S16384x1),
    binary main_v33 main_v34 main_v35 Host.divf,
    nullary main_c_6 (constantI S_ 32 0#32),
    TRef.nullary main_call2.cst (constant S_ .f32 0x00000000#32),
    TRef.binary (.of main_v31) main_call2.cst main_call2.v0 (fun x v => Host.reduceAdd x v reducesTo_S16384x416_S16384_d1 h_S_),
    TRef.unary main_call2.v0 main_call2.v1 (broadcastInDim S16384x1 ![0] bcast_S16384_S16384x1_0),
    TRef.nullary main_call2.cst_0 (constant S_ .f32 0x43D00000#32),
    TRef.unary main_call2.cst_0 main_call2.v2 (broadcastInDim S16384x1 ![] bcast_S_S16384x1),
    TRef.binary main_call2.v1 main_call2.v2 main_call2.v3 Host.divf,
    TRef.unary main_call2.v3 main_call2.v4 (broadcastInDim S16384x416 ![0, 1] bcast_S16384x1_S16384x416_0_1),
    TRef.binary (.of main_v31) main_call2.v4 main_call2.v5 subf,
    TRef.binary main_call2.v5 main_call2.v5 main_call2.v6 mulf,
    TRef.unary (.of main_c_6) main_call2.v7 (sitofp .f32),
    TRef.nullary main_call2.cst_1 (constant S_ .f32 0x43D00000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S16384x416_S16384_d1 h_S_),
    TRef.unary main_call2.v9 main_call2.v10 (broadcastInDim S16384x1 ![0] bcast_S16384_S16384x1_0),
    TRef.unary main_call2.v8 main_call2.v11 (broadcastInDim S16384x1 ![] bcast_S_S16384x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S16384x1 ![] bcast_S_S16384x1),
    TRef.ternary main_call2.v13 main_call2.v12 main_call2.call0.v1 main_call2.call0.v2 (fun p a b => select (broadcastInDim S16384x1 ![] bcast_S_S16384x1 p) a b),
    unary main_v35 main_v37 (broadcastInDim S16384x416 ![0, 1] bcast_S16384x1_S16384x416_0_1),
    binary main_v31 main_v37 main_v38 subf,
    nullary main_cst_7 (constant S_ .f32 0x3727C5AC#32),
    unary main_cst_7 main_v39 (broadcastInDim S16384x1 ![] bcast_S_S16384x1),
    binary main_v36 main_v39 main_v40 addf,
    unary main_v40 main_v41 Host.sqrt,
    unary main_v41 main_v42 (broadcastInDim S16384x416 ![0, 1] bcast_S16384x1_S16384x416_0_1),
    binary main_v38 main_v42 main_v43 Host.divf,
    unary main_arg6 main_v44 (broadcastInDim S1x416 ![1] bcast_S416_S1x416_1),
    unary main_v44 main_v45 (broadcastInDim S16384x416 ![0, 1] bcast_S1x416_S16384x416_0_1),
    binary main_v43 main_v45 main_v46 mulf,
    unary main_arg7 main_v47 (broadcastInDim S1x416 ![1] bcast_S416_S1x416_1),
    unary main_v47 main_v48 (broadcastInDim S16384x416 ![0, 1] bcast_S1x416_S16384x416_0_1),
    binary main_v46 main_v48 main_v49 addf ]

abbrev w5 : List (HloOp τ sig (Elt F)) :=
  [ binary main_v49 main_arg8 main_v50 ((fun l r => Host.dotGeneral dot_S16384x416_S416x416_S16384x416_1_0_0_1_n_n none l r) : FVec F S16384x416 .f32 → FVec F S416x416 .f32 → FVec F S16384x416 .f32),
    unary main_arg9 main_v51 (broadcastInDim S1x416 ![1] bcast_S416_S1x416_1),
    unary main_v51 main_v52 (broadcastInDim S16384x416 ![0, 1] bcast_S1x416_S16384x416_0_1),
    binary main_v50 main_v52 main_v53 addf,
    nullary main_cst_8 (constant S_ .f32 0x3F000000#32),
    unary main_cst_8 main_v54 (broadcastInDim S16384x416 ![] bcast_S_S16384x416),
    binary main_v54 main_v53 main_v55 mulf,
    unary main_v53 main_v56 Host.negf,
    nullary main_cst_9 (constant S_ .f32 0x3F3504F3#32),
    unary main_cst_9 main_v57 (broadcastInDim S16384x416 ![] bcast_S_S16384x416),
    binary main_v56 main_v57 main_v58 mulf,
    unary main_v58 main_v59 Host.erfc,
    binary main_v55 main_v59 main_v60 mulf,
    binary main_v60 main_arg10 main_v61 ((fun l r => Host.dotGeneral dot_S16384x416_S416x16_S16384x16_1_0_0_1_n_n none l r) : FVec F S16384x416 .f32 → FVec F S416x16 .f32 → FVec F S16384x16 .f32),
    unary main_arg11 main_v62 (broadcastInDim S1x16 ![1] bcast_S16_S1x16_1),
    unary main_v62 main_v63 (broadcastInDim S16384x16 ![0, 1] bcast_S1x16_S16384x16_0_1),
    binary main_v61 main_v63 main_v64 addf,
    binary main_v64 main_arg12 main_v65 ((fun l r => Host.dotGeneral dot_S16384x16_S16x2_S16384x2_1_0_0_1_n_n none l r) : FVec F S16384x16 .f32 → FVec F S16x2 .f32 → FVec F S16384x2 .f32),
    unary main_arg13 main_v66 (broadcastInDim S1x2 ![1] bcast_S2_S1x2_1),
    unary main_v66 main_v67 (broadcastInDim S16384x2 ![0, 1] bcast_S1x2_S16384x2_0_1),
    binary main_v65 main_v67 main_v68 addf ]

abbrev ops : List (HloOp τ sig (Elt F)) :=
  w1 ++ (w2 ++ (w3 ++ (w4 ++ w5)))

set_option maxRecDepth 65536 in
set_option maxHeartbeats 8000000 in
/-- With each call unfolded at its call site, the program is these operations in sequence. -/
theorem main_eq (c : Dev nD) : main (F := F) c = seq ops := by
  simp only [main, main_part0, main_part1, fn_take.body, fn_where.body, fn_var.body, fn_where_0.body, fn_var_1.body,
    fn_where_2.body, ops, w1, w2, w3, w4, w5, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, w1, w2, w3, w4, w5, List.cons_append, List.nil_append, List.Forall, nullary_bufs_sub, unary_bufs_sub,
    binary_bufs_sub, ternary_bufs_sub, reshape_bufs_sub, and_self]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

abbrev argRefs : List (Ref sig .tc) := [main_arg0, main_arg1, main_arg2, main_arg3, main_arg4, main_arg5, main_arg6, main_arg7, main_arg8, main_arg9, main_arg10, main_arg11, main_arg12, main_arg13]

/-- The argument buffers hold the arrays `i`. -/
structure Args (V : Valuation τ sig (Elt F)) (i : RefTerms.In F) : Prop where
  a0 : V (Proc.devRef .tc main_arg0) = i.a0
  a1 : V (Proc.devRef .tc main_arg1) = i.a1
  a2 : V (Proc.devRef .tc main_arg2) = i.a2
  a3 : V (Proc.devRef .tc main_arg3) = i.a3
  a4 : V (Proc.devRef .tc main_arg4) = i.a4
  a5 : V (Proc.devRef .tc main_arg5) = i.a5
  a6 : V (Proc.devRef .tc main_arg6) = i.a6
  a7 : V (Proc.devRef .tc main_arg7) = i.a7
  a8 : V (Proc.devRef .tc main_arg8) = i.a8
  a9 : V (Proc.devRef .tc main_arg9) = i.a9
  a10 : V (Proc.devRef .tc main_arg10) = i.a10
  a11 : V (Proc.devRef .tc main_arg11) = i.a11
  a12 : V (Proc.devRef .tc main_arg12) = i.a12
  a13 : V (Proc.devRef .tc main_arg13) = i.a13

/-- No operation of the line writes an argument buffer. -/
def Keeps (l : List (HloOp τ sig (Elt F))) : Prop :=
  l.Forall fun op => ∀ r ∈ argRefs, Proc.devRef (τ := τ) .tc r ∉ op.writes

theorem keeps : Keeps (F := F) w1 ∧ Keeps (F := F) w2 ∧ Keeps (F := F) w3 ∧ Keeps (F := F) w4 ∧ Keeps (F := F) w5 := by
  simp only [Keeps, w1, w2, w3, w4, w5, List.Forall, nullary_writes, unary_writes, binary_writes, ternary_writes, reshape_writes,
    Finset.mem_singleton, (Proc.devRef_injective _).eq_iff]
  refine ⟨?_, ?_, ?_, ?_, ?_⟩ <;> (repeat' constructor) <;> decide

section
variable {V : Valuation τ sig (Elt F)} {i : RefTerms.In F}

theorem Args.keep {l : List (HloOp τ sig (Elt F))} (h : Args V i) (hl : Keeps l) : Args (after l V) i := by
  have k : ∀ r ∈ argRefs, after l V (Proc.devRef .tc r) = V (Proc.devRef .tc r) := fun r hr =>
    after_of_forall_not_mem l V fun op ho => List.forall_iff_forall_mem.mp hl op ho r hr
  exact ⟨(k _ (by decide)).trans h.a0, (k _ (by decide)).trans h.a1, (k _ (by decide)).trans h.a2, (k _ (by decide)).trans h.a3, (k _ (by decide)).trans h.a4, (k _ (by decide)).trans h.a5, (k _ (by decide)).trans h.a6, (k _ (by decide)).trans h.a7, (k _ (by decide)).trans h.a8, (k _ (by decide)).trans h.a9, (k _ (by decide)).trans h.a10, (k _ (by decide)).trans h.a11, (k _ (by decide)).trans h.a12, (k _ (by decide)).trans h.a13⟩

/-- Each stretch computes its one live value from the previous one and the arguments. -/
theorem step1 (h : Args V i) :
    after w1 V (Proc.devRef .tc main_v0) = RefTerms.v0 i := by
  simp only [w1]
  after_results_simp
  simp only [h.a0, h.a1, TRef.ofBuf, TRef.toBuf, cast_eq]
  rfl

theorem step2 (h : Args V i) (h0 : V (Proc.devRef .tc main_v0) = RefTerms.v0 i) :
    after w2 V (Proc.devRef .tc main_v18) = RefTerms.v18 i := by
  simp only [w2]
  after_results_simp
  simp only [h.a2, h.a3, h0, TRef.ofBuf, TRef.toBuf, cast_eq]
  rfl

theorem step3 (h : Args V i) (h0 : V (Proc.devRef .tc main_v18) = RefTerms.v18 i) :
    after w3 V (Proc.devRef .tc main_v31) = RefTerms.v31 i := by
  simp only [w3]
  after_results_simp
  simp only [h.a4, h.a5, h0]
  rfl

theorem step4 (h : Args V i) (h0 : V (Proc.devRef .tc main_v31) = RefTerms.v31 i) :
    after w4 V (Proc.devRef .tc main_v49) = RefTerms.v49 i := by
  simp only [w4]
  after_results_simp
  simp only [h.a6, h.a7, h0, TRef.ofBuf, TRef.toBuf, cast_eq]
  rfl

theorem step5 (h : Args V i) (h0 : V (Proc.devRef .tc main_v49) = RefTerms.v49 i) :
    after w5 V (Proc.devRef .tc main_v64) = RefTerms.v64 i ∧ after w5 V (Proc.devRef .tc main_v68) = RefTerms.v68 i := by
  constructor
  · simp only [w5]
    after_results_simp
    simp only [h.a8, h.a9, h.a10, h.a11, h0]
    rfl
  · simp only [w5]
    after_results_simp
    simp only [h.a8, h.a9, h.a10, h.a11, h.a12, h.a13, h0]
    rfl

end

def inOf (m : (ℓ : Loc nD τ sig) → Buf (Elt F) ℓ) (c : Dev nD) : RefTerms.In F :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13)⟩

/-- After the whole line from the launch contents: the arguments as they were, both results at their terms. -/
theorem live (m : (ℓ : Loc nD τ sig) → Buf (Elt F) ℓ) (c : Dev nD) :
    Args (after ops (launchContents m c)) (inOf m c)
      ∧ after ops (launchContents m c) (Proc.devRef .tc main_v64) = RefTerms.v64 (inOf m c)
      ∧ after ops (launchContents m c) (Proc.devRef .tc main_v68) = RefTerms.v68 (inOf m c) := by
  obtain ⟨k1, k2, k3, k4, k5⟩ := keeps (F := F)
  simp only [ops, after_app]
  have a0 : Args (launchContents m c) (inOf m c) := ⟨rfl, rfl, rfl, rfl, rfl, rfl, rfl, rfl, rfl, rfl, rfl, rfl, rfl, rfl⟩
  have a1 := a0.keep k1
  have a2 := a1.keep k2
  have a3 := a2.keep k3
  have a4 := a3.keep k4
  exact ⟨a4.keep k5, step5 a4 (step4 a3 (step3 a2 (step2 a1 (step1 a0))))⟩

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v68) = RefTerms.out0 (inOf m c)
      ∧ r.2.mem ((c.tc : Thread nD τ).loc main_v64) = RefTerms.out1 (inOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
      have ⟨A, h64, h68⟩ := live m c
      ⟨(h c main_v68).trans h68, (h c main_v64).trans h64,
       (h c main_arg0).trans A.a0, (h c main_arg1).trans A.a1, (h c main_arg2).trans A.a2, (h c main_arg3).trans A.a3,
       (h c main_arg4).trans A.a4, (h c main_arg5).trans A.a5, (h c main_arg6).trans A.a6, (h c main_arg7).trans A.a7,
       (h c main_arg8).trans A.a8, (h c main_arg9).trans A.a9, (h c main_arg10).trans A.a10, (h c main_arg11).trans A.a11,
       (h c main_arg12).trans A.a12, (h c main_arg13).trans A.a13⟩)
    (run_seq scopedRefs_eq scopedSems_eq defs main (fun _ => ops) main_eq (fun _ => ops_sub) m ρ)

end Cert.ReferenceIdeal.RefRun

end
-- ==== Proof.RefValue1.lean ====
import proofs.«219071_g10050223472739_week1_w1_120_16_alg».proof.Proof.RefTerms
import proofs.«219071_g10050223472739_week1_w1_120_16_alg».proof.Proof.SpecArrays
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout
import Idealize.ShloMosaic.Lib.ReduceAll
import Idealize.ShloMosaic.Lib.StableHlo.Predicate

noncomputable section

namespace Cert.ReferenceIdeal.RefValue

open Idealize.ShloMosaic Idealize.ShloMosaic.ValueIdx Idealize.SL.Sem
open Idealize.ShloMosaic.StableHlo.Predicate (slt_iff_toNat sge_iff_toNat sle_iff_toNat toInt_eq_toNat_of_lt)
open Cert.ReferenceIdeal Cert.ReferenceIdeal.RefTerms

def arrays (i : In Ideal) : Cert.Spec.Arrays :=
  ⟨i.a0, i.a1, i.a2, i.a3, i.a4, i.a5, i.a6, i.a7, i.a8, i.a9, i.a10, i.a11, i.a12, i.a13⟩

variable [Facts]
open Facts₀ Facts

abbrev G := gather_S26x100000x100_S26x16384x1_S26x16384x100_2_1_0_0_1_2_11100

/-- The batched gather at `(c, b, d)` reads column `c`'s table at the clamped start index `idx[c, b, 0]`, coordinate `d`. -/
theorem gather_apply {α : Type} (x : S26x100000x100.Idx → α) (idx : IVec S26x16384x1 32) (c : Fin 26) (b : Fin 16384) (d : Fin 100) :
    Host.gather G x idx (ix3 c b d)
      = x (ix3 c ⟨min (idx (ix3 c b (0 : Fin 1))).toInt.toNat 99999, by omega⟩ d) := by
  unfold Host.gather
  congr 1
  funext a
  refine Fin.ext ?_
  show G.start (ix3 c b d) idx a + G.batchCoord (ix3 c b d) a + G.offCoord (ix3 c b d) a = _
  have m0 : (0 : Fin 3) ∈ G.operandBatchingDims := List.mem_singleton.mpr rfl
  have m1 : (1 : Fin 3) ∈ G.collapsedSliceDims := List.mem_singleton.mpr rfl
  have m1' : (1 : Fin 3) ∈ G.startIndexMap := List.mem_singleton.mpr rfl
  have n1 : (1 : Fin 3) ∉ G.operandBatchingDims := fun h => absurd (List.mem_singleton.mp h) (by decide)
  have n2 : (2 : Fin 3) ∉ G.operandBatchingDims := fun h => absurd (List.mem_singleton.mp h) (by decide)
  have n2' : (2 : Fin 3) ∉ G.startIndexMap := fun h => absurd (List.mem_singleton.mp h) (by decide)
  match a with
  | ⟨0, _⟩ =>
    show G.start (ix3 c b d) idx 0 + G.batchCoord (ix3 c b d) 0 + G.offCoord (ix3 c b d) 0 = c.val
    rw [G.start_batching _ _ _ m0, G.offCoord_eq_zero _ _ (fun h => ((G.mem_sKept _).mp h).2 m0), Nat.zero_add, Nat.add_zero]
    rfl
  | ⟨1, _⟩ =>
    show G.start (ix3 c b d) idx 1 + G.batchCoord (ix3 c b d) 1 + G.offCoord (ix3 c b d) 1 = min (idx (ix3 c b (0 : Fin 1))).toInt.toNat 99999
    rw [G.batchCoord_eq_zero _ _ n1, G.offCoord_eq_zero _ _ (fun h => ((G.mem_sKept _).mp h).1 m1)]
    simp only [Nat.add_zero]
    unfold GatherDims.start
    rw [dif_pos m1']
    have hsi : G.siIdx (ix3 c b d) ⟨List.idxOf (1 : Fin 3) G.startIndexMap, List.idxOf_lt_length_iff.2 m1'⟩ = ix3 c b (0 : Fin 1) := by
      funext e; fin_cases e <;> rfl
    rw [hsi]
    rfl
  | ⟨2, _⟩ =>
    show G.start (ix3 c b d) idx 2 + G.batchCoord (ix3 c b d) 2 + G.offCoord (ix3 c b d) 2 = d.val
    have h0 : G.start (ix3 c b d) idx 2 = 0 := by
      unfold GatherDims.start; rw [dif_neg n2']
    rw [G.batchCoord_eq_zero _ _ n2, h0, Nat.zero_add]
    rfl

variable (i : In Ideal) (hid : ∀ c b, (i.a0 (ix2 c b)).toNat < 100000)
include hid

/-- An id is not negative as a signed word, so it is not wrapped: the start indices are the ids. -/
theorem call0_v5_apply (c : Fin 26) (b : Fin 16384) (z : Fin 1) : call0_v5 i (ix3 c b z) = i.a0 (ix2 c b) := by
  have hc := hid c b
  have h1 : IntOp.cmpi .slt (i.a0 (ix2 c b)) 0#32 = 0#1 :=
    eq_zero_of_ne_one fun h => by simpa using (slt_iff_toNat (by omega) (by decide)).mp h
  rw [show call0_v5 i (ix3 c b z) = call0_v4 i (ix2 c b) from
    broadcastInDim_apply _ _ _ _ _ (fun a => by fin_cases a <;> rfl)]
  show Scalar.select (IntOp.cmpi .slt (i.a0 (ix2 c b)) 0#32) _ (i.a0 (ix2 c b)) = _
  rw [h1, select_zero]

/-- The range test `0 ≤ id ≤ 99999` holds at every start index, so its "all" over the unit axis is one. -/
theorem call0_v14_apply (c : Fin 26) (b : Fin 16384) (d : Fin 100) : call0_v14 i (ix3 c b d) = 1#1 := by
  have hR : S26x16384x1.Reduces [2] S26x16384 := by decide
  have h11 : ∀ c b z, call0_v11 i (ix3 c b z) = 1#1 := fun c b z => by
    have hc := hid c b
    have h7 : IntOp.cmpi .sge (i.a0 (ix2 c b)) 0#32 = 1#1 := (sge_iff_toNat (by omega) (by decide)).mpr (by simp)
    have h10 : IntOp.cmpi .sle (i.a0 (ix2 c b)) 99999#32 = 1#1 :=
      (sle_iff_toNat (by omega) (by decide)).mpr (show _ ≤ 99999 by omega)
    show IntOp.andi (IntOp.cmpi .sge (call0_v5 i (ix3 c b z)) 0#32)
      (IntOp.cmpi .sle (call0_v5 i (ix3 c b z)) 99999#32) = 1#1
    rw [call0_v5_apply i hid, h7, h10]; rfl
  rw [show call0_v14 i (ix3 c b d) = call0_v12 i (ix2 c b) from
    broadcastInDim_apply _ _ _ _ _ (fun a => by fin_cases a <;> rfl)]
  show Host.reduce IntOp.andi (call0_v11 i) (call0_c_3 i) reducesTo_S26x16384x1_S26x16384_d2 h_S_ (ix2 c b) = 1#1
  rw [Host.reduce_eq_fold_single IntOp.andi _ _ _ hR,
    show (call0_v11 i ∘ hR.lift (ix2 c b)) = fun _ => 1#1 from
      funext fun k => (congrArg (call0_v11 i) (eq_ix3 (hR.lift (ix2 c b) k))).trans (h11 _ _ _)]
  show Finset.fold IntOp.andi (1#1) (fun _ : Fin 1 => 1#1) Finset.univ = 1#1
  rfl

/-- The taken array is the looked-up entry: the fill value of out-of-range ids is never selected. -/
theorem v0_apply (c : Fin 26) (b : Fin 16384) (d : Fin 100) :
    v0 i (ix3 c b d) = Cert.Spec.x (arrays i).args c b d := by
  have hc := hid c b
  show Scalar.select (call0_v14 i (ix3 c b d)) (call0_v13 i (ix3 c b d)) (call0_v15 i (ix3 c b d)) = _
  rw [call0_v14_apply i hid, select_one]
  show Host.gather G i.a1 (call0_v5 i) (ix3 c b d) = _
  rw [gather_apply]
  refine congrArg i.a1 (congrArg (ix3 c · d) (Fin.ext ?_))
  show min (call0_v5 i (ix3 c b 0)).toInt.toNat 99999 = (i.a0 (ix2 c b)).toNat % 100000
  rw [call0_v5_apply i hid, toInt_eq_toNat_of_lt (by omega), Int.toNat_natCast, Nat.mod_eq_of_lt hc]
  omega

end Cert.ReferenceIdeal.RefValue

end
-- ==== Proof.RefValue2.lean ====
import proofs.«219071_g10050223472739_week1_w1_120_16_alg».proof.Proof.RefValue1

noncomputable section

namespace Cert.ReferenceIdeal.RefValue

open Idealize.ShloMosaic Idealize.ShloMosaic.ValueIdx Idealize.SL.Sem
open Cert.ReferenceIdeal Cert.ReferenceIdeal.RefTerms Cert.Spec

variable [Facts]
open Facts₀ Facts

theorem c100_pos : (0 : EReal) < c100 := by
  simp [Ideal.ofBits, Ideal.ieee, -EReal.coe_mul]
theorem c416_pos : (0 : EReal) < c416 := by
  simp [Ideal.ofBits, Ideal.ieee, -EReal.coe_mul]

/-- The variance's divisor `n − float(0)` is `n`. -/
theorem sub_zero_apply (n : BitVec 32) (j : S_.Idx) :
    subf (constant (F := Ideal) S_ .f32 n) (sitofp .f32 (constantI S_ 32 0#32)) j = Ideal.ofBits .f32 n := by
  rw [subf_apply]; exact (by simp : ∀ x : EReal, x - (((0#32 : BitVec 32).toInt : ℝ) : EReal) = x) _

/-- The variance's tail: the divisor is positive, so the quotient is the one selected. -/
theorem var_select (s w : EReal) {n n₁ n₂ z : EReal} (h₁ : n₁ = n) (h₂ : n₂ = n) (hz : z = 0) (hn : 0 < n) :
    Scalar.select (Ideal.cmp .ogt n₁ z) (Ideal.div s n₂) w = Ideal.div s n := by
  subst h₁ h₂ hz; simp [Ideal.cmp, hn, select_one]

/-- The sum over the last axis from the float zero, copied back as a unit axis, at an entry. -/
theorem sum_cbd (x : FVec Ideal S26x16384x100 .f32) (c : Fin 26) (b : Fin 16384) (z : Fin 1) :
    broadcastInDim S26x16384x1 ![0, 1] bcast_S26x16384_S26x16384x1_0_1
      (Host.reduceAdd x (constant S_ .f32 0#32) reducesTo_S26x16384x100_S26x16384_d2 h_S_) (ix3 c b z)
      = ∑ d, x (ix3 c b d) := by
  have hR : S26x16384x100.Reduces [2] S26x16384 := by decide
  rw [broadcastInDim_apply _ _ _ _ (ix2 c b) (fun a => by fin_cases a <;> rfl), hostReduceAdd_apply,
    Ideal.hostReduceAdd_single _ hR]
  exact (congrArg (· + _) Ideal.ofBits_zero_f32).trans ((zero_add _).trans
    (Finset.sum_congr rfl fun k _ => congrArg x (funext fun a => by fin_cases a <;> rfl)))

/-- A unit last axis copied along 100 coordinates, at an entry. -/
theorem bc_cbd {α : Type} (x : S26x16384x1.Idx → α) (c : Fin 26) (b : Fin 16384) (d : Fin 100) :
    broadcastInDim S26x16384x100 ![0, 1, 2] bcast_S26x16384x1_S26x16384x100_0_1_2 x (ix3 c b d) = x (ix3 c b 0) :=
  broadcastInDim_apply _ _ _ _ _ (fun a => by fin_cases a <;> rfl)

variable (i : In Ideal) (hid : ∀ c b, (i.a0 (ix2 c b)).toNat < 100000)
include hid

theorem v6_apply (c : Fin 26) (b : Fin 16384) (z : Fin 1) : v6 i (ix3 c b z) = muR (arrays i).args c b :=
  congrArg (Ideal.div · c100) ((sum_cbd (v0 i) c b z).trans (Finset.sum_congr rfl fun d _ => v0_apply i hid c b d))

theorem v9_apply (c : Fin 26) (b : Fin 16384) (d : Fin 100) :
    v9 i (ix3 c b d) = x (arrays i).args c b d - muR (arrays i).args c b := by
  rw [v9, subf_apply, v0_apply i hid, v8, bc_cbd, v6_apply i hid]

theorem v7_apply (c : Fin 26) (b : Fin 16384) (z : Fin 1) : v7 i (ix3 c b z) = varR (arrays i).args c b :=
  (var_select (call1_v10 i (ix3 c b z)) _ (sub_zero_apply _ _) (sub_zero_apply _ _) Ideal.ofBits_zero_f32
    c100_pos).trans (congrArg (Ideal.div · c100)
    ((sum_cbd (call1_v6 i) c b z).trans (Finset.sum_congr rfl fun d _ => by
      rw [call1_v6, mulf_apply]; exact congrArg (fun t => t * t) (v9_apply i hid c b d))))

end Cert.ReferenceIdeal.RefValue

end
-- ==== Proof.RefValue3.lean ====
import proofs.«219071_g10050223472739_week1_w1_120_16_alg».proof.Proof.RefValue2
import Idealize.ShloMosaic.Lib.StackMember

noncomputable section

namespace Cert.ReferenceIdeal.RefValue

open Idealize.ShloMosaic Idealize.ShloMosaic.ValueIdx Idealize.SL.Sem
open Cert.ReferenceIdeal Cert.ReferenceIdeal.RefTerms Cert.Spec

variable [Facts]
open Facts₀ Facts

/-- A per-column vector copied along the batch axis, at an entry. -/
theorem par_apply {n : Nat} (v : FVec Ideal ⟨2, ![26, n]⟩ .f32)
    (h₁ : (⟨2, ![26, n]⟩ : Shape).BroadcastsInDim ⟨3, ![26, 1, n]⟩ ![0, 2])
    (h₂ : (⟨3, ![26, 1, n]⟩ : Shape).BroadcastsInDim ⟨3, ![26, 16384, n]⟩ ![0, 1, 2])
    (c : Fin 26) (b : Fin 16384) (d : Fin n) :
    broadcastInDim ⟨3, ![26, 16384, n]⟩ ![0, 1, 2] h₂ (broadcastInDim ⟨3, ![26, 1, n]⟩ ![0, 2] h₁ v) (ix3 c b d)
      = v (ix2 c d) := by
  have k : d.val = if n = 1 then 0 else d.val := by
    split_ifs with h
    · subst h; exact Fin.val_eq_zero d
    · rfl
  rw [broadcastInDim_apply _ _ _ _ (ix3 c 0 d) (fun a => by fin_cases a <;> first | rfl | exact k),
    broadcastInDim_apply _ _ _ _ (ix2 c d) (fun a => by fin_cases a <;> first | rfl | exact k)]

variable (i : In Ideal) (hid : ∀ c b, (i.a0 (ix2 c b)).toNat < 100000)
include hid

theorem v18_apply (c : Fin 26) (b : Fin 16384) (d : Fin 100) : v18 i (ix3 c b d) = yR (arrays i).args c b d := by
  show Ideal.div (v9 i (ix3 c b d)) (v13 i (ix3 c b d)) * v15 i (ix3 c b d) + v17 i (ix3 c b d) = _
  rw [v9_apply i hid, show v13 i (ix3 c b d) = Ideal.sqrt (v7 i (ix3 c b 0) + eps) from bc_cbd (v12 i) c b d,
    v7_apply i hid, show v15 i (ix3 c b d) = _ from par_apply i.a2 _ _ c b d,
    show v17 i (ix3 c b d) = _ from par_apply i.a3 _ _ c b d]
  rfl

theorem v22_apply (c : Fin 26) (b : Fin 16384) (o : Fin 16) : v22 i (ix3 c b o) = gR (arrays i).args c b o := by
  show Host.dotGeneral ⟨[2], [1], [1], [2], [0], [0], dot_S26x16384x100_S26x100x16_S26x16384x16_2_1_1_2_0_0_wf⟩ none
    (v18 i) i.a4 (ix3 c b o) + v21 i (ix3 c b o) = _
  rw [StackMember.dotGeneral_stack_apply, show v21 i (ix3 c b o) = _ from par_apply i.a5 _ _ c b o]
  simp only [v18_apply i hid]; rfl

theorem v31_apply (b : Fin 16384) (j : Fin 416) : v31 i (ix2 b j) = catR (arrays i).args b j := by
  show shapeCast S16384x416 (v30 i) _ (ix2 b j) = _
  rw [shapeCast_apply _ _ _ (ix3 b (colOf j) (outOf j)) (by
    rw [Shape.rowMajor_val_three, Shape.rowMajor_val_two]
    show (b.val * 26 + j.val / 16) * 16 + j.val % 16 = b.val * 416 + j.val
    omega)]
  show transpose S16384x26x16 [1, 0, 2] (v29 i) _ (ix3 b (colOf j) (outOf j)) = _
  rw [transpose_apply _ _ _ _ (ix3 (colOf j) b (outOf j)) (fun a => by fin_cases a <;> rfl)]
  exact congrArg geluR (v22_apply i hid _ b _)

end Cert.ReferenceIdeal.RefValue

end
-- ==== Proof.RefValue4.lean ====
import proofs.«219071_g10050223472739_week1_w1_120_16_alg».proof.Proof.RefValue3

noncomputable section

namespace Cert.ReferenceIdeal.RefValue

open Idealize.ShloMosaic Idealize.ShloMosaic.ValueIdx Idealize.SL.Sem
open Cert.ReferenceIdeal Cert.ReferenceIdeal.RefTerms Cert.Spec

variable [Facts]
open Facts₀ Facts

/-- The sum over a row from the float zero, copied back as a unit axis, at an entry. -/
theorem sum_bj (x : FVec Ideal S16384x416 .f32) (b : Fin 16384) (z : Fin 1) :
    broadcastInDim S16384x1 ![0] bcast_S16384_S16384x1_0
      (Host.reduceAdd x (constant S_ .f32 0#32) reducesTo_S16384x416_S16384_d1 h_S_) (ix2 b z)
      = ∑ j, x (ix2 b j) := by
  have hR : S16384x416.Reduces [1] S16384 := by decide
  rw [broadcastInDim_apply _ _ _ _ (ix1 b) (fun a => by fin_cases a; rfl), hostReduceAdd_apply,
    Ideal.hostReduceAdd_single _ hR]
  exact (congrArg (· + _) Ideal.ofBits_zero_f32).trans ((zero_add _).trans
    (Finset.sum_congr rfl fun k _ => congrArg x (funext fun a => by fin_cases a <;> rfl)))

/-- A unit last axis copied along the 416 features, at an entry. -/
theorem bc_bj {α : Type} (x : S16384x1.Idx → α) (b : Fin 16384) (j : Fin 416) :
    broadcastInDim S16384x416 ![0, 1] bcast_S16384x1_S16384x416_0_1 x (ix2 b j) = x (ix2 b 0) :=
  broadcastInDim_apply _ _ _ _ _ (fun a => by fin_cases a <;> rfl)

/-- A vector copied down the rows, at an entry. -/
theorem row_apply (v : FVec Ideal S416 .f32) (b : Fin 16384) (j : Fin 416) :
    broadcastInDim S16384x416 ![0, 1] bcast_S1x416_S16384x416_0_1 (broadcastInDim S1x416 ![1] bcast_S416_S1x416_1 v) (ix2 b j)
      = v (ix1 j) := by
  rw [broadcastInDim_apply _ _ _ _ (ix2 0 j) (fun a => by fin_cases a <;> rfl),
    broadcastInDim_apply _ _ _ _ (ix1 j) (fun a => by fin_cases a; rfl)]

variable (i : In Ideal) (hid : ∀ c b, (i.a0 (ix2 c b)).toNat < 100000)
include hid

theorem v35_apply (b : Fin 16384) (z : Fin 1) : v35 i (ix2 b z) = mu2R (arrays i).args b :=
  congrArg (Ideal.div · c416) ((sum_bj (v31 i) b z).trans (Finset.sum_congr rfl fun j _ => v31_apply i hid b j))

theorem v38_apply (b : Fin 16384) (j : Fin 416) :
    v38 i (ix2 b j) = catR (arrays i).args b j - mu2R (arrays i).args b := by
  rw [v38, subf_apply, v31_apply i hid, v37, bc_bj, v35_apply i hid]

theorem v36_apply (b : Fin 16384) (z : Fin 1) : v36 i (ix2 b z) = var2R (arrays i).args b :=
  (var_select (call2_v10 i (ix2 b z)) _ (sub_zero_apply _ _) (sub_zero_apply _ _) Ideal.ofBits_zero_f32
    c416_pos).trans (congrArg (Ideal.div · c416)
    ((sum_bj (call2_v6 i) b z).trans (Finset.sum_congr rfl fun j _ => by
      rw [call2_v6, mulf_apply]; exact congrArg (fun t => t * t) (v38_apply i hid b j))))

theorem v49_apply (b : Fin 16384) (j : Fin 416) : v49 i (ix2 b j) = hR (arrays i).args b j := by
  show Ideal.div (v38 i (ix2 b j)) (v42 i (ix2 b j)) * v45 i (ix2 b j) + v48 i (ix2 b j) = _
  rw [v38_apply i hid, show v42 i (ix2 b j) = Ideal.sqrt (v36 i (ix2 b 0) + eps) from bc_bj (v41 i) b j,
    v36_apply i hid, show v45 i (ix2 b j) = _ from row_apply i.a6 b j,
    show v48 i (ix2 b j) = _ from row_apply i.a7 b j]
  rfl

end Cert.ReferenceIdeal.RefValue

end
-- ==== Proof.RefValue.lean ====
import proofs.«219071_g10050223472739_week1_w1_120_16_alg».proof.Proof.RefValue4
import Idealize.ShloMosaic.Lib.StackMember

noncomputable section

namespace Cert.ReferenceIdeal.RefValue

open Idealize.ShloMosaic Idealize.ShloMosaic.ValueIdx Idealize.SL.Sem
open Cert.ReferenceIdeal Cert.ReferenceIdeal.RefTerms Cert.Spec

variable [Facts]
open Facts₀ Facts

open StackMember StableHlo.Predicate in
/-- A plain matrix product plus a row vector copied down the rows, at an entry. -/
theorem dense_apply {m k n : Nat} (A : FVec Ideal ⟨2, ![m, k]⟩ .f32) (W : FVec Ideal ⟨2, ![k, n]⟩ .f32)
    (v : FVec Ideal ⟨1, ![n]⟩ .f32) (h₁ : (⟨1, ![n]⟩ : Shape).BroadcastsInDim ⟨2, ![1, n]⟩ ![1])
    (h₂ : (⟨2, ![1, n]⟩ : Shape).BroadcastsInDim ⟨2, ![m, n]⟩ ![0, 1]) (a : Fin m) (b : Fin n) :
    Host.dotGeneral (DotDims.plain m k n) none A W (ix2 a b)
        + broadcastInDim ⟨2, ![m, n]⟩ ![0, 1] h₂ (broadcastInDim ⟨2, ![1, n]⟩ ![1] h₁ v) (ix2 a b)
      = (∑ c, A (ix2 a c) * W (ix2 c b)) + v (ix1 b) := by
  rw [dotGeneral_plain_apply]
  exact congrArg _ ((congrArg _ (funext fun d => by fin_cases d <;> rfl)).trans
    ((bcast_cols h₁ h₂ v a b).trans (congrArg v (funext fun d => by fin_cases d; rfl))))

variable (i : In Ideal) (hid : ∀ c b, (i.a0 (ix2 c b)).toNat < 100000)
include hid

theorem v60_apply (b : Fin 16384) (k : Fin 416) : v60 i (ix2 b k) = h1R (arrays i).args b k := by
  refine congrArg geluR ((dense_apply (v49 i) i.a8 i.a9 _ _ b k).trans ?_)
  simp only [v49_apply i hid]; rfl

theorem v64_apply (b : Fin 16384) (o : Fin 16) : v64 i (ix2 b o) = featsR (arrays i).args b o := by
  refine (dense_apply (v60 i) i.a10 i.a11 _ _ b o).trans ?_
  simp only [v60_apply i hid]; rfl

theorem v68_apply (b : Fin 16384) (q : Fin 2) : v68 i (ix2 b q) = logitsR (arrays i).args b q := by
  refine (dense_apply (v64 i) i.a12 i.a13 _ _ b q).trans ?_
  simp only [v64_apply i hid]; rfl

omit hid

theorem out1_apply (h : (arrays i).Ok) (b : Fin 16384) (o : Fin 16) :
    RefTerms.out1 i (ix2 b o) = featsR (arrays i).args b o :=
  v64_apply i h.ids b o

theorem out0_apply (h : (arrays i).Ok) (b : Fin 16384) (q : Fin 2) :
    RefTerms.out0 i (ix2 b q) = logitsR (arrays i).args b q :=
  v68_apply i h.ids b q

end Cert.ReferenceIdeal.RefValue

end
-- ==== Proof.Algebra1.lean ====
import proofs.«219071_g10050223472739_week1_w1_120_16_alg».proof.Proof.Spec
import Mathlib.Tactic.FieldSimp
import Mathlib.Tactic.Ring

noncomputable section

namespace Cert.Spec.Alg

open Idealize.ShloMosaic Cert.Spec

theorem c100_eq : c100 = ((100 : ℝ) : EReal) := by
  simp [Ideal.ofBits, Ideal.ieee, -EReal.coe_mul]; norm_num

theorem c416_eq : c416 = ((416 : ℝ) : EReal) := by
  simp [Ideal.ofBits, Ideal.ieee, -EReal.coe_mul]; norm_num

theorem one_eq : one = (1 : EReal) := by
  simp [Ideal.ofBits, Ideal.ieee, -EReal.coe_mul]; norm_num

/-- The epsilon is a positive real and the GELU's two factors are reals; their values never matter. -/
theorem eps_pos : ∃ e : ℝ, 0 < e ∧ eps = (e : EReal) := by
  simp [Ideal.ofBits, Ideal.ieee, -EReal.coe_mul]

theorem half_real : ∃ r : ℝ, half = (r : EReal) := by
  simp [Ideal.ofBits, Ideal.ieee, -EReal.coe_mul]

theorem rt_real : ∃ r : ℝ, rt = (r : EReal) := by
  simp [Ideal.ofBits, Ideal.ieee, -EReal.coe_mul]

theorem coe_sum {ι : Type} (s : Finset ι) (f : ι → ℝ) :
    (∑ i ∈ s, ((f i : ℝ) : EReal)) = ((∑ i ∈ s, f i : ℝ) : EReal) :=
  (map_sum (⟨⟨Real.toEReal, EReal.coe_zero⟩, EReal.coe_add⟩ : ℝ →+ EReal) f s).symm

section LN

variable {n : ℕ} (N e : ℝ) (f : Fin n → ℝ)

def mean : ℝ := (∑ i, f i) / N
def var : ℝ := (∑ i, (f i - mean N f) * (f i - mean N f)) / N
def nrm (i : Fin n) : ℝ := (f i - mean N f) / Real.sqrt (var N f + e)

variable {N e}

theorem var_pos (hN : 0 < N) (he : 0 < e) : 0 < var N f + e :=
  add_pos_of_nonneg_of_pos (div_nonneg (Finset.sum_nonneg fun i _ => mul_self_nonneg _) hN.le) he

/-- Mean of squares minus squared mean is the mean of the squared deviations, when the divisor is the count. -/
theorem var_identity (hn : (n : ℝ) = N) (hN : N ≠ 0) :
    (∑ i, f i * f i) / N - mean N f * mean N f = var N f := by
  have h : (∑ i, f i) = mean N f * N := by rw [mean, div_mul_cancel₀ _ hN]
  rw [var, eq_div_iff hN, sub_mul, div_mul_cancel₀ _ hN]
  simp only [sub_mul, mul_sub, Finset.sum_sub_distrib, ← Finset.sum_mul, ← Finset.mul_sum, Finset.sum_const,
    Finset.card_univ, Fintype.card_fin, nsmul_eq_mul, hn, h]
  ring

/-- The reference's spelling on real data: centre, mean of squared deviations, divide by the root. -/
theorem refLN (hN : 0 < N) (he : 0 < e) (i : Fin n) :
    Ideal.div ((f i : EReal) - (∑ k, (f k : EReal)) * ((1 / N : ℝ) : EReal))
      (Ideal.sqrt ((∑ k, ((f k : EReal) - (∑ k, (f k : EReal)) * ((1 / N : ℝ) : EReal))
        * ((f k : EReal) - (∑ k, (f k : EReal)) * ((1 / N : ℝ) : EReal))) * ((1 / N : ℝ) : EReal) + (e : EReal)))
      = ((nrm N e f i : ℝ) : EReal) := by
  have hp := var_pos f hN he
  simp only [coe_sum, ← EReal.coe_mul, ← EReal.coe_sub, ← EReal.coe_add, mul_one_div]
  show Ideal.div ((f i - mean N f : ℝ) : EReal) (Ideal.sqrt ((var N f + e : ℝ) : EReal)) = _
  rw [Ideal.sqrt_coe, if_neg (not_lt.mpr hp.le), Ideal.div_coe (Real.sqrt_pos.mpr hp).ne', ← EReal.coe_mul,
    mul_one_div]
  rfl

/-- The kernel's spelling on real data: mean of squares less squared mean, times the reciprocal root. -/
theorem kerLN (hn : (n : ℝ) = N) (hN : 0 < N) (he : 0 < e) (i : Fin n) :
    ((f i : EReal) - (∑ k, (f k : EReal)) * ((1 / N : ℝ) : EReal))
      * Ideal.rsqrt ((∑ k, (f k : EReal) * (f k : EReal)) * ((1 / N : ℝ) : EReal)
        - (∑ k, (f k : EReal)) * ((1 / N : ℝ) : EReal) * ((∑ k, (f k : EReal)) * ((1 / N : ℝ) : EReal)) + (e : EReal))
      = ((nrm N e f i : ℝ) : EReal) := by
  have hp := var_pos f hN he
  simp only [coe_sum, ← EReal.coe_mul, ← EReal.coe_sub, ← EReal.coe_add, mul_one_div]
  show ((f i - mean N f : ℝ) : EReal)
    * Ideal.rsqrt (((∑ k, f k * f k) / N - mean N f * mean N f + e : ℝ) : EReal) = _
  rw [var_identity f hn hN.ne', Ideal.rsqrt_coe, if_neg (not_lt.mpr hp.le), if_neg hp.ne', ← EReal.coe_mul,
    ← div_eq_mul_inv]
  rfl

end LN

/-- The two spellings of GELU agree at every extended real: `erfc (−x) = 1 + erf x`. -/
theorem geluK_eq_geluR (t : EReal) : geluK t = geluR t := by
  rw [geluK, geluR, EReal.neg_mul, Ideal.erfc_neg, one_eq]

theorem geluR_real {t : EReal} (ht : ∃ r : ℝ, t = (r : EReal)) : ∃ r : ℝ, geluR t = (r : EReal) := by
  obtain ⟨r, rfl⟩ := ht
  obtain ⟨p, hp⟩ := half_real
  obtain ⟨q, hq⟩ := rt_real
  rw [← geluK_eq_geluR, geluK, hp, one_eq, hq, ← EReal.coe_mul, ← EReal.coe_mul, Ideal.erf_coe,
    ← EReal.coe_one, ← EReal.coe_add, ← EReal.coe_mul]
  exact ⟨_, rfl⟩

end Cert.Spec.Alg

end
-- ==== Proof.Algebra2.lean ====
import proofs.«219071_g10050223472739_week1_w1_120_16_alg».proof.Proof.Algebra1

noncomputable section

namespace Cert.Spec.Alg

open Idealize.ShloMosaic Cert.Spec

variable {a : Args} (h : a.Finite)
include h

/-- Per categorical column: scale and bias folded into the matrix give the reference's column output, a real. -/
theorem gK_eq_gR (c : Fin 26) (b : Fin 16384) (o : Fin 16) :
    gK a c b o = gR a c b o ∧ ∃ r : ℝ, gR a c b o = (r : EReal) := by
  choose X hX using fun d => h.emb c (a.ids c b) d
  choose S hS using h.lnS c
  choose T hT using h.lnB c
  choose W hW using fun d => h.W c d o
  obtain ⟨B, hB⟩ := h.cb c o
  obtain ⟨e, he, hE⟩ := eps_pos
  have hR : gR a c b o = (((∑ d, (nrm 100 e X d * S d + T d) * W d) + B : ℝ) : EReal) := by
    simp only [gR, yR, varR, muR, x, hX, hS, hT, hW, hB, hE, c100_eq,
      Ideal.div_coe (show (100 : ℝ) ≠ 0 by norm_num)]
    simp only [refLN (N := 100) X (by norm_num) he]
    simp only [← EReal.coe_mul, ← EReal.coe_add, coe_sum]
  refine ⟨?_, _, hR⟩
  rw [hR]
  simp only [gK, xnK, varK, meanK, wfold, cbfold, x, hX, hS, hT, hW, hB, hE]
  simp only [kerLN (N := 100) X (by norm_num) (by norm_num) he]
  simp only [← EReal.coe_mul, ← EReal.coe_add, coe_sum]
  congr 1
  rw [← add_assoc, ← Finset.sum_add_distrib]
  congr 1
  exact Finset.sum_congr rfl fun d _ => by ring

theorem catK_eq_catR (b : Fin 16384) (j : Fin 416) : catK a b j = catR a b j := by
  rw [catK, catR, geluK_eq_geluR, (gK_eq_gR h _ b _).1]

theorem catR_real (b : Fin 16384) (j : Fin 416) : ∃ r : ℝ, catR a b j = (r : EReal) :=
  geluR_real (gK_eq_gR h _ b _).2

end Cert.Spec.Alg

end
-- ==== Proof.Algebra.lean ====
import proofs.«219071_g10050223472739_week1_w1_120_16_alg».proof.Proof.Algebra2

noncomputable section

namespace Cert.Spec

open Idealize.ShloMosaic Cert.Spec.Alg

variable (a : Args) (h : a.Finite)
include h

/-- The second layer normalisation: the 416 features are reals, so its two spellings agree. -/
theorem hK_eq_hR (b : Fin 16384) (j : Fin 416) : hK a b j = hR a b j := by
  choose C hC using catR_real h b
  obtain ⟨e, he, hE⟩ := eps_pos
  simp only [hK, hR, var2K, var2R, mu2K, mu2R, catK_eq_catR h, hC, hE, c416_eq,
    Ideal.div_coe (show (416 : ℝ) ≠ 0 by norm_num)]
  rw [refLN (N := 416) C (by norm_num) he, kerLN (N := 416) C (by norm_num) (by norm_num) he]

theorem featsK_eq_featsR (b : Fin 16384) (o : Fin 16) : featsK a b o = featsR a b o := by
  simp only [featsK, featsR, h1K, h1R, hK_eq_hR a h, geluK_eq_geluR]

theorem logitsK_eq_logitsR (b : Fin 16384) (q : Fin 2) : logitsK a b q = logitsR a b q := by
  simp only [logitsK, logitsR, featsK_eq_featsR a h]

end Cert.Spec

end
-- ==== Proof.RefFinal.lean ====
import proofs.«219071_g10050223472739_week1_w1_120_16_alg».proof.Proof.RefRun
import proofs.«219071_g10050223472739_week1_w1_120_16_alg».proof.Proof.RefValue
import proofs.«219071_g10050223472739_week1_w1_120_16_alg».proof.Proof.Algebra

noncomputable section

namespace Cert.ReferenceIdeal.RefFinal

open Cert.ReferenceIdeal Idealize.ShloMosaic Idealize.ShloMosaic.TcCoe Idealize.ShloMosaic.ValueIdx Idealize.SL.Sem

variable [Facts]

/-- A rank-two array is determined by its entries. -/
theorem eq_of_apply {m n : Nat} {α : Type} {f : (⟨2, ![m, n]⟩ : Shape).Idx → α} {g : Fin m → Fin n → α}
    (h : ∀ b q, f (ix2 b q) = g b q) : f = fun j => g (j 0) (j 1) :=
  funext fun j => (congrArg f (eq_ix2 j)).trans (h _ _)

/-- Every weakly fair run ends with the logits and the features at the kernel's spelling, the arguments unchanged. -/
theorem run_spec (m : (ℓ : Loc nD τ sig) → Buf (Elt Ideal) ℓ) (ρ : Dev nD → PrngReg)
    (hok : ∀ c : Dev nD, (RefValue.arrays (RefRun.inOf m c)).Ok) :
    θ_run (defs (F := Ideal)) (onTc (τ := τ) (main (F := Ideal))) ⟨m, fun _ => 0, ρ⟩ (fun r => ∀ c : Dev nD,
      r.2.mem ((c.tc : Thread nD τ).loc main_v68) = (fun j => Cert.Spec.logitsK (RefValue.arrays (RefRun.inOf m c)).args (j 0) (j 1))
      ∧ r.2.mem ((c.tc : Thread nD τ).loc main_v64) = (fun j => Cert.Spec.featsK (RefValue.arrays (RefRun.inOf m c)).args (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
      ⟨(h c).1.trans (eq_of_apply fun b q =>
          (RefValue.out0_apply _ (hok c) b q).trans (Cert.Spec.logitsK_eq_logitsR _ (hok c).fin b q).symm),
        (h c).2.1.trans (eq_of_apply fun b o =>
          (RefValue.out1_apply _ (hok c) b o).trans (Cert.Spec.featsK_eq_featsR _ (hok c).fin b o).symm),
        (h c).2.2⟩)
    (RefRun.run m ρ)

end Cert.ReferenceIdeal.RefFinal

end
-- ==== Proof.Asm.lean ====
import proofs.«219071_g10050223472739_week1_w1_120_16_alg».proof.Proof.RunMain0
import proofs.«219071_g10050223472739_week1_w1_120_16_alg».proof.Proof.KernelVals3
import proofs.«219071_g10050223472739_week1_w1_120_16_alg».proof.Proof.RefFinal
import proofs.«219071_g10050223472739_week1_w1_120_16_alg».proof.Proof.PreDecode
import proofs.«219071_g10050223472739_week1_w1_120_16_alg».proof.Proof.Gen.KernelIdeal
import proofs.«219071_g10050223472739_week1_w1_120_16_alg».proof.Proof.Gen.ReferenceIdeal
import proofs.«219071_g10050223472739_week1_w1_120_16_alg».proof.Proof.Gen.Pre_input_domain

noncomputable section

namespace Cert.Proof

open Idealize.ShloMosaic Idealize.ShloMosaic.TcCoe Idealize.SL.Sem

attribute [local instance] KernelIdeal.Gen.facts ReferenceIdeal.Gen.facts Pre_input_domain.Gen.facts

/-- What holds at every pair of coordinates holds at every rank-2 index. -/
theorem all_of_ix2 {n0 n1 : ℕ} {p : (⟨2, ![n0, n1]⟩ : Shape).Idx → Prop} (h : ∀ a b, p (ValueIdx.ix2 a b)) (j) : p j := by
  rw [ValueIdx.eq_ix2 j]; exact h _ _

theorem preOK_KI (m : (ℓ : Loc KernelIdeal.nD KernelIdeal.τ KernelIdeal.sig) → Buf (Elt Ideal) ℓ) (h : Pre_KernelIdeal m) :
    KI.PreOK (F := Ideal) m := fun d => all_of_ix2 (PreDecode.ids_of_fn (F := Ideal) _ _ _ _ _ _ _ _ _ _ _ _ _ _ (h d))

theorem algebraic_of_run
    (hrun : ∀ (m : (ℓ : Loc KernelIdeal.nD KernelIdeal.τ KernelIdeal.sig) → Buf (Elt Ideal) ℓ) (ρ : Dev KernelIdeal.nD → PrngReg),
      KI.PreOK (F := Ideal) m →
      θ_run (KernelIdeal.defs (F := Ideal)) (KernelIdeal.threads (F := Ideal)) ⟨m, fun _ => 0, ρ⟩ (KI.QC m)) :
    algebraic_KernelIdeal_ReferenceIdeal := by
  intro m ρ m' ρ' hpre hagree
  have hokK : ∀ c, (KI.arraysOf m c).Ok := fun c => PreDecode.ok_of_fn _ (hpre c)
  have harr : ∀ c, ReferenceIdeal.RefValue.arrays (ReferenceIdeal.RefRun.inOf m' c) = KI.arraysOf m c := fun c => by
    obtain ⟨h0, h1, h2, h3, h4, h5, h6, h7, h8, h9, h10, h11, h12, h13⟩ := hagree c
    unfold ReferenceIdeal.RefValue.arrays ReferenceIdeal.RefRun.inOf KI.arraysOf
    simp only [h0, h1, h2, h3, h4, h5, h6, h7, h8, h9, h10, h11, h12, h13]
  refine ⟨fun c => (KI.dats1 (KI.V3 m) 0 c).arrAt 12 KernelIdeal.cfg1.N,
    fun c => (KI.dats1 (KI.V3 m) 0 c).arrAt 13 KernelIdeal.cfg1.N,
    KI.results_of_run m ρ (hrun m ρ (preOK_KI m hpre)), ?_⟩
  refine (θ_run ReferenceIdeal.defs _ _).mono (fun r h c => ⟨?_, ?_, (h c).2.2⟩)
    (ReferenceIdeal.RefFinal.run_spec m' ρ' (fun c => (harr c).symm ▸ hokK c))
  · rw [(h c).1, harr c]; exact (KI.final12 m c (hokK c)).symm
  · rw [(h c).2.1, harr c]; exact (KI.final13 m c (hokK c)).symm

end Cert.Proof

end
-- ==== Proof.TileDefs.lean ====
import proofs.«219071_g10050223472739_week1_w1_120_16_alg».proof.Proof.Common
import proofs.«219071_g10050223472739_week1_w1_120_16_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev eM : Memref sig .scVector .hbm S26x100x100000 .f32 := Memref.whole main_v0_scv
abbrev iM : Memref sig .scVector .hbm S425984 .i32 := Memref.whole main_v1_scv
abbrev oM : Memref sig .scVector .hbm S3328x16384 .f32 := Memref.whole main_v2_scv
abbrev slabM : Memref sig .scVector .vmem S100000 .f32 := Memref.whole cc0_scratch0
abbrev idxM : Memref sig .scVector .vmem S16384 .i32 := Memref.whole cc0_scratch1
abbrev stgM : Memref sig .scVector .vmem S2x4096 .f32 := Memref.whole cc0_scratch2

abbrev half0M : Memref sig .scVector .vmem S4096 .f32 :=
  ((stgM : Memref sig .scVector .vmem S2x4096 .f32).slice (Rect.unit (s := S2x4096) ![0, 0] S1x4096.size inb_S2x4096_S1x4096_0_0) (fun _ => rfl)).squeeze S4096 squeezes_S1x4096_S4096
abbrev half1M : Memref sig .scVector .vmem S4096 .f32 :=
  ((stgM : Memref sig .scVector .vmem S2x4096 .f32).slice (Rect.unit (s := S2x4096) ![1, 0] S1x4096.size inb_S2x4096_S1x4096_1_0) (fun _ => rfl)).squeeze S4096 squeezes_S1x4096_S4096

variable [FloatOps F] [Named F]

def gath (fI : IVec S16384 32) (fS : FVec F S100000 .f32) (bc : Fin 4) (j : Fin 4096) : F .f32 :=
  fS (ix1 (⟨(fI (ix1 (⟨bc.val * 4096 + j.val, by have := bc.isLt; have := j.isLt; omega⟩ : Fin 16384))).toNat % 100000, Nat.mod_lt _ (by decide)⟩ : Fin 100000))

def selInv0 (d : Dev nD) (L : grid0.Coords) (bc : Fin 4) (fI : IVec S16384 32) (fS : FVec F S100000 .f32) (k : ℕ) (_ : Unit) : sProp 𝕄 :=
  iprop(((idxM : Memref sig .scVector .vmem S16384 .i32).view.loc (thr d L) ↦{fullShare} fI)
    ∗ ((slabM : Memref sig .scVector .vmem S100000 .f32).view.loc (thr d L) ↦{fullShare} fS)
    ∗ ∃ f7 : FVec F S2x4096 .f32, ⌜∀ j : Fin 4096, j.val < 128 * k → f7 (ix2 (0 : Fin 2) j) = gath fI fS bc j⌝
      ∗ ((half0M : Memref sig .scVector .vmem S4096 .f32).view.loc (thr d L) ↦[(half0M : Memref sig .scVector .vmem S4096 .f32).view.set]{fullShare} f7))
def selInv1 (d : Dev nD) (L : grid0.Coords) (bc : Fin 4) (fI : IVec S16384 32) (fS : FVec F S100000 .f32) (k : ℕ) (_ : Unit) : sProp 𝕄 :=
  iprop(((idxM : Memref sig .scVector .vmem S16384 .i32).view.loc (thr d L) ↦{fullShare} fI)
    ∗ ((slabM : Memref sig .scVector .vmem S100000 .f32).view.loc (thr d L) ↦{fullShare} fS)
    ∗ ∃ f7 : FVec F S2x4096 .f32, ⌜∀ j : Fin 4096, j.val < 128 * k → f7 (ix2 (1 : Fin 2) j) = gath fI fS bc j⌝
      ∗ ((half1M : Memref sig .scVector .vmem S4096 .f32).view.loc (thr d L) ↦[(half1M : Memref sig .scVector .vmem S4096 .f32).view.set]{fullShare} f7))

end Cert.Proof.KI

end
-- ==== Proof.TileGeo.lean ====
import proofs.«219071_g10050223472739_week1_w1_120_16_alg».proof.Proof.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Own
variable (d : Dev nD) (L : grid0.Coords)

abbrev semA : GSem nD τ sig := (thr d L, .dma cc0_scratch3.sem)
abbrev semB : GSem nD τ sig := (thr d L, .dma cc0_scratch4.sem)
abbrev semI : GSem nD τ sig := (thr d L, .dma cc0_scoped0.sem)
abbrev semS : GSem nD τ sig := (thr d L, .dma cc0_scoped1.sem)

abbrev restSems : Finset (GSem nD τ sig) :=
  ((((ownCells (thr d L)).erase (semA d L)).erase (semB d L)).erase (semI d L)).erase (semS d L)

theorem ownSems0_V :
    (ownSems0 (thr d L) : sProp 𝕄)
      = iprop(semVal (semA d L) 0 ∗ semVal (semB d L) 0 ∗ semVal (semI d L) 0 ∗ semVal (semS d L) 0 ∗ bigSep (restSems d L) fun g => semVal g 0) := by
  unfold SparseCore.Cfg.ownSems0
  have mem : ∀ s : SemLoc sig, s.isScoped .scVector = true → ((thr d L, s) : GSem nD τ sig) ∈ ownCells (thr d L) :=
    fun s h => mem_ownCells.mpr ⟨rfl, h⟩
  have ne : ∀ {a b : SemLoc sig}, a ≠ b → ((thr d L, a) : GSem nD τ sig) ≠ (thr d L, b) := fun h e => h (Prod.mk.inj e).2
  rw [SparseCore.bigSep_erase' (mem (.dma cc0_scratch3.sem) (by decide)),
    SparseCore.bigSep_erase' (Finset.mem_erase.mpr ⟨ne (by decide), mem (.dma cc0_scratch4.sem) (by decide)⟩),
    SparseCore.bigSep_erase' (Finset.mem_erase.mpr ⟨ne (by decide), Finset.mem_erase.mpr ⟨ne (by decide), mem (.dma cc0_scoped0.sem) (by decide)⟩⟩),
    SparseCore.bigSep_erase' (Finset.mem_erase.mpr ⟨ne (by decide), Finset.mem_erase.mpr ⟨ne (by decide),
      Finset.mem_erase.mpr ⟨ne (by decide), mem (.dma cc0_scoped1.sem) (by decide)⟩⟩⟩)]

abbrev restBufs : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep (restBufs L) fun b => iprop(∃ f, ((d, b) : Loc nD τ sig) ↦{fullShare} f)) := by
  unfold SparseCore.Cfg.ownBufs
  have mem : ∀ r : Ref sig .scVector, ((Proc.scVector (cV L) (jV L)).devRef r).owner = .proc (.scVector (cV L) (jV L)) →
      (Proc.scVector (cV L) (jV L)).devRef r ∈ ownRefs (τ := τ) (.scVector (cV L) (jV L)) := fun _ h => SparseCore.Cfg.mem_ownRefs_of_owner h
  have ne : ∀ {a b : Ref sig .scVector}, a ≠ b → (Proc.scVector (cV L) (jV L)).devRef a ≠ (Proc.scVector (cV L) (jV L)).devRef b :=
    fun h e => h (Proc.devRef_injective _ e)
  refine (SparseCore.bigSep_erase' (mem cc0_scratch0 rfl)).trans ?_
  rw [SparseCore.bigSep_erase' (Finset.mem_erase.mpr ⟨ne (by decide), mem cc0_scratch1 rfl⟩),
    SparseCore.bigSep_erase' (Finset.mem_erase.mpr ⟨ne (by decide), Finset.mem_erase.mpr ⟨ne (by decide), mem cc0_scratch2 rfl⟩⟩)]

end Own

section Halves
variable (d : Dev nD) (L : grid0.Coords)

theorem set_half (hh : ℕ) (inb : ∀ a, (![hh, 0] : Fin 2 → ℕ) a + S1x4096.size a ≤ S2x4096.size a) :
    ((stgM.slice (Rect.unit (s := S2x4096) ![hh, 0] S1x4096.size inb) (fun _ => rfl)).squeeze S4096 squeezes_S1x4096_S4096).view.set
      = (Rect.unit (s := S2x4096) ![hh, 0] S1x4096.size inb).set := (View.set_reshape _ _).trans (View.set_slice_whole _ _)

theorem halves_disjoint : Disjoint half0M.view.set half1M.view.set := by
  rw [set_half, set_half]; exact Rect.unit_disjoint 0 (Or.inl (by decide))

theorem halves_cover : half0M.view.set ∪ half1M.view.set = Finset.univ := by
  rw [set_half, set_half]
  ext (j : S2x4096.Idx)
  simp only [Finset.mem_union, Rect.mem_set_unit, Finset.mem_univ, iff_true, Fin.forall_fin_two, Matrix.cons_val_zero, Matrix.cons_val_one, Matrix.head_cons]
  have h0 : (j 0).val < 2 := (j 0).isLt
  have h1 : (j 1).val < 4096 := (j 1).isLt
  omega

theorem stg_split (f : Buf (Elt F) ((thr d L).loc cc0_scratch2)) :
    ((thr d L).loc cc0_scratch2 ↦{fullShare} f : sProp 𝕄)
      ⊣⊢ iprop((half0M.view.loc (thr d L) ↦[half0M.view.set]{fullShare} f)
          ∗ half1M.view.loc (thr d L) ↦[half1M.view.set]{fullShare} f) := by
  have h := pointsTo_union (Ix := HIx 1) (Name := ℕ) (U := UU) (Lvl := ℕ) (ℓ := (thr d L).loc cc0_scratch2) (q := fullShare) (f := f) halves_disjoint
  rw [halves_cover] at h
  exact h

end Halves

section Parts
variable (m : (ℓ : Loc nD τ sig) → Buf (Elt F) ℓ) (d : Dev nD)
variable [FloatOps F] [Named F]

def widL (L : grid0.Coords) : ℕ := 2 * (L 1).val + (L 0).val

def gPart (n : ℕ) : Buf (Elt F) (oLoc d) := fun (j : S3328x16384.Idx) =>
  if (j 0).val % 128 < 100 ∧ 4 * ((j 0).val / 128) + ((j 0).val % 128) / 32 < n then (gOut m d (m (oLoc d)) : FVec F S3328x16384 .f32) j
  else (m (oLoc d) : FVec F S3328x16384 .f32) j

theorem gPart_zero : gPart m d 0 = m (oLoc d) := by
  funext j; unfold gPart; rw [if_neg (fun h => Nat.not_lt_zero _ h.2)]

theorem gPart_last : gPart m d 104 = gOut m d (m (oLoc d)) := by
  funext (j : S3328x16384.Idx); unfold gPart
  by_cases h : (j 0).val % 128 < 100
  · have h0 : (j 0).val < 3328 := (j 0).isLt
    rw [if_pos ⟨h, by omega⟩]
  · rw [if_neg (fun h' => h h'.1)]; unfold gOut; rw [dif_neg h]

end Parts

section Chunks

theorem cond_iff : ∀ (L : grid0.Coords) (t2 : Fin k0_t2_loop.trips), k0_cond1 L t2 = 1#1 ↔ 32 * t2.val + (2 * (L 1).val + (L 0).val) < 100 := by
  decide +kernel
theorem t1_lt (t1 : Fin k0_t1_loop.trips) : t1.val < 26 := Nat.lt_of_lt_of_le t1.isLt k0_t1_abs.2.1
theorem t2_lt (t2 : Fin k0_t2_loop.trips) : t2.val < 4 := Nat.lt_of_lt_of_le t2.isLt k0_t2_abs.2.1
theorem widL_lt (L : grid0.Coords) : widL L < 32 := by
  have h0 : (L 0).val < 2 := (L 0).isLt
  have h1 : (L 1).val < 16 := (L 1).isLt
  unfold widL; omega

variable (L : grid0.Coords) (t1 : Fin k0_t1_loop.trips) (t2 : Fin k0_t2_loop.trips)

def rowIx : ℕ := 128 * t1.val + 32 * t2.val + widL L
theorem rowIx_lt (h1 : k0_cond1 L t2 = 1#1) : rowIx L t1 t2 < 3328 := by
  have := t1_lt t1; have h := (cond_iff L t2).mp h1
  unfold rowIx widL; omega

variable (h1 : k0_cond1 L t2 = 1#1)

abbrev rowM : Memref sig .scVector .hbm S16384 .f32 :=
  (oM.slice (Rect.unit (s := S3328x16384) (k0_off20 L t1 t2) S1x16384.size (k0_off20_inb L t1 t2 h1)) (fun _ => rfl)).squeeze S16384 squeezes_S1x16384_S16384
abbrev chunk0M : Memref sig .scVector .hbm S4096 .f32 := (rowM L t1 t2 h1).slice (Rect.unit (s := S16384) ![0] S4096.size inb_S16384_S4096_0) (fun _ => rfl)
abbrev chunk1M : Memref sig .scVector .hbm S4096 .f32 := (rowM L t1 t2 h1).slice (Rect.unit (s := S16384) ![4096] S4096.size inb_S16384_S4096_4096) (fun _ => rfl)
abbrev chunk2M : Memref sig .scVector .hbm S4096 .f32 := (rowM L t1 t2 h1).slice (Rect.unit (s := S16384) ![8192] S4096.size inb_S16384_S4096_8192) (fun _ => rfl)
abbrev chunk3M : Memref sig .scVector .hbm S4096 .f32 := (rowM L t1 t2 h1).slice (Rect.unit (s := S16384) ![12288] S4096.size inb_S16384_S4096_12288) (fun _ => rfl)

theorem reshape_row (y : S16384.Idx) :
    Shape.reshapeEquiv (s := S1x16384) (s' := S16384) squeezes_S1x16384_S16384.numel_eq y = (ix2 (0 : Fin 1) (y 0) : S1x16384.Idx) :=
  Shape.reshapeEquiv_eq_of_rowMajor _ (by rw [Shape.rowMajor_val_two, Shape.rowMajor_val_one]; simp)

theorem rowM_emb (y : S16384.Idx) :
    (rowM L t1 t2 h1).view.emb y = (ix2 (⟨rowIx L t1 t2, rowIx_lt L t1 t2 h1⟩ : Fin 3328) (y 0) : S3328x16384.Idx) := by
  show (Rect.unit (s := S3328x16384) (k0_off20 L t1 t2) S1x16384.size (k0_off20_inb L t1 t2 h1)).emb
    (Shape.reshapeEquiv (s := S1x16384) (s' := S16384) squeezes_S1x16384_S16384.numel_eq y) = _
  rw [reshape_row]
  funext a
  match a with
  | ⟨0, _⟩ => apply Fin.ext; rw [Rect.emb_apply]; simp [k0_off20_eq, rowIx, widL]; omega
  | ⟨1, _⟩ => apply Fin.ext; rw [Rect.emb_apply]; simp [k0_off20_eq]

end Chunks

section Carve
variable (d : Dev nD) (L : grid0.Coords) (t1 : Fin k0_t1_loop.trips) (t2 : Fin k0_t2_loop.trips) (h1 : k0_cond1 L t2 = 1#1)

abbrev R0 : Rect S16384 := Rect.unit (s := S16384) ![0] S4096.size inb_S16384_S4096_0
abbrev R1 : Rect S16384 := Rect.unit (s := S16384) ![4096] S4096.size inb_S16384_S4096_4096
abbrev R2 : Rect S16384 := Rect.unit (s := S16384) ![8192] S4096.size inb_S16384_S4096_8192
abbrev R3 : Rect S16384 := Rect.unit (s := S16384) ![12288] S4096.size inb_S16384_S4096_12288

theorem chunks_cover : R0.set ∪ (R1.set ∪ (R2.set ∪ R3.set)) = (Finset.univ : Finset S16384.Idx) := by
  ext (y : S16384.Idx)
  simp only [Finset.mem_union, Rect.mem_set_unit, Finset.mem_univ, iff_true, Fin.forall_fin_one, Matrix.cons_val_zero]
  have hy : (y 0).val < 16384 := (y 0).isLt
  omega

theorem set_chunk (o : ℕ) (inb : ∀ a, (![o] : Fin 1 → ℕ) a + S4096.size a ≤ S16384.size a) :
    ((rowM L t1 t2 h1).slice (Rect.unit (s := S16384) ![o] S4096.size inb) (fun _ => rfl)).view.set
      = (Rect.unit (s := S16384) ![o] S4096.size inb).set.map (rowM L t1 t2 h1).view.emb := View.set_slice _ _

theorem row_subset : (rowM L t1 t2 h1).view.set ⊆ rowsOf (widL L) := by
  intro j hj
  obtain ⟨y, -, rfl⟩ := Finset.mem_map.mp hj
  have hc : 32 * t2.val + widL L < 100 := (cond_iff L t2).mp h1
  have hwl := widL_lt L
  rw [show (rowM L t1 t2 h1).view.emb y = _ from rowM_emb L t1 t2 h1 y]
  unfold rowsOf
  simp only [Finset.mem_filter, Finset.mem_univ, true_and]
  show rowIx L t1 t2 % 128 < 100 ∧ rowIx L t1 t2 % 128 % 32 = widL L
  unfold rowIx; omega

theorem rows_carve (f : Buf (Elt F) (oLoc d)) :
    (oLoc d ↦[rowsOf (widL L)]{fullShare} f : sProp 𝕄)
      ⊣⊢ iprop(((chunk0M L t1 t2 h1).view.loc (thr d L) ↦[(chunk0M L t1 t2 h1).view.set]{fullShare} f)
        ∗ ((chunk1M L t1 t2 h1).view.loc (thr d L) ↦[(chunk1M L t1 t2 h1).view.set]{fullShare} f)
        ∗ ((chunk2M L t1 t2 h1).view.loc (thr d L) ↦[(chunk2M L t1 t2 h1).view.set]{fullShare} f)
        ∗ ((chunk3M L t1 t2 h1).view.loc (thr d L) ↦[(chunk3M L t1 t2 h1).view.set]{fullShare} f)
        ∗ (oLoc d ↦[rowsOf (widL L) \ (rowM L t1 t2 h1).view.set]{fullShare} f)) := by
  have hd : Disjoint R0.set (R1.set ∪ (R2.set ∪ R3.set)) ∧ Disjoint R1.set (R2.set ∪ R3.set) ∧ Disjoint R2.set R3.set := by
    simp only [Finset.disjoint_union_right]
    refine ⟨⟨?_, ?_, ?_⟩, ⟨?_, ?_⟩, ?_⟩ <;> exact Rect.unit_disjoint 0 (Or.inl (by decide))
  have U : ∀ {A B : Finset S16384.Idx}, Disjoint A B →
      ((oLoc d ↦[(A ∪ B).map (rowM L t1 t2 h1).view.emb]{fullShare} f : sProp 𝕄)
        ⊣⊢ iprop((oLoc d ↦[A.map (rowM L t1 t2 h1).view.emb]{fullShare} f) ∗ oLoc d ↦[B.map (rowM L t1 t2 h1).view.emb]{fullShare} f)) :=
    fun h => by rw [Finset.map_union]; exact pointsTo_union ((Finset.disjoint_map _).mpr h)
  rw [set_chunk, set_chunk, set_chunk, set_chunk]
  refine (pointsTo_split_subset (row_subset L t1 t2 h1)).trans ((sep_congr_left ?_).trans
    (Laws.sep_assoc.trans (sep_congr_right (Laws.sep_assoc.trans (sep_congr_right Laws.sep_assoc)))))
  rw [show (rowM L t1 t2 h1).view.set = (R0.set ∪ (R1.set ∪ (R2.set ∪ R3.set))).map (rowM L t1 t2 h1).view.emb by rw [chunks_cover]; rfl]
  exact (U hd.1).trans (sep_congr_right ((U hd.2.1).trans (sep_congr_right (U hd.2.2))))

end Carve

section Fetch
variable (m : (ℓ : Loc nD τ sig) → Buf (Elt F) ℓ) (d : Dev nD) (L : grid0.Coords)
variable [FloatOps F] [Named F]

abbrev idsRowM (c : Fin k0_t1_loop.trips) : Memref sig .scVector .hbm S16384 .i32 :=
  iM.slice (Rect.unit (s := S425984) (k0_off1 c) S16384.size (k0_off1_inb c)) (fun _ => rfl)
def idsCol (c : Fin k0_t1_loop.trips) : IVec S16384 32 := ReadAs.same.apply ((idsRowM c).view.read (Elt F) (idsF m d))

abbrev slabRowM (c : Fin k0_t1_loop.trips) (k : Fin k0_t2_loop.trips) (h1 : k0_cond1 L k = 1#1) : Memref sig .scVector .hbm S100000 .f32 :=
  (((eM.slice (Rect.unit (s := S26x100x100000) (k0_off2 c) S1x100x100000.size (k0_off2_inb L c k h1)) (fun _ => rfl)).squeeze
    S100x100000 squeezes_S1x100x100000_S100x100000).slice (Rect.unit (s := S100x100000) (k0_off3 L k) S1x100000.size (k0_off3_inb L k h1)) (fun _ => rfl)).squeeze S100000 squeezes_S1x100000_S100000
def slabRow (c : Fin k0_t1_loop.trips) (k : Fin k0_t2_loop.trips) (h1 : k0_cond1 L k = 1#1) : FVec F S100000 .f32 :=
  ReadAs.same.apply ((slabRowM L c k h1).view.read (Elt F) (embT m d))

theorem idsCol_lt (hpre : PreOK m) (c : Fin k0_t1_loop.trips) : ∀ j, ((idsCol m d c) j).toNat < 100000 := fun _ => hpre d _

theorem landed_slab (f X : Buf (Elt F) ((thr d L).loc cc0_scratch0)) :
    (slabM.view.loc (thr d L) ↦{fullShare} View.write (Elt F) slabM.view f X Finset.univ : sProp 𝕄)
      = (slabM.view.loc (thr d L) ↦{fullShare} X) :=
  congrArg (fun g => (slabM.view.loc (thr d L) ↦{fullShare} g : sProp 𝕄)) (View.write_whole_univ (Val := Elt F) cc0_scratch0 f X)
theorem landed_idx (f X : Buf (Elt F) ((thr d L).loc cc0_scratch1)) :
    (idxM.view.loc (thr d L) ↦{fullShare} View.write (Elt F) idxM.view f X Finset.univ : sProp 𝕄)
      = (idxM.view.loc (thr d L) ↦{fullShare} X) :=
  congrArg (fun g => (idxM.view.loc (thr d L) ↦{fullShare} g : sProp 𝕄)) (View.write_whole_univ (Val := Elt F) cc0_scratch1 f X)

end Fetch

end Cert.Proof.KI

end
-- ==== Proof.TileVal.lean ====
import proofs.«219071_g10050223472739_week1_w1_120_16_alg».proof.Proof.TileGeo

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

section Val
variable (m : (ℓ : Loc nD τ sig) → Buf (Elt F) ℓ) (d : Dev nD) (L : grid0.Coords)
variable [FloatOps F] [Named F]

private theorem ix3_congr {n0 n1 n2 : ℕ} {a a' : Fin n0} {b b' : Fin n1} {c c' : Fin n2} (ha : a.val = a'.val) (hb : b.val = b'.val)
    (hc : c.val = c'.val) : ix3 a b c = ix3 a' b' c' := by
  obtain rfl := Fin.ext ha; obtain rfl := Fin.ext hb; obtain rfl := Fin.ext hc; rfl

private theorem reshape_slab1 (y : S100000.Idx) :
    Shape.reshapeEquiv (s := S1x100000) (s' := S100000) squeezes_S1x100000_S100000.numel_eq y = (ix2 (0 : Fin 1) (y 0) : S1x100000.Idx) :=
  Shape.reshapeEquiv_eq_of_rowMajor _ (by rw [Shape.rowMajor_val_two, Shape.rowMajor_val_one]; simp)

private theorem reshape_slab2 (z : S100x100000.Idx) :
    Shape.reshapeEquiv (s := S1x100x100000) (s' := S100x100000) squeezes_S1x100x100000_S100x100000.numel_eq z
      = (ix3 (0 : Fin 1) (z 0) (z 1) : S1x100x100000.Idx) :=
  Shape.reshapeEquiv_eq_of_rowMajor _ (by rw [Shape.rowMajor_val_three, Shape.rowMajor_val_two]; simp)

theorem idsCol_apply (c : Fin k0_t1_loop.trips) (y : Fin 16384) :
    idsCol m d c (ix1 y) = (idsF m d : IVec S425984 32) (ix1 (⟨16384 * c.val + y.val, by have := t1_lt c; have := y.isLt; omega⟩ : Fin 425984)) := by
  show (idsF m d : IVec S425984 32) ((idsRowM c).view.emb (ix1 y)) = _
  congr 1
  funext a
  match a with
  | ⟨0, _⟩ => apply Fin.ext; show ((Rect.unit (s := S425984) (k0_off1 c) S16384.size (k0_off1_inb c)).emb (ix1 y) 0 : ℕ) = _; rw [Rect.emb_apply]; simp [k0_off1_eq]

theorem slabRow_apply (c : Fin k0_t1_loop.trips) (k : Fin k0_t2_loop.trips) (h1 : k0_cond1 L k = 1#1) (v : Fin 100000) :
    slabRow m d L c k h1 (ix1 v) = (embT m d : FVec F S26x100x100000 .f32)
      (ix3 (⟨c.val, t1_lt c⟩ : Fin 26) (⟨32 * k.val + widL L, (cond_iff L k).mp h1⟩ : Fin 100) v) := by
  show (embT m d : FVec F S26x100x100000 .f32) ((slabRowM L c k h1).view.emb (ix1 v)) = _
  congr 1
  show (Rect.unit (s := S26x100x100000) (k0_off2 c) S1x100x100000.size (k0_off2_inb L c k h1)).emb
      (Shape.reshapeEquiv (s := S1x100x100000) (s' := S100x100000) squeezes_S1x100x100000_S100x100000.numel_eq
        ((Rect.unit (s := S100x100000) (k0_off3 L k) S1x100000.size (k0_off3_inb L k h1)).emb
          (Shape.reshapeEquiv (s := S1x100000) (s' := S100000) squeezes_S1x100000_S100000.numel_eq (ix1 v)))) = _
  rw [reshape_slab1, reshape_slab2]
  funext a
  match a with
  | ⟨0, _⟩ => apply Fin.ext; rw [Rect.emb_apply]; simp [k0_off2_eq]
  | ⟨1, _⟩ => apply Fin.ext; rw [Rect.emb_apply]; simp [k0_off2_eq, k0_off3_eq, widL]; omega
  | ⟨2, _⟩ => apply Fin.ext; rw [Rect.emb_apply]; simp [k0_off2_eq, k0_off3_eq]

theorem gath_eq_gOut (c : Fin k0_t1_loop.trips) (k : Fin k0_t2_loop.trips) (h1 : k0_cond1 L k = 1#1) (bc : Fin 4) (jj : Fin 4096) :
    gath (idsCol m d c) (slabRow m d L c k h1) bc jj
      = (gOut m d (m (oLoc d)) : FVec F S3328x16384 .f32)
          (ix2 (⟨rowIx L c k, rowIx_lt L c k h1⟩ : Fin 3328) (⟨4096 * bc.val + jj.val, by have := bc.isLt; have := jj.isLt; omega⟩ : Fin 16384)) := by
  have hc := t1_lt c
  have hk : 32 * k.val + widL L < 100 := (cond_iff L k).mp h1
  have hw := widL_lt L
  have hb := bc.isLt
  have hj := jj.isLt
  have hlt : rowIx L c k % 128 < 100 := by unfold rowIx; omega
  unfold gath gOut
  rw [slabRow_apply, dif_pos (show ((ix2 (⟨rowIx L c k, rowIx_lt L c k h1⟩ : Fin 3328) (⟨4096 * bc.val + jj.val, by omega⟩ : Fin 16384) : S3328x16384.Idx) 0).val % 128 < 100 from hlt)]
  refine congrArg _ (ix3_congr ?_ ?_ ?_)
  · show c.val = rowIx L c k / 128
    unfold rowIx; omega
  · show 32 * k.val + widL L = rowIx L c k % 128
    unfold rowIx; omega
  · show (idsCol m d c (ix1 _)).toNat % 100000 = ((idsF m d : IVec S425984 32) (ix1 _)).toNat % 100000
    rw [idsCol_apply]
    refine congrArg (fun z : Fin 425984 => ((idsF m d : IVec S425984 32) (ix1 z)).toNat % 100000) (Fin.ext ?_)
    show 16384 * c.val + (bc.val * 4096 + jj.val) = rowIx L c k / 128 * 16384 + (4096 * bc.val + jj.val)
    unfold rowIx; omega

theorem gPart_row (c : Fin k0_t1_loop.trips) (k : Fin k0_t2_loop.trips) (h1 : k0_cond1 L k = 1#1) (b : Fin 16384) :
    (gPart m d (4 * c.val + (k.val + 1)) : FVec F S3328x16384 .f32) (ix2 (⟨rowIx L c k, rowIx_lt L c k h1⟩ : Fin 3328) b)
      = (gOut m d (m (oLoc d)) : FVec F S3328x16384 .f32) (ix2 (⟨rowIx L c k, rowIx_lt L c k h1⟩ : Fin 3328) b) := by
  have hk : 32 * k.val + widL L < 100 := (cond_iff L k).mp h1
  have hw := widL_lt L
  unfold gPart
  rw [if_pos (show rowIx L c k % 128 < 100 ∧ 4 * (rowIx L c k / 128) + rowIx L c k % 128 / 32 < 4 * c.val + (k.val + 1) by
    unfold rowIx; omega)]

theorem gPart_off_row (c : Fin k0_t1_loop.trips) (k : Fin k0_t2_loop.trips) (j : S3328x16384.Idx) (hj : j ∈ rowsOf (widL L)) (hne : (j 0).val ≠ rowIx L c k) :
    (gPart m d (4 * c.val + k.val) : FVec F S3328x16384 .f32) j = (gPart m d (4 * c.val + (k.val + 1)) : FVec F S3328x16384 .f32) j := by
  have hk := t2_lt k
  have hw := widL_lt L
  unfold rowsOf at hj
  simp only [Finset.mem_filter, Finset.mem_univ, true_and] at hj
  unfold rowIx at hne
  unfold gPart
  exact if_congr (by omega) rfl rfl

theorem gPart_skip (c : Fin k0_t1_loop.trips) (k : Fin k0_t2_loop.trips) (hneg : ¬ k0_cond1 L k = 1#1) (j : S3328x16384.Idx) (hj : j ∈ rowsOf (widL L)) :
    (gPart m d (4 * c.val + k.val) : FVec F S3328x16384 .f32) j = (gPart m d (4 * c.val + (k.val + 1)) : FVec F S3328x16384 .f32) j := by
  refine gPart_off_row m d L c k j hj ?_
  have hk := t2_lt k
  have hw := widL_lt L
  have hge : ¬ 32 * k.val + widL L < 100 := fun h => hneg ((cond_iff L k).mpr h)
  unfold rowsOf at hj
  simp only [Finset.mem_filter, Finset.mem_univ, true_and] at hj
  unfold rowIx
  omega

theorem mem_rowSet_of (c : Fin k0_t1_loop.trips) (k : Fin k0_t2_loop.trips) (h1 : k0_cond1 L k = 1#1) (j : S3328x16384.Idx) (h : (j 0).val = rowIx L c k) :
    j ∈ (rowM L c k h1).view.set := by
  refine Finset.mem_map.mpr ⟨ix1 (j 1), Finset.mem_univ _, ?_⟩
  rw [show (rowM L c k h1).view.emb (ix1 (j 1)) = _ from rowM_emb L c k h1 (ix1 (j 1))]
  have e : (⟨rowIx L c k, rowIx_lt L c k h1⟩ : Fin 3328) = j 0 := Fin.ext h.symm
  rw [e]
  exact (eq_ix2 j).symm

end Val

end Cert.Proof.KI

end
-- ==== Proof.TileSel.lean ====
import proofs.«219071_g10050223472739_week1_w1_120_16_alg».proof.Proof.TileDefs
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F] [Named F]

section Site
variable (d : Dev nD) (L : grid0.Coords) (fI : IVec S16384 32) (fS : FVec F S100000 .f32)

theorem hRect_inb (hh : ℕ) (hhlt : hh < 2) : ∀ a, (![hh, 0] : Fin 2 → ℕ) a + S1x4096.size a ≤ S2x4096.size a :=
  Fin.forall_fin_two.mpr ⟨by show hh + 1 ≤ 2; omega, by show 0 + 4096 ≤ 4096; omega⟩

abbrev hRect (hh : ℕ) (hhlt : hh < 2) : Rect S2x4096 := Rect.unit (s := S2x4096) ![hh, 0] S1x4096.size (hRect_inb hh hhlt)

theorem mem_hRect (hh : ℕ) (hhlt : hh < 2) (i : S2x4096.Idx) : i ∈ (hRect hh hhlt).set ↔ (i 0).val = hh := by
  rw [Rect.mem_set_unit, Fin.forall_fin_two]
  have h1 : (i 1).val < 4096 := (i 1).isLt
  show (hh ≤ (i 0).val ∧ (i 0).val < hh + 1) ∧ (0 ≤ (i 1).val ∧ (i 1).val < 0 + 4096) ↔ _
  omega

def sInv (hh : ℕ) (hhlt : hh < 2) (c : ℕ) (hc : c < 4) (n : ℕ) : sProp 𝕄 :=
  iprop((idxM.view.loc (thr d L) ↦{fullShare} fI)
    ∗ (slabM.view.loc (thr d L) ↦{fullShare} fS)
    ∗ ∃ f7 : FVec F S2x4096 .f32, ⌜∀ j : Fin 4096, j.val < n → f7 (ix2 (⟨hh, hhlt⟩ : Fin 2) j) = gath fI fS ⟨c, hc⟩ j⌝
      ∗ (stgM.view.loc (thr d L) ↦[(hRect hh hhlt).set]{fullShare} f7))

theorem half0_set : half0M.view.set = (hRect 0 (by decide)).set :=
  Eq.trans (View.set_reshape _ _) (View.set_slice_whole _ _)
theorem half1_set : half1M.view.set = (hRect 1 (by decide)).set :=
  Eq.trans (View.set_reshape _ _) (View.set_slice_whole _ _)

theorem selInv0_eq (bc : Fin 4) (c : ℕ) (hc : c < 4) (hbc : bc = ⟨c, hc⟩) (m : ℕ) (u : Unit) :
    selInv0 d L bc fI fS m u = sInv d L fI fS 0 (by decide) c hc (128 * m) := by
  subst hbc
  unfold selInv0 sInv
  rw [half0_set]
  rfl
theorem selInv1_eq (bc : Fin 4) (c : ℕ) (hc : c < 4) (hbc : bc = ⟨c, hc⟩) (m : ℕ) (u : Unit) :
    selInv1 d L bc fI fS m u = sInv d L fI fS 1 (by decide) c hc (128 * m) := by
  subst hbc
  unfold selInv1 sInv
  rw [half1_set]
  rfl

omit [FloatOps F] [Named F] in
theorem rd_idx (a : ℕ) (hA : ∀ b, (![a] : Fin 1 → ℕ) b + S16.size b ≤ S16384.size b) (y : S16.Idx) :
    idxM.view.readAt (Elt F) (Rect.unit (s := S16384) ![a] S16.size hA).toLoadRect fI y
      = fI (ix1 (⟨a + (y 0).val, by have := hA 0; have h2 : (y 0).val < 16 := (y 0).isLt; have h3 : a + 16 ≤ 16384 := this; omega⟩ : Fin 16384)) := by
  rw [View.readAt_apply, View.read_apply]
  refine (cast_eq _ _).trans (congrArg fI ?_)
  funext b; apply Fin.ext
  revert b; refine Fin.forall_fin_one.mpr ?_
  show a + 1 * (y 0).val = a + (y 0).val
  omega

omit [FloatOps F] [Named F] in
theorem chk_ok (hI : ∀ j, (fI j).toNat < 100000) (a : ℕ) (hA : ∀ b, (![a] : Fin 1 → ℕ) b + S16.size b ≤ S16384.size b) :
    ∀ b x, ((![idxM.view.readAt (Elt F) (Rect.unit (s := S16384) ![a] S16.size hA).toLoadRect fI] : Fin 1 → IVec S16 32) b x).toNat < S100000.size b := by
  intro b x
  obtain rfl : b = 0 := Subsingleton.elim _ _
  show (idxM.view.readAt (Elt F) (Rect.unit (s := S16384) ![a] S16.size hA).toLoadRect fI x).toNat < 100000
  rw [rd_idx]
  exact hI _

theorem unit_sub (hh : ℕ) (hhlt : hh < 2) (n : ℕ) (hB : ∀ b, (![hh, n] : Fin 2 → ℕ) b + S1x16.size b ≤ S2x4096.size b) :
    (Rect.unit (s := S2x4096) ![hh, n] S1x16.size hB).set ⊆ (hRect hh hhlt).set := fun x hx => by
  have h := Rect.mem_set_unit.mp hx 0
  have ha : hh ≤ (x 0).val := h.1
  have hb : (x 0).val < hh + 1 := h.2
  exact (mem_hRect hh hhlt x).mpr (by omega)

theorem store_set (hh n : ℕ) (hB : ∀ b, (![hh, n] : Fin 2 → ℕ) b + S1x16.size b ≤ S2x4096.size b) :
    (stgM.access (Rect.unit (s := S2x4096) ![hh, n] S1x16.size hB)).setOn Finset.univ = (Rect.unit (s := S2x4096) ![hh, n] S1x16.size hB).set :=
  (View.setOn_univ _).trans (View.set_slice_whole _ _)

theorem load_sub (hh : ℕ) (hhlt : hh < 2) (n : ℕ) (hB : ∀ b, (![hh, n] : Fin 2 → ℕ) b + S1x16.size b ≤ S2x4096.size b) :
    stgM.view.setOn (Rect.unit (s := S2x4096) ![hh, n] S1x16.size hB).toLoadRect.set ⊆ (hRect hh hhlt).set := fun i hi => by
  obtain ⟨x, hx, rfl⟩ := Finset.mem_map.mp hi
  exact unit_sub hh hhlt n hB hx

omit [Named F] in
theorem site_val (hI : ∀ j, (fI j).toNat < 100000) (hh : ℕ) (hhlt : hh < 2) (c : ℕ) (hc : c < 4) (n : ℕ) (hn : n + 16 ≤ 4096)
    (hA : ∀ b, (![c * 4096 + n] : Fin 1 → ℕ) b + S16.size b ≤ S16384.size b)
    (hB : ∀ b, (![hh, n] : Fin 2 → ℕ) b + S1x16.size b ≤ S2x4096.size b)
    (pf : S16.ShapeCasts S1x16)
    (f7 : FVec F S2x4096 .f32) (hf7 : ∀ j : Fin 4096, j.val < n → f7 (ix2 (⟨hh, hhlt⟩ : Fin 2) j) = gath fI fS ⟨c, hc⟩ j) :
    ∀ j : Fin 4096, j.val < n + 16 →
      (stgM.access (Rect.unit (s := S2x4096) ![hh, n] S1x16.size hB)).write (Elt F) f7
        (shapeCast S1x16 (loadIdx (slabM.view.readAt (Elt F) (LoadRect.whole S100000) fS)
          ![idxM.view.readAt (Elt F) (Rect.unit (s := S16384) ![c * 4096 + n] S16.size hA).toLoadRect fI] (chk_ok fI hI _ hA)) pf)
        Finset.univ (ix2 (⟨hh, hhlt⟩ : Fin 2) j) = gath fI fS ⟨c, hc⟩ j := by
  intro j hj
  by_cases hlt : j.val < n
  · rw [View.write_of_not_mem]
    · exact hf7 j hlt
    · intro hmem
      have h1 : n ≤ j.val := (Rect.mem_set_unit.mp (store_set hh n hB ▸ hmem) 1).1
      omega
  · have hjn : j.val - n < 16 := by omega
    have hx : (stgM.access (Rect.unit (s := S2x4096) ![hh, n] S1x16.size hB)).emb
        (ix2 (0 : Fin 1) (⟨j.val - n, hjn⟩ : Fin 16)) = ix2 (⟨hh, hhlt⟩ : Fin 2) j := by
      funext b; apply Fin.ext
      match b with
      | ⟨0, _⟩ => show hh + 1 * 0 = hh; omega
      | ⟨1, _⟩ => show n + 1 * (j.val - n) = j.val; omega
    rw [← hx, View.write_emb_of_mem _ _ (Finset.mem_univ _)]
    refine (cast_eq _ _).trans ?_
    rw [shapeCast_apply _ pf (ix2 (0 : Fin 1) (⟨j.val - n, hjn⟩ : Fin 16)) (ix1 (⟨j.val - n, hjn⟩ : Fin 16))
      (by rw [Shape.rowMajor_val_one, Shape.rowMajor_val_two]; show j.val - n = 0 * 16 + (j.val - n); omega)]
    unfold loadIdx gath
    refine (congrFun (Memref.readAt_whole (Elt F) cc0_scratch0 fS) _).trans (congrArg fS ?_)
    funext b; apply Fin.ext
    revert b; refine Fin.forall_fin_one.mpr ?_
    show (idxM.view.readAt (Elt F) (Rect.unit (s := S16384) ![c * 4096 + n] S16.size hA).toLoadRect fI
        (ix1 (⟨j.val - n, hjn⟩ : Fin 16))).toNat
      = (fI (ix1 (⟨c * 4096 + j.val, by omega⟩ : Fin 16384))).toNat % 100000
    rw [rd_idx, Nat.mod_eq_of_lt (hI _)]
    exact congrArg (fun t : Fin 16384 => (fI (ix1 t)).toNat) (Fin.ext (by show c * 4096 + n + (j.val - n) = c * 4096 + j.val; omega))

abbrev chkP (t2 : Fin k0_t2_loop.trips) (v : IVec S16 32) : Prop :=
  ∀ (_ : k0_cond1 L t2 = 1#1), ∀ a x, ((![v] : Fin 1 → IVec S16 32) a x).toNat < S100000.size a

omit [FloatOps F] [Named F] in
theorem pts_stg_access (oB : Fin 2 → ℕ) (hB : ∀ b, oB b + S1x16.size b ≤ S2x4096.size b) (S : Finset S2x4096.Idx) (f : FVec F S2x4096 .f32) :
    (((stgM.access (Rect.unit (s := S2x4096) oB S1x16.size hB)).loc (thr d L) ↦[S]{fullShare} f : sProp 𝕄))
      = (stgM.view.loc (thr d L) ↦[S]{fullShare} f) := rfl

variable {d L fI fS} in
theorem site (hI : ∀ j, (fI j).toNat < 100000) {t2 : Fin k0_t2_loop.trips} (h1 : k0_cond1 L t2 = 1#1)
    {hh : ℕ} {hhlt : hh < 2} {c : ℕ} {hc : c < 4} {n a nB : ℕ} {oA : Fin 1 → ℕ} {oB : Fin 2 → ℕ}
    (hoA : oA = ![a]) (hoB : oB = ![hh, nB])
    {hA : ∀ b, oA b + S16.size b ≤ S16384.size b} {hB : ∀ b, oB b + S1x16.size b ≤ S2x4096.size b}
    {dP : ∀ v : IVec S16 32, Decidable (chkP L t2 v)}
    {hlA : idxM.view.LoadsAt (Rect.unit (s := S16384) oA S16.size hA).toLoadRect}
    {hlS : slabM.view.LoadsAt (LoadRect.whole S100000)}
    {hlB : stgM.view.LoadsAt (Rect.unit (s := S2x4096) oB S1x16.size hB).toLoadRect}
    {pf : S16.ShapeCasts S1x16}
    {hx : (stgM.access (Rect.unit (s := S2x4096) oB S1x16.size hB)).Stores Finset.univ}
    {hm : (Finset.univ : Finset (Rect.unit (s := S2x4096) oB S1x16.size hB).shape.Idx) = Finset.univ ∨ ∀ b, (Rect.unit (s := S2x4096) oB S1x16.size hB).stride b = 1}
    {α : Type} {k : PUnit → Prog (TpuEff nD τ sig (Elt F) Λ₀ (thr d L).2) α} {Q : α → sProp 𝕄}
    (hk : sInv d L fI fS hh hhlt c hc (n + 16) ⊢ wp frame (wpE (defs₀ (F := F)) 𝒱₀ (thr d L) none) Set.univ (k ⟨⟩) Q)
    (h : a = c * 4096 + n ∧ n = nB ∧ n + 16 ≤ 4096 := by omega) :
    sInv d L fI fS hh hhlt c hc n ⊢ wp frame (wpE (defs₀ (F := F)) 𝒱₀ (thr d L) none) Set.univ
      (.op (.load idxM (Rect.unit (s := S16384) oA S16.size hA).toLoadRect hlA) fun (v : Vec F S16 .i32) =>
        .op (.assume (chkP L t2 v) (dP v)) fun hw =>
          .op (.load slabM (LoadRect.whole S100000) hlS) fun (fs : Vec F S100000 .f32) =>
            .op (.load stgM (Rect.unit (s := S2x4096) oB S1x16.size hB).toLoadRect hlB) fun (_ : Vec F S1x16 .f32) =>
              .op (.store stgM (Rect.unit (s := S2x4096) oB S1x16.size hB)
                (shapeCast S1x16 (loadIdx fs ![v] (hw.down h1)) pf) Finset.univ hx hm) k) Q := by
  subst hoA hoB
  obtain ⟨rfl, rfl, hn⟩ := h
  unfold sInv
  iintro ⟨Hi, Hs, %f7, %hf7, Hh⟩
  iapply (wp_load 𝒱₀ (thr d L) none Set.univ (m := idxM) (S := Finset.univ) (Finset.subset_univ _)) $$ Hi; iintro Hi
  rw [wp_assume_of _ _ _ _ (fun _ => chk_ok fI hI _ hA)]
  iapply (wp_load 𝒱₀ (thr d L) none Set.univ (m := slabM) (S := Finset.univ) (Finset.subset_univ _)) $$ Hs; iintro Hs
  iapply (wp_load 𝒱₀ (thr d L) none Set.univ (m := stgM) (S := (hRect hh hhlt).set) (load_sub hh hhlt n hB)) $$ Hh; iintro Hh
  ihave Hh' := (Entails.of_eq (pts_stg_access (F := F) d L _ hB _ _).symm) $$ Hh
  iapply (wp_store 𝒱₀ (thr d L) none Set.univ (m := stgM) (r := Rect.unit (s := S2x4096) ![hh, n] S1x16.size hB)
    (Mk := Finset.univ) (S := (hRect hh hhlt).set) ((store_set hh n hB).trans_subset (unit_sub hh hhlt n hB))) $$ Hh'; iintro Hh'
  ihave Hh := (Entails.of_eq (pts_stg_access (F := F) d L _ hB _ _)) $$ Hh'
  iapply hk
  unfold sInv
  isplitl [Hi]; · iexact Hi
  isplitl [Hs]; · iexact Hs
  iexists _; isplitr
  · ipureintro; exact site_val fI fS hI hh hhlt c hc n hn hA hB pf f7 hf7
  · iexact Hh

variable {d L fI fS} in
theorem site_ret {hh : ℕ} {hhlt : hh < 2} {c : ℕ} {hc : c < 4} {n n' : ℕ} {Q : Unit → sProp 𝕄}
    (hQ : Q ⟨⟩ = sInv d L fI fS hh hhlt c hc n') (h : n = n' := by omega) :
    sInv d L fI fS hh hhlt c hc n ⊢ wp frame (wpE (defs₀ (F := F)) 𝒱₀ (thr d L) none) Set.univ (.ret ⟨⟩) Q := by
  subst h
  exact (BIBase.Entails.of_eq hQ.symm).trans (le_wp_ret _ _ _ _ _)

end Site

section Iface
variable (d : Dev nD) (L : grid0.Coords) (fI : IVec S16384 32) (fS : FVec F S100000 .f32)

theorem sel3 (hI : ∀ j, (fI j).toNat < 100000) (t1 : Fin k0_t1_loop.trips) (a10 : BitVec 32) (t2 : Fin k0_t2_loop.trips) (v6 : BitVec 32) (h1 : k0_cond1 L t2 = 1#1) :
    ∀ (k : Fin k0_t3_loop.trips) (acc : Unit),
      selInv0 d L 0 fI fS k.val acc ⊢ wp frame (wpE (defs₀ (F := F)) 𝒱₀ (thr d L) none) Set.univ
        (k0_t3_body L eM (Memref.isWhole_whole _) iM (Memref.isWhole_whole _) oM (Memref.isWhole_whole _) slabM (Memref.isWhole_whole _) idxM (Memref.isWhole_whole _) stgM (Memref.isWhole_whole _)
          cc0_scratch3 cc0_scratch4 cc0_scoped0 cc0_scoped1 t1 a10 t2 v6 h1 k acc)
        (selInv0 d L 0 fI fS (k.val + 1)) := by
  intro k acc
  have : k.val < 32 := k.isLt
  unfold k0_t3_body
  simp only [k0_part1_eq_skeleton, k0_part2_eq_skeleton]
  unfold k0_part1_skel k0_part2_skel
  simp only [Prog.lift, Prog.bind_op, Prog.bind_ret, Prog.pure_eq_ret, SparseCore.vectorLoadIdx_bind (thr d L)]
  rw [selInv0_eq d L fI fS 0 0 (by decide) rfl]
  iterate 8 refine site hI h1 ClosedOff.eq ClosedOff.eq ?_
  exact site_ret (selInv0_eq d L fI fS 0 0 (by decide) rfl _ _)

theorem sel4 (hI : ∀ j, (fI j).toNat < 100000) (t1 : Fin k0_t1_loop.trips) (t2 : Fin k0_t2_loop.trips) (h1 : k0_cond1 L t2 = 1#1) (c20 : BitVec 32) :
    ∀ (k : Fin k0_t4_loop.trips) (acc : Unit),
      selInv1 d L 1 fI fS k.val acc ⊢ wp frame (wpE (defs₀ (F := F)) 𝒱₀ (thr d L) none) Set.univ
        (k0_t4_body L eM (Memref.isWhole_whole _) iM (Memref.isWhole_whole _) oM (Memref.isWhole_whole _) slabM (Memref.isWhole_whole _) idxM (Memref.isWhole_whole _) stgM (Memref.isWhole_whole _)
          cc0_scratch3 cc0_scratch4 cc0_scoped0 cc0_scoped1 t1 t2 h1 c20 k acc)
        (selInv1 d L 1 fI fS (k.val + 1)) := by
  intro k acc
  have : k.val < 32 := k.isLt
  unfold k0_t4_body
  simp only [k0_part3_eq_skeleton, k0_part4_eq_skeleton]
  unfold k0_part3_skel k0_part4_skel
  simp only [Prog.lift, Prog.bind_op, Prog.bind_ret, Prog.pure_eq_ret, SparseCore.vectorLoadIdx_bind (thr d L)]
  rw [selInv1_eq d L fI fS 1 1 (by decide) rfl]
  iterate 8 refine site hI h1 ClosedOff.eq ClosedOff.eq ?_
  exact site_ret (selInv1_eq d L fI fS 1 1 (by decide) rfl _ _)

theorem sel5 (hI : ∀ j, (fI j).toNat < 100000) (t1 : Fin k0_t1_loop.trips) (t2 : Fin k0_t2_loop.trips) (h1 : k0_cond1 L t2 = 1#1) (c20 : BitVec 32) :
    ∀ (k : Fin k0_t5_loop.trips) (acc : Unit),
      selInv0 d L 2 fI fS k.val acc ⊢ wp frame (wpE (defs₀ (F := F)) 𝒱₀ (thr d L) none) Set.univ
        (k0_t5_body L eM (Memref.isWhole_whole _) iM (Memref.isWhole_whole _) oM (Memref.isWhole_whole _) slabM (Memref.isWhole_whole _) idxM (Memref.isWhole_whole _) stgM (Memref.isWhole_whole _)
          cc0_scratch3 cc0_scratch4 cc0_scoped0 cc0_scoped1 t1 t2 h1 c20 k acc)
        (selInv0 d L 2 fI fS (k.val + 1)) := by
  intro k acc
  have : k.val < 32 := k.isLt
  unfold k0_t5_body
  simp only [k0_part5_eq_skeleton, k0_part6_eq_skeleton]
  unfold k0_part5_skel k0_part6_skel
  simp only [Prog.lift, Prog.bind_op, Prog.bind_ret, Prog.pure_eq_ret, SparseCore.vectorLoadIdx_bind (thr d L)]
  rw [selInv0_eq d L fI fS 2 2 (by decide) rfl]
  iterate 8 refine site hI h1 ClosedOff.eq ClosedOff.eq ?_
  exact site_ret (selInv0_eq d L fI fS 2 2 (by decide) rfl _ _)

theorem sel6 (hI : ∀ j, (fI j).toNat < 100000) (t1 : Fin k0_t1_loop.trips) (t2 : Fin k0_t2_loop.trips) (h1 : k0_cond1 L t2 = 1#1) :
    ∀ (k : Fin k0_t6_loop.trips) (acc : Unit),
      selInv1 d L 3 fI fS k.val acc ⊢ wp frame (wpE (defs₀ (F := F)) 𝒱₀ (thr d L) none) Set.univ
        (k0_t6_body L eM (Memref.isWhole_whole _) iM (Memref.isWhole_whole _) oM (Memref.isWhole_whole _) slabM (Memref.isWhole_whole _) idxM (Memref.isWhole_whole _) stgM (Memref.isWhole_whole _)
          cc0_scratch3 cc0_scratch4 cc0_scoped0 cc0_scoped1 t1 t2 h1 k acc)
        (selInv1 d L 3 fI fS (k.val + 1)) := by
  intro k acc
  have : k.val < 32 := k.isLt
  unfold k0_t6_body
  simp only [k0_part7_eq_skeleton, k0_part8_eq_skeleton]
  unfold k0_part7_skel k0_part8_skel
  simp only [Prog.lift, Prog.bind_op, Prog.bind_ret, Prog.pure_eq_ret, SparseCore.vectorLoadIdx_bind (thr d L)]
  rw [selInv1_eq d L fI fS 3 3 (by decide) rfl]
  iterate 8 refine site hI h1 ClosedOff.eq ClosedOff.eq ?_
  exact site_ret (selInv1_eq d L fI fS 3 3 (by decide) rfl _ _)
end Iface

end Cert.Proof.KI

end
-- ==== Proof.TileBody.lean ====
import proofs.«219071_g10050223472739_week1_w1_120_16_alg».proof.Proof.TileGeo
import proofs.«219071_g10050223472739_week1_w1_120_16_alg».proof.Proof.TileVal
import proofs.«219071_g10050223472739_week1_w1_120_16_alg».proof.Proof.TileSel

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords) [FloatOps F] [Named F]

section RowVal
variable (c : Fin k0_t1_loop.trips) (k : Fin k0_t2_loop.trips) (h1 : k0_cond1 L k = 1#1)

-- Word `x` of the chunk at offset `o` of the step's row sits at `(row, o + x)` of the output.
theorem chunk_emb (o : ℕ) (ho : o + 4096 ≤ 16384) (inb : ∀ a, (![o] : Fin 1 → ℕ) a + S4096.size a ≤ S16384.size a) (x : S4096.Idx) :
    ((rowM L c k h1).view.slice (Rect.unit (s := S16384) ![o] S4096.size inb)).emb x
      = (ix2 (⟨rowIx L c k, rowIx_lt L c k h1⟩ : Fin 3328) (⟨o + (x 0).val, by have : (x 0).val < 4096 := (x 0).isLt; omega⟩ : Fin 16384) : S3328x16384.Idx) := by
  show (rowM L c k h1).view.emb ((Rect.unit (s := S16384) ![o] S4096.size inb).emb x) = _
  rw [rowM_emb]
  congr 1
  apply Fin.ext; rw [Rect.emb_apply]; simp

-- A chunk overwritten whole holds, word for word, what was written.
theorem chunk_done (Mc : Memref sig .scVector .hbm S4096 .f32) (f0 h : Buf (Elt F) (Mc.view.loc (thr d L))) (X : S4096.Idx → F .f32)
    (hX : ∀ x, Mc.view.read (Elt F) h x = X x) :
    (Mc.view.loc (thr d L) ↦[Mc.view.set]{fullShare} Mc.view.writes (Elt F) f0 [⟨Rect.whole S4096, X⟩] : sProp 𝕄)
      = (Mc.view.loc (thr d L) ↦[Mc.view.set]{fullShare} h) := by
  obtain rfl : Mc.view.read (Elt F) h = X := funext hX
  exact (pointsTo_writes_whole_rebase (thr d L) Mc f0 _ _ _).trans (pointsTo_rep (thr d L) Mc h _).symm

theorem trips_t1 : Scf.trips k0_t1_loop.lb k0_t1_loop.ub k0_t1_loop.st = 26 := by decide
theorem trips_t2 : Scf.trips k0_t2_loop.lb k0_t2_loop.ub k0_t2_loop.st = 4 := by decide

-- The chunk at offset `4096 bc` of the done row reads what chunk `bc`'s select loop gathered.
theorem chunk_val (o : ℕ) (bc : Fin 4) (hob : o = 4096 * bc.val) (ho : o + 4096 ≤ 16384)
    (inb : ∀ a, (![o] : Fin 1 → ℕ) a + S4096.size a ≤ S16384.size a) (v : S4096.Idx → F .f32)
    {hh : Fin 2} {g : FVec F S2x4096 .f32} {N : ℕ} (hv : ∀ x, v x = g (ix2 hh (x 0))) (hN : 4096 ≤ N)
    (hg : ∀ j : Fin 4096, j.val < N → g (ix2 hh j) = gath (idsCol m d c) (slabRow m d L c k h1) bc j) (x : S4096.Idx) :
    ((rowM L c k h1).view.slice (Rect.unit (s := S16384) ![o] S4096.size inb)).read (Elt F) (gPart m d (4 * c.val + (k.val + 1))) x = v x := by
  obtain ⟨j, rfl⟩ : ∃ j : Fin 4096, x = ix1 j := ⟨x 0, eq_ix1 x⟩
  rw [View.read_apply, chunk_emb L c k h1 o ho inb (ix1 j), (hv (ix1 j)).trans (hg j (j.isLt.trans_le hN)), cast_eq]
  show (gPart m d (4 * c.val + (k.val + 1)) : FVec F S3328x16384 .f32) _ = _
  rw [gPart_row m d L c k h1, gath_eq_gOut m d L c k h1]
  congr 2
  apply Fin.ext
  show o + j.val = 4096 * bc.val + j.val
  omega

theorem reshape_half (y : S4096.Idx) :
    Shape.reshapeEquiv (s := S1x4096) (s' := S4096) squeezes_S1x4096_S4096.numel_eq y = (ix2 (0 : Fin 1) (y 0) : S1x4096.Idx) :=
  Shape.reshapeEquiv_eq_of_rowMajor _ (by rw [Shape.rowMajor_val_two, Shape.rowMajor_val_one]; simp)

-- Word `x` of row `hh` of the staging pair, read through the row's own view.
theorem half_carried (hh : ℕ) (hhlt : hh < 2) (inb : ∀ a, (![hh, 0] : Fin 2 → ℕ) a + S1x4096.size a ≤ S2x4096.size a)
    (g : FVec F S2x4096 .f32) (x : S4096.Idx) :
    (ReadAs.same : ReadAs (Elt F) S4096 .f32 S4096 .f32).apply
      (((stgM.slice (Rect.unit (s := S2x4096) ![hh, 0] S1x4096.size inb) (fun _ => rfl)).squeeze S4096 squeezes_S1x4096_S4096).view.read (Elt F) g) x
      = g (ix2 (⟨hh, hhlt⟩ : Fin 2) (x 0)) := by
  rw [ReadAs.apply_same, View.read_apply, cast_eq]
  refine congrArg g ?_
  show (Rect.unit (s := S2x4096) ![hh, 0] S1x4096.size inb).emb
    (Shape.reshapeEquiv (s := S1x4096) (s' := S4096) squeezes_S1x4096_S4096.numel_eq x) = _
  rw [reshape_half]
  funext a
  match a with
  | ⟨0, _⟩ => apply Fin.ext; rw [Rect.emb_apply]; simp
  | ⟨1, _⟩ => apply Fin.ext; rw [Rect.emb_apply]; simp

end RowVal

-- The two rows, at whatever they hold, are the staging pair again.
theorem stg_join (fa fb : Buf (Elt F) ((thr d L).loc cc0_scratch2)) :
    iprop((half0M.view.loc (thr d L) ↦[half0M.view.set]{fullShare} fa)
        ∗ half1M.view.loc (thr d L) ↦[half1M.view.set]{fullShare} fb)
      ⊢ (iprop(∃ f, (thr d L).loc cc0_scratch2 ↦{fullShare} f) : sProp 𝕄) := by
  have h := pointsTo_join (Ix := HIx 1) (Name := ℕ) (U := UU) (Lvl := ℕ) (ℓ := (thr d L).loc cc0_scratch2) (q := fullShare) (f := fa) (g := fb) halves_disjoint
  rw [halves_cover] at h
  iintro H
  iexists _
  iapply h
  iexact H
section Row
variable (q : PosShare TreeShare) (O : CellTallies nD τ sig (HIx 1)) (W : Waits sig (HIx 1))

-- Between steps: the rows of the steps so far done (`gPart … n`), the scratches and the four semaphores the tile's own, at rest.
def tInv (n : ℕ) (I : sProp 𝕄) : sProp 𝕄 :=
  iprop(∃ fS, ∃ fa, ∃ fb, ∃ W', Transfers.MayWaits (thr d L) (none : HIx 1) O
    ∗ (eM.view.loc (thr d L) ↦{q} embT m d)
    ∗ (iM.view.loc (thr d L) ↦{q} idsF m d)
    ∗ (oLoc d ↦[rowsOf (widL L)]{fullShare} gPart m d n)
    ∗ (slabM.view.loc (thr d L) ↦{fullShare} fS)
    ∗ I
    ∗ (half0M.view.loc (thr d L) ↦[half0M.view.set]{fullShare} fa)
    ∗ (half1M.view.loc (thr d L) ↦[half1M.view.set]{fullShare} fb)
    ∗ semVal (semA d L) 0 ∗ semVal (semB d L) 0 ∗ semVal (semI d L) 0 ∗ semVal (semS d L) 0
    ∗ ⌜∀ p ∈ W', p ∈ W ∨ p.2 = none⌝ ∗ owes (thr d L) O W')

def inv2 (c : Fin k0_t1_loop.trips) (k : ℕ) (_ : Unit) : sProp 𝕄 :=
  tInv m d L q O W (4 * c.val + k) (idxM.view.loc (thr d L) ↦{fullShare} idsCol m d c)

def inv1 (c : ℕ) (_ : Unit) : sProp 𝕄 :=
  tInv m d L q O W (4 * c) iprop(∃ f, idxM.view.loc (thr d L) ↦{fullShare} f)

-- One step carries the invariant from `4 c + k` steps done to `4 c + k + 1`.
theorem t2_region (hpre : PreOK m) (v1 a10 : BitVec 32) (c : Fin k0_t1_loop.trips) :
    ∀ (k : Fin k0_t2_loop.trips) (acc : Unit),
      inv2 m d L q O W c k.val acc ⊢ wp frame (wpE (defs₀ (F := F)) 𝒱₀ (thr d L) none) Set.univ
        (k0_t2_body L eM (Memref.isWhole_whole _) iM (Memref.isWhole_whole _) oM (Memref.isWhole_whole _) slabM (Memref.isWhole_whole _) idxM (Memref.isWhole_whole _) stgM (Memref.isWhole_whole _)
          cc0_scratch3 cc0_scratch4 cc0_scoped0 cc0_scoped1 v1 c a10 k acc)
        (inv2 m d L q O W c (k.val + 1)) := by
  intro k _
  unfold inv2 tInv
  iintro ⟨%fS0, %fa, %fb, %W', Hmw, He, Hi, Ho, Hs0, Hs1, Hh0, Hh1, HsA, HsB, HsI, HsS, %hW', HO⟩
  by_cases h1 : k0_cond1 L k = 1#1
  · have hI := idsCol_lt m d hpre c
    ihave Hc := (rows_carve (F := F) d L c k h1 _).1 $$ Ho
    icases Hc with ⟨Hc0, Hc1, Hc2, Hc3, Hrest⟩
    sl_exec
    ihave Hs0 := (Entails.of_eq (landed_slab (F := F) d L _ _)) $$ Hs0
    sl_for (selInv0 d L 0 (idsCol m d c) (slabRow m d L c k h1)) $$ [Hs1 Hs0 Hh0]
    case region => exact sel3 d L (idsCol m d c) (slabRow m d L c k h1) hI c 0#32 k 0#32 h1
    · unfold selInv0
      iframe Hs1
      isplitl [Hs0]; · iexact Hs0
      iexists fa
      iframe
      ipureintro; intro j hj; omega
    iintro %_ HI
    unfold selInv0
    icases HI with ⟨Hs1, Hs0, %g0, %hg0, Hh0⟩
    sl_exec
    sl_for (selInv1 d L 1 (idsCol m d c) (slabRow m d L c k h1)) $$ [Hs1 Hs0 Hh1]
    case region => exact sel4 d L (idsCol m d c) (slabRow m d L c k h1) hI c k h1 0#32
    · unfold selInv1
      iframe Hs1 Hs0
      iexists fb
      iframe
      ipureintro; intro j hj; omega
    iintro %_ HI
    unfold selInv1
    icases HI with ⟨Hs1, Hs0, %g1, %hg1, Hh1⟩
    sl_exec
    sl_for (selInv0 d L 2 (idsCol m d c) (slabRow m d L c k h1)) $$ [Hs1 Hs0 Hh0]
    case region => exact sel5 d L (idsCol m d c) (slabRow m d L c k h1) hI c k h1 0#32
    · unfold selInv0
      iframe Hs1 Hs0
      iexists g0
      iframe
      ipureintro; intro j hj; omega
    iintro %_ HI
    unfold selInv0
    icases HI with ⟨Hs1, Hs0, %g2, %hg2, Hh0⟩
    sl_exec
    sl_for (selInv1 d L 3 (idsCol m d c) (slabRow m d L c k h1)) $$ [Hs1 Hs0 Hh1]
    case region => exact sel6 d L (idsCol m d c) (slabRow m d L c k h1) hI c k h1
    · unfold selInv1
      iframe Hs1 Hs0
      iexists g1
      iframe
      ipureintro; intro j hj; omega
    iintro %_ HI
    unfold selInv1
    icases HI with ⟨Hs1, Hs0, %g3, %hg3, Hh1⟩
    sl_exec
    sl_step
    ihave Hc0 := (Entails.of_eq (chunk_done (F := F) d L (chunk0M L c k h1) _ _ _
      (chunk_val m d L c k h1 0 0 rfl (by decide) inb_S16384_S4096_0 (t2_region.sl.dma0_1 g0) (half_carried 0 (by decide) inb_S2x4096_S1x4096_0_0 g0) (by decide) hg0))) $$ Hc0
    ihave Hc1 := (Entails.of_eq (chunk_done (F := F) d L (chunk1M L c k h1) _ _ _
      (chunk_val m d L c k h1 4096 1 rfl (by decide) inb_S16384_S4096_4096 (t2_region.sl.dma0_2 g1) (half_carried 1 (by decide) inb_S2x4096_S1x4096_1_0 g1) (by decide) hg1))) $$ Hc1
    ihave Hc2 := (Entails.of_eq (chunk_done (F := F) d L (chunk2M L c k h1) _ _ _
      (chunk_val m d L c k h1 8192 2 rfl (by decide) inb_S16384_S4096_8192 (t2_region.sl.dma0_3 g2) (half_carried 0 (by decide) inb_S2x4096_S1x4096_0_0 g2) (by decide) hg2))) $$ Hc2
    ihave Hc3 := (Entails.of_eq (chunk_done (F := F) d L (chunk3M L c k h1) _ _ _
      (chunk_val m d L c k h1 12288 3 rfl (by decide) inb_S16384_S4096_12288 (t2_region.sl.dma0_4 g3) (half_carried 1 (by decide) inb_S2x4096_S1x4096_1_0 g3) (by decide) hg3))) $$ Hc3
    ihave Hrest := (Entails.of_eq (pointsTo_congr (Ix := HIx 1) (Name := ℕ) (U := UU) (Lvl := ℕ) (ℓ := oLoc d) (q := fullShare) fun j hj =>
      gPart_off_row m d L c k j (Finset.mem_sdiff.mp hj).1 fun e => (Finset.mem_sdiff.mp hj).2 (mem_rowSet_of L c k h1 j e))) $$ Hrest
    ihave Ho := (rows_carve (F := F) d L c k h1 (gPart m d (4 * c.val + (k.val + 1)))).2 $$ [Hc0 Hc1 Hc2 Hc3 Hrest]
    · iframe
    iexists _, _, _, _
    iframe
    isplitl [HsA]; · iexact HsA
    isplitl [HsB]; · iexact HsB
    isplitl [HsS]; · iexact HsS
    ipureintro; intro p hp
    iterate 5 (rcases Finset.mem_insert.mp hp with rfl | hp; · exact .inr rfl)
    exact hW' p hp
  · sl_exec
    sl_step
    ihave Ho := (Entails.of_eq (pointsTo_congr (Ix := HIx 1) (Name := ℕ) (U := UU) (Lvl := ℕ) (q := fullShare) (gPart_skip m d L c k h1))) $$ Ho
    iexists _, _, _, _
    iframe
    ipureintro; exact hW'

-- One column carries the invariant from `4 c` steps done to `4 (c + 1)`.
theorem t1_region (hpre : PreOK m) (v1 : BitVec 32) :
    ∀ (c : Fin k0_t1_loop.trips) (acc : Unit),
      inv1 m d L q O W c.val acc ⊢ wp frame (wpE (defs₀ (F := F)) 𝒱₀ (thr d L) none) Set.univ
        (k0_t1_body L eM (Memref.isWhole_whole _) iM (Memref.isWhole_whole _) oM (Memref.isWhole_whole _) slabM (Memref.isWhole_whole _) idxM (Memref.isWhole_whole _) stgM (Memref.isWhole_whole _)
          cc0_scratch3 cc0_scratch4 cc0_scoped0 cc0_scoped1 v1 c acc)
        (inv1 m d L q O W (c.val + 1)) := by
  intro c _
  unfold inv1 tInv
  iintro ⟨%fS, %fa, %fb, %W', Hmw, He, Hi, Ho, Hs0, ⟨%fI0, Hs1⟩, Hh0, Hh1, HsA, HsB, HsI, HsS, %hW', HO⟩
  sl_exec
  ihave Hs1 := (Entails.of_eq (landed_idx (F := F) d L _ _)) $$ Hs1
  sl_for (inv2 m d L q O W c) $$ [Hmw He Hi Ho Hs0 Hs1 Hh0 Hh1 HsA HsB HsI HsS HO]
  case region => exact t2_region m d L q O W hpre _ _ c
  · unfold inv2 tInv
    rw [Nat.add_zero]
    iexists _, _, _, _
    iframe
    isplitl [Hs1]; · iexact Hs1
    isplitl [HsI]; · iexact HsI
    ipureintro; intro p hp
    rcases Finset.mem_insert.mp hp with rfl | hp
    · exact .inr rfl
    · exact hW' p hp
  iintro %_ HI
  unfold inv2 tInv
  icases HI with ⟨%fS', %fa', %fb', %W'', Hmw, He, Hi, Ho, Hs0, Hs1, Hh0, Hh1, HsA, HsB, HsI, HsS, %hW'', HO⟩
  sl_exec
  sl_step
  ihave Ho := (Entails.of_eq (congrArg (fun n => (oLoc d ↦[rowsOf (widL L)]{fullShare} gPart m d n : sProp 𝕄))
    (show 4 * c.val + Scf.trips k0_t2_loop.lb k0_t2_loop.ub k0_t2_loop.st = 4 * (c.val + 1) by rw [trips_t2]; omega))) $$ Ho
  iexists _, _, _, _
  iframe
  isplitl [Hs1]
  · iexists _; iexact Hs1
  · ipureintro; exact hW''

end Row

-- The whole task: twenty-six columns take the tile's rows from the first contents to the gathered ones.
theorem tile_body (q : PosShare TreeShare) (hF : (K (F := F)).Facts) (hpre : PreOK m) (O : CellTallies nD τ sig (HIx 1)) (W : Waits sig (HIx 1)) (hO : ∀ g, O g none = 0) :
    (iprop(levAts (K (F := F)).L (K (F := F)).lev ∗ emp
        ∗ ((eLoc d ↦{q} embT m d) ∗ (iLoc d ↦{q} idsF m d) ∗ oLoc d ↦[rowsOf (widL L)]{fullShare} m (oLoc d))
        ∗ scopedBufs (thr d L) ∗ scopedSems0 (thr d L) ∗ owes (thr d L) O W) : sProp 𝕄)
      ⊢ wp frame (wpE (defs₀ (F := F)) 𝒱₀ (thr d L) none) Set.univ
          (cc0__sc_gather_body L eM (Memref.isWhole_whole _) iM (Memref.isWhole_whole _) oM (Memref.isWhole_whole _)
            slabM (Memref.isWhole_whole _) idxM (Memref.isWhole_whole _) stgM (Memref.isWhole_whole _) cc0_scratch3 cc0_scratch4 cc0_scoped0 cc0_scoped1)
          fun _ => iprop(((eLoc d ↦{q} embT m d) ∗ (iLoc d ↦{q} idsF m d) ∗ oLoc d ↦[rowsOf (widL L)]{fullShare} gOut m d (m (oLoc d)))
            ∗ scopedBufs (thr d L) ∗ scopedSems0 (thr d L) ∗ ∃ W', ⌜∀ p ∈ W', p ∈ W ∨ p.2 = none⌝ ∗ owes (thr d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨He, Hi, Ho⟩, ⟨⟨%f0, Hs0⟩, ⟨%f1, Hs1⟩, ⟨%f2, Hs2⟩, Hbufs⟩, ⟨HsA, HsB, HsI, HsS, Hsems⟩, HO⟩
  ihave Hmw := ((K (F := F)).mayWaits_none (thr := thr d L) hO) $$ Hlv
  sl_exec
  ihave Hh := (stg_split (F := F) d L f2).1 $$ Hs2
  icases Hh with ⟨Hh0, Hh1⟩
  sl_for (inv1 m d L q O W) $$ [Hmw He Hi Ho Hs0 Hs1 Hh0 Hh1 HsA HsB HsI HsS HO]
  case region => exact t1_region m d L q O W hpre _
  · unfold inv1 tInv
    rw [Nat.mul_zero, gPart_zero]
    iexists _, _, _, _
    iframe
    isplitl [Hmw]; · iexact Hmw
    isplitl [Hs1]; · iexists _; iexact Hs1
    ipureintro; exact fun p hp => .inl hp
  iintro %_ HI
  unfold inv1 tInv
  icases HI with ⟨%fS, %fa, %fb, %W', -, He, Hi, Ho, Hs0, ⟨%fI, Hs1⟩, Hh0, Hh1, HsA, HsB, HsI, HsS, %hW', HO⟩
  sl_exec
  sl_step
  ihave Ho := (Entails.of_eq (congrArg (fun f => (oLoc d ↦[rowsOf (widL L)]{fullShare} f : sProp 𝕄))
    (show gPart m d (4 * Scf.trips k0_t1_loop.lb k0_t1_loop.ub k0_t1_loop.st) = gOut m d (m (oLoc d)) by rw [trips_t1]; exact gPart_last m d))) $$ Ho
  ihave Hs2 := (stg_join (F := F) d L _ _) $$ [Hh0 Hh1]
  · iframe
  isplitl [He Hi Ho]; · iframe
  isplitl [Hs0 Hs1 Hs2 Hbufs]
  · isplitl [Hs0]; · iexists _; iexact Hs0
    isplitl [Hs1]; · iexists _; iexact Hs1
    iframe
  isplitl [HsA HsB HsI HsS Hsems]; · iframe
  iexists W'
  iframe
  ipureintro; exact hW'

end Cert.Proof.KI

end
-- ==== Proof.TileObl.lean ====
import proofs.«219071_g10050223472739_week1_w1_120_16_alg».proof.Proof.TileBody
import Idealize.ShloMosaic.Lib.SparseCore.Threads
import Idealize.ShloMosaic.Lib.Pipeline.Dat

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig (HIx 1) (Elt F) ℕ UU ℕ

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

/-- On a vector subcore the gather call's label is the kernel at the subcore's coordinates. -/
theorem defs₀_vector (c : Fin τ.nSC) (s : Fin τ.nSub) :
    defs₀ (F := F) (.scVector c s) 0 ()
      = SparseCore.onTile hcore0 hsub0 (fun c s => cc0__sc_gather_body (coordsV c s)
          eM (Memref.isWhole_whole _) iM (Memref.isWhole_whole _) oM (Memref.isWhole_whole _)
          slabM (Memref.isWhole_whole _) idxM (Memref.isWhole_whole _) stgM (Memref.isWhole_whole _) cc0_scratch3 cc0_scratch4 cc0_scoped0 cc0_scoped1) ⟨⟩ c s := rfl

omit [FloatOps F] [Named F] in
/-- A recorded pair allowed at index `none` is allowed by the weaker disjunction. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) (qT (cC c) (sS i)) facts hpre O W hO).trans (wp_mono frame _ _ fun _ => obl_post)

end Cert.Proof.KI

end
-- ==== Proof.RunMain.lean ====
import proofs.«219071_g10050223472739_week1_w1_120_16_alg».proof.Proof.RunMain0
import proofs.«219071_g10050223472739_week1_w1_120_16_alg».proof.Proof.TileObl

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ) (ρ : Dev nD → PrngReg)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (G (F := F)) (FIN (W4 m)) (u₀ (F := F)) (sep_elim_left.trans (hu₀ m)) (hmain m ρ) (fq (W4 m)) (hfin (W4 m)) (QC m) (fun _ h => h)

end Cert.Proof.KI

end
-- ==== Proof.lean ====
import proofs.«219071_g10050223472739_week1_w1_120_16_alg».proof.Defs
import proofs.«219071_g10050223472739_week1_w1_120_16_alg».proof.Proof.Gen.Kernel
import proofs.«219071_g10050223472739_week1_w1_120_16_alg».proof.Proof.Gen.KernelIdeal
import proofs.«219071_g10050223472739_week1_w1_120_16_alg».proof.Proof.Gen.ReferenceIdeal
import proofs.«219071_g10050223472739_week1_w1_120_16_alg».proof.Proof.Gen.Pre_input_domain
import proofs.«219071_g10050223472739_week1_w1_120_16_alg».proof.Proof.Preserves
import proofs.«219071_g10050223472739_week1_w1_120_16_alg».proof.Proof.PreDecode
import proofs.«219071_g10050223472739_week1_w1_120_16_alg».proof.Proof.Asm
import proofs.«219071_g10050223472739_week1_w1_120_16_alg».proof.Proof.RunMain
import proofs.«219071_g10050223472739_week1_w1_120_16_alg».proof.Proof.RunMainB
import proofs.«219071_g10050223472739_week1_w1_120_16_alg».proof.Proof.RefRun
import Idealize.ShloMosaic.Adequacy
import Idealize.ShloMosaic.Init

noncomputable section

namespace Cert.Proof

open Idealize.ShloMosaic Idealize.ShloMosaic.TcCoe Idealize.SL.Sem

attribute [local instance] Kernel.Gen.facts KernelIdeal.Gen.facts ReferenceIdeal.Gen.facts Pre_input_domain.Gen.facts

theorem claim : Claim :=
  ⟨Kernel.Gen.facts, KernelIdeal.Gen.facts, ReferenceIdeal.Gen.facts, Pre_input_domain.Gen.facts,
    fun m ρ hpre => KB.frame_of_run m ρ (KB.run_main (F := Bits) m ρ fun d =>
      all_of_ix2 (PreDecode.ids_of_fn (F := Bits) _ _ _ _ _ _ _ _ _ _ _ _ _ _ (hpre d))),
    fun m ρ hpre => KI.frame_of_run m ρ (KI.run_main (F := Ideal) m ρ (preOK_KI m hpre)),
    fun m ρ _ => (θ_run ReferenceIdeal.defs _ _).mono (fun _ h c => (h c).2.2) (ReferenceIdeal.RefRun.run (F := Ideal) m ρ),
    preserves, algebraic_of_run fun m ρ hpre => KI.run_main (F := Ideal) m ρ hpre⟩

end Cert.Proof

end
